-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "margin_scale" .f32 0x41100000#32 ((75497475 / 8388608 : ℝ) : EReal)
  ∧ IdealRules.named_const.Statement Cert.KernelIdeal.κ "neg_big" .f32 0xCE6E6B28#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v41) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S20000x256 : Shape := ⟨2, ![20000, 256]⟩
abbrev S_ : Shape := ⟨0, ![]⟩
abbrev S4096x1 : Shape := ⟨2, ![4096, 1]⟩
abbrev S20000 : Shape := ⟨1, ![20000]⟩
abbrev S20000x1 : Shape := ⟨2, ![20000, 1]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S20000x256 : S_.BroadcastsInDim S20000x256 (![] : Fin 0 → Fin S20000x256.rank)
  reducesTo_S20000x256_S_d0_1 : S20000x256.ReducesTo [0, 1] S_
  bcast_S_S4096 : S_.BroadcastsInDim S4096 (![] : Fin 0 → Fin S4096.rank)
  reducesTo_S4096_S_d0 : S4096.ReducesTo [0] S_
  reducesTo_S4096x256_S4096_d1 : S4096x256.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  reducesTo_S4096x1_S_d0_1 : S4096x1.ReducesTo [0, 1] S_
  reducesTo_S20000x256_S20000_d1 : S20000x256.ReducesTo [1] S20000
  bcast_S20000_S20000x1_0 : S20000.BroadcastsInDim S20000x1 (![0] : Fin 1 → Fin S20000x1.rank)
  bcast_S_S20000x1 : S_.BroadcastsInDim S20000x1 (![] : Fin 0 → Fin S20000x1.rank)
  reducesTo_S20000x1_S_d0_1 : S20000x1.ReducesTo [0, 1] S_

variable [Facts]

def fn_part1 {F : FTy → Type} [FloatOps F] (main_arg0 : FVec F S4096x256 .f32) (main_arg2 : FVec F S20000x256 .f32) (main_v12 : IVec S_ 1) (main_v15 : IVec S_ 1) : IVec S_ 1 :=
  let main_v16 : IVec S_ 1 := andi main_v12 main_v15
  let main_v17 : FVec F S4096x256 .f32 := mulf main_arg0 main_arg0
  let main_cst_6 : FVec F S_ .f32 := constant S_ .f32 0x00000000#32
  let main_v18 : FVec F S4096 .f32 := (fun x v => Host.reduceAdd x v reducesTo_S4096x256_S4096_d1 h_S_) main_v17 main_cst_6
  let main_v19 : FVec F S4096x1 .f32 := broadcastInDim S4096x1 ![0] bcast_S4096_S4096x1_0 main_v18
  let main_v20 : FVec F S4096x1 .f32 := Host.sqrt main_v19
  let main_cst_7 : FVec F S_ .f32 := constant S_ .f32 0x00000000#32
  let main_v21 : FVec F S4096x1 .f32 := broadcastInDim S4096x1 ![] bcast_S_S4096x1 main_cst_7
  let main_v22 : IVec S4096x1 1 := cmpf .ogt main_v20 main_v21
  let main_c_8 : IVec S_ 1 := constantI S_ 1 1#1
  let main_v23 : IVec S_ 1 := (fun x v => Host.reduce IntOp.andi x v reducesTo_S4096x1_S_d0_1 h_S_) main_v22 main_c_8
  let main_v24 : IVec S_ 1 := andi main_v16 main_v23
  let main_v25 : FVec F S20000x256 .f32 := mulf main_arg2 main_arg2
  let main_cst_9 : FVec F S_ .f32 := constant S_ .f32 0x00000000#32
  let main_v26 : FVec F S20000 .f32 := (fun x v => Host.reduceAdd x v reducesTo_S20000x256_S20000_d1 h_S_) main_v25 main_cst_9
  let main_v27 : FVec F S20000x1 .f32 := broadcastInDim S20000x1 ![0] bcast_S20000_S20000x1_0 main_v26
  let main_v28 : FVec F S20000x1 .f32 := Host.sqrt main_v27
  let main_cst_10 : FVec F S_ .f32 := constant S_ .f32 0x00000000#32
  let main_v29 : FVec F S20000x1 .f32 := broadcastInDim S20000x1 ![] bcast_S_S20000x1 main_cst_10
  let main_v30 : IVec S20000x1 1 := cmpf .ogt main_v28 main_v29
  let main_c_11 : IVec S_ 1 := constantI S_ 1 1#1
  let main_v31 : IVec S_ 1 := (fun x v => Host.reduce IntOp.andi x v reducesTo_S20000x1_S_d0_1 h_S_) main_v30 main_c_11
  let main_v32 : IVec S_ 1 := andi main_v24 main_v31
  main_v32

def fn {F : FTy → Type} [FloatOps F] (main_arg0 : FVec F S4096x256 .f32) (main_arg1 : IVec S4096 32) (main_arg2 : FVec F S20000x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S20000x256 .f32 := Host.absf main_arg2
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg1 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v8 main_v11
  let main_c_4 : IVec S_ 32 := constantI S_ 32 20000#32
  let main_v13 : IVec S4096 32 := broadcastInDim S4096 ![] bcast_S_S4096 main_c_4
  let main_v14 : IVec S4096 1 := cmpi .slt main_arg1 main_v13
  let main_c_5 : IVec S_ 1 := constantI S_ 1 1#1
  let main_v15 : IVec S_ 1 := (fun x v => Host.reduce IntOp.andi x v reducesTo_S4096_S_d0 h_S_) main_v14 main_c_5
  fn_part1 (F := F) main_arg0 main_arg2 main_v12 main_v15
-- ==== Kernel.lean ====
abbrev S4096x256 : Shape := ⟨2, ![4096, 256]⟩
abbrev S4096 : Shape := ⟨1, ![4096]⟩
abbrev S20000x256 : Shape := ⟨2, ![20000, 256]⟩
abbrev S_ : Shape := ⟨0, ![]⟩
abbrev S4096x1 : Shape := ⟨2, ![4096, 1]⟩
abbrev S20000 : Shape := ⟨1, ![20000]⟩
abbrev S20000x1 : Shape := ⟨2, ![20000, 1]⟩
abbrev S20480x256 : Shape := ⟨2, ![20480, 256]⟩
abbrev S512x1 : Shape := ⟨2, ![512, 1]⟩
abbrev S512x256 : Shape := ⟨2, ![512, 256]⟩
abbrev S1024x256 : Shape := ⟨2, ![1024, 256]⟩
abbrev S256x1024 : Shape := ⟨2, ![256, 1024]⟩
abbrev S512x1024 : Shape := ⟨2, ![512, 1024]⟩
abbrev S512 : Shape := ⟨1, ![512]⟩
abbrev S1x4096 : Shape := ⟨2, ![1, 4096]⟩
abbrev S1x512 : Shape := ⟨2, ![1, 512]⟩
abbrev S256x512 : Shape := ⟨2, ![256, 512]⟩
abbrev S512x512 : Shape := ⟨2, ![512, 512]⟩

abbrev nBuf : Space → Nat
  | .hbm => 80
  | .vmem => 23
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S20000x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S4096x256, .f32⟩
  | .hbm, ⟨9, _⟩ => ⟨S4096x256, .f32⟩
  | .hbm, ⟨10, _⟩ => ⟨S20000x256, .f32⟩
  | .hbm, ⟨11, _⟩ => ⟨S_, .f32⟩
  | .hbm, ⟨12, _⟩ => ⟨S20000, .f32⟩
  | .hbm, ⟨13, _⟩ => ⟨S20000x1, .f32⟩
  | .hbm, ⟨14, _⟩ => ⟨S20000x1, .f32⟩
  | .hbm, ⟨15, _⟩ => ⟨S20000x256, .f32⟩
  | .hbm, ⟨16, _⟩ => ⟨S20000x256, .f32⟩
  | .hbm, ⟨17, _⟩ => ⟨S4096x256, .bf16⟩
  | .hbm, ⟨18, _⟩ => ⟨S20000x256, .bf16⟩
  | .hbm, ⟨19, _⟩ => ⟨S_, .i32⟩
  | .hbm, ⟨20, _⟩ => ⟨S_, .bf16⟩
  | .hbm, ⟨21, _⟩ => ⟨S20480x256, .bf16⟩
  | .hbm, ⟨22, _⟩ => ⟨S4096x1, .i32⟩
  | .hbm, ⟨23, _⟩ => ⟨S4096x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096x1, .i32⟩
  | .hbm, ⟨29, _⟩ => ⟨S1x4096, .i32⟩
  | .hbm, ⟨30, _⟩ => ⟨S4096x1, .f32⟩
  | .hbm, ⟨31, _⟩ => ⟨S4096x1, .f32⟩
  | .hbm, ⟨32, _⟩ => ⟨S4096, .f32⟩
  | .hbm, ⟨33, _⟩ => ⟨S_, .f32⟩
  | .hbm, ⟨34, _⟩ => ⟨S20000, .f32⟩
  | .hbm, ⟨35, _⟩ => ⟨S4096x1, .i32⟩
  | .hbm, ⟨36, _⟩ => ⟨S20000, .f32⟩
  | .hbm, ⟨37, _⟩ => ⟨S4096, .f32⟩
  | .hbm, ⟨38, _⟩ => ⟨S_, .f32⟩
  | .hbm, ⟨39, _⟩ => ⟨S20000, .f32⟩
  | .hbm, ⟨40, _⟩ => ⟨S4096x1, .i32⟩
  | .hbm, ⟨41, _⟩ => ⟨S20000, .f32⟩
  | .hbm, ⟨42, _⟩ => ⟨S_, .f32⟩
  | .hbm, ⟨43, _⟩ => ⟨S20000, .f32⟩
  | .hbm, ⟨44, _⟩ => ⟨S20000, .i1⟩
  | .hbm, ⟨45, _⟩ => ⟨S_, .f32⟩
  | .hbm, ⟨46, _⟩ => ⟨S20000, .f32⟩
  | .hbm, ⟨47, _⟩ => ⟨S20000, .f32⟩
  | .hbm, ⟨48, _⟩ => ⟨S20000, .f32⟩
  | .hbm, ⟨49, _⟩ => ⟨S_, .f32⟩
  | .hbm, ⟨50, _⟩ => ⟨S_, .f32⟩
  | .hbm, ⟨51, _⟩ => ⟨S20000, .f32⟩
  | .hbm, ⟨52, _⟩ => ⟨S20000, .f32⟩
  | .hbm, ⟨53, _⟩ => ⟨S_, .f32⟩
  | .hbm, ⟨54, _⟩ => ⟨S20000, .f32⟩
  | .hbm, ⟨55, _⟩ => ⟨S20000, .f32⟩
  | .hbm, ⟨56, _⟩ => ⟨S_, .f32⟩
  | .hbm, ⟨57, _⟩ => ⟨S20000, .f32⟩
  | .hbm, ⟨58, _⟩ => ⟨S20000, .f32⟩
  | .hbm, ⟨59, _⟩ => ⟨S_, .f32⟩
  | .hbm, ⟨60, _⟩ => ⟨S_, .f32⟩
  | .hbm, ⟨61, _⟩ => ⟨S20000, .f32⟩
  | .hbm, ⟨62, _⟩ => ⟨S20000, .f32⟩
  | .hbm, ⟨63, _⟩ => ⟨S20000, .i32⟩
  | .hbm, ⟨64, _⟩ => ⟨S_, .i32⟩
  | .hbm, ⟨65, _⟩ => ⟨S_, .i32⟩
  | .hbm, ⟨66, _⟩ => ⟨S_, .f32⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .local _ .vmem, ⟨0, _⟩ => ⟨S512x1, .i32⟩
  | .local _ .vmem, ⟨1, _⟩ => ⟨S512x1, .i32⟩
  | .local _ .vmem, ⟨2, _⟩ => ⟨S512x256, .bf16⟩
  | .local _ .vmem, ⟨3, _⟩ => ⟨S512x256, .bf16⟩
  | .local _ .vmem, ⟨4, _⟩ => ⟨S1024x256, .bf16⟩
  | .local _ .vmem, ⟨5, _⟩ => ⟨S1024x256, .bf16⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .i32⟩
  | .local _ .vmem, ⟨12, _⟩ => ⟨S512x1, .i32⟩
  | .local _ .vmem, ⟨13, _⟩ => ⟨S1x512, .i32⟩
  | .local _ .vmem, ⟨14, _⟩ => ⟨S1x512, .i32⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x1, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call2_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_call3_v0 : Ref sig .tc := ⟨.hbm, 50, rfl⟩
abbrev main_call3_v1 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_call4_cst : Ref sig .tc := ⟨.hbm, 56, rfl⟩
abbrev main_call4_v0 : Ref sig .tc := ⟨.hbm, 57, rfl⟩
abbrev main_v32 : Ref sig .tc := ⟨.hbm, 58, rfl⟩
abbrev main_cst_7 : Ref sig .tc := ⟨.hbm, 59, rfl⟩
abbrev main_call5_v0 : Ref sig .tc := ⟨.hbm, 60, rfl⟩
abbrev main_call5_v1 : Ref sig .tc := ⟨.hbm, 61, rfl⟩
abbrev main_v33 : Ref sig .tc := ⟨.hbm, 62, rfl⟩
abbrev main_v34 : Ref sig .tc := ⟨.hbm, 63, rfl⟩
abbrev main_c_8 : Ref sig .tc := ⟨.hbm, 64, rfl⟩
abbrev main_v35 : Ref sig .tc := ⟨.hbm, 65, rfl⟩
abbrev main_v36 : Ref sig .tc := ⟨.hbm, 66, rfl⟩
abbrev main_cst_9 : Ref sig .tc := ⟨.hbm, 67, rfl⟩
abbrev main_v37 : Ref sig .tc := ⟨.hbm, 68, rfl⟩
abbrev main_cst_10 : Ref sig .tc := ⟨.hbm, 69, rfl⟩
abbrev main_v38 : Ref sig .tc := ⟨.hbm, 70, rfl⟩
abbrev main_cst_11 : Ref sig .tc := ⟨.hbm, 71, rfl⟩
abbrev main_v39 : Ref sig .tc := ⟨.hbm, 72, rfl⟩
abbrev main_v40 : Ref sig .tc := ⟨.hbm, 73, rfl⟩
abbrev main_cst_12 : Ref sig .tc := ⟨.hbm, 74, rfl⟩
abbrev main_call6_v0 : Ref sig .tc := ⟨.hbm, 75, rfl⟩
abbrev main_v41 : Ref sig .tc := ⟨.hbm, 76, rfl⟩
abbrev main_cst_13 : Ref sig .tc := ⟨.hbm, 77, rfl⟩
abbrev main_v42 : Ref sig .tc := ⟨.hbm, 78, rfl⟩
abbrev main_v43 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![8, 20], ![false, false]⟩

def k0_cond2 (i : grid0.Coords) : BitVec 1 :=
  let arg1 : BitVec 32 := BitVec.ofNat 32 (i 1).val
  let c19_i32 : BitVec 32 := 19#32
  let v56 : BitVec 1 := Scalar.cmpi .eq arg1 c19_i32
  let v57 : BitVec 32 := Scalar.extui v56
  let c0_i32_27 : BitVec 32 := 0#32
  let v58 : BitVec 1 := Scalar.cmpi .ne v57 c0_i32_27
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  reducesTo_S20000x256_S20000_d1 : S20000x256.ReducesTo [1] S20000
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bitsLt_bf16_f32 : FTy.bits .bf16 < FTy.bits .f32
  pads_S20000x256_S20480x256_04800_000 : S20000x256.Pads (![0, 0] : Fin 2 → Nat) ![480, 0] ![0, 0] S20480x256
  shapeCasts_S4096_S4096x1 : S4096.ShapeCasts S4096x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  iota_S512x1024_d1_w32 : S512x1024.Iotas .tc 32 [1]
  broadcasts_S512x1_S512x1024 : S512x1.Broadcasts S512x1024
  reduces_S512x1024_S512 : S512x1024.Reduces [1] S512
  shapeCasts_S512_S512x1 : S512.ShapeCasts S512x1
  reducesTo_S4096x1_S_d0_1 : S4096x1.ReducesTo [0, 1] S_
  shapeCasts_S4096_S1x4096 : S4096.ShapeCasts S1x4096
  transposes_S512x256_p1_0_S256x512 : S512x256.Transposes [1, 0] S256x512
  iota_S512x512_d0_w32 : S512x512.Iotas .tc 32 [0]
  iota_S512x512_d1_w32 : S512x512.Iotas .tc 32 [1]
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  natLt_1_32 : 1 < 32
  shapeCasts_S4096x1_S4096 : S4096x1.ShapeCasts S4096
  bcast_S_S20000 : S_.BroadcastsInDim S20000 (![] : Fin 0 → Fin S20000.rank)
  reducesTo_S20000_S_d0 : S20000.ReducesTo [0] S_
  dot_S512x256_S256x1024_S512x1024_1_0_0_1_n_n_wf : DotDims.WF S512x256 S256x1024 S512x1024 [1] [0] [0] [1] [] []
  dot_S512x256_S256x512_S512x512_1_0_0_1_n_n_wf : DotDims.WF S512x256 S256x512 S512x512 [1] [0] [0] [1] [] []
  scatter_S20000_S4096x1_S4096_n_0_0_1_wf : ScatterDims.WF S20000 S4096x1 S4096 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S4096x1.size a
  hwx0_0 : ∀ i : grid0.Coords, EltTy.bits .i32 = 32 ∨ (Rect.block (s := S4096x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .bf16 = 32 ∨ (Rect.block (s := S4096x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S20480x256.size a
  hwx0_2 : ∀ i : grid0.Coords, EltTy.bits .bf16 = 32 ∨ (Rect.block (s := S20480x256) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S4096x1.size a
  hwx1_0 : ∀ i : grid1.Coords, EltTy.bits .i32 = 32 ∨ (Rect.block (s := S4096x1) S512x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x4096.size a
  hwx1_1 : ∀ i : grid1.Coords, EltTy.bits .i32 = 32 ∨ (Rect.block (s := S1x4096) S1x512.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S4096x256.size a
  hwx1_2 : ∀ i : grid1.Coords, EltTy.bits .bf16 = 32 ∨ (Rect.block (s := S4096x256) S512x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S4096x256.size a
  hwx1_3 : ∀ i : grid1.Coords, EltTy.bits .bf16 = 32 ∨ (Rect.block (s := S4096x256) S512x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S4096x1.size a
  hwx1_4 : ∀ i : grid1.Coords, EltTy.bits .f32 = 32 ∨ (Rect.block (s := S4096x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S4096x1.size a
  hwx1_5 : ∀ i : grid1.Coords, EltTy.bits .f32 = 32 ∨ (Rect.block (s := S4096x1) S512x1.size (cc1_transform_5 i) (hinb1_5 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def scatter_S20000_S4096x1_S4096_n_0_0_1 : ScatterDims S20000 S4096x1 S4096 where
  updateWindowDims := []
  insertedWindowDims := [0]
  scatterDimsToOperandDims := [0]
  indexVectorDim := 1
  wf := scatter_S20000_S4096x1_S4096_n_0_0_1_wf

abbrev win0_0 : Pipeline.Window sig grid0 :=
  Pipeline.Window.ofSpec (Memref.whole main_v9) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v13) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S512x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15_0) S512x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15_1) S512x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x256 : Shape := ⟨2, ![4096, 256]⟩
abbrev S4096 : Shape := ⟨1, ![4096]⟩
abbrev S20000x256 : Shape := ⟨2, ![20000, 256]⟩
abbrev S_ : Shape := ⟨0, ![]⟩
abbrev S4096x1 : Shape := ⟨2, ![4096, 1]⟩
abbrev S20000 : Shape := ⟨1, ![20000]⟩
abbrev S20000x1 : Shape := ⟨2, ![20000, 1]⟩
abbrev S256x20000 : Shape := ⟨2, ![256, 20000]⟩
abbrev S4096x20000 : Shape := ⟨2, ![4096, 20000]⟩
abbrev S1x20000 : Shape := ⟨2, ![1, 20000]⟩
abbrev S4096x2 : Shape := ⟨2, ![4096, 2]⟩
abbrev S256x4096 : Shape := ⟨2, ![256, 4096]⟩
abbrev S4096x4096 : Shape := ⟨2, ![4096, 4096]⟩
abbrev S1x4096 : Shape := ⟨2, ![1, 4096]⟩

abbrev nBuf : Space → Nat
  | .hbm => 142
  | .vmem => 0
  | .smem => 0
  | _ => 0

abbrev hbmTy0_0 (i : Nat) : BufTy := match i % 128 with
  | 0 => ⟨S4096x256, .f32⟩
  | 1 => ⟨S4096, .i32⟩
  | 2 => ⟨S20000x256, .f32⟩
  | 3 => ⟨S4096x256, .f32⟩
  | 4 => ⟨S_, .f32⟩
  | 5 => ⟨S4096, .f32⟩
  | 6 => ⟨S4096x1, .f32⟩
  | 7 => ⟨S4096x1, .f32⟩
  | 8 => ⟨S4096x256, .f32⟩
  | 9 => ⟨S4096x256, .f32⟩
  | 10 => ⟨S20000x256, .f32⟩
  | 11 => ⟨S_, .f32⟩
  | 12 => ⟨S20000, .f32⟩
  | 13 => ⟨S20000x1, .f32⟩
  | 14 => ⟨S20000x1, .f32⟩
  | 15 => ⟨S20000x256, .f32⟩
  | 16 => ⟨S20000x256, .f32⟩
  | 17 => ⟨S256x20000, .f32⟩
  | 18 => ⟨S4096x20000, .f32⟩
  | 19 => ⟨S4096x1, .i32⟩
  | 20 => ⟨S1x20000, .i32⟩
  | 21 => ⟨S4096x20000, .i32⟩
  | 22 => ⟨S4096x20000, .i32⟩
  | 23 => ⟨S4096x20000, .i1⟩
  | 24 => ⟨S4096x20000, .f32⟩
  | 25 => ⟨S_, .f32⟩
  | 26 => ⟨S4096x20000, .f32⟩
  | 27 => ⟨S4096x20000, .f32⟩
  | 28 => ⟨S4096x20000, .f32⟩
  | 29 => ⟨S_, .f32⟩
  | 30 => ⟨S4096x20000, .f32⟩
  | 31 => ⟨S4096x20000, .f32⟩
  | 32 => ⟨S_, .f32⟩
  | 33 => ⟨S4096, .f32⟩
  | 34 => ⟨S_, .f32⟩
  | 35 => ⟨S4096, .f32⟩
  | 36 => ⟨S4096, .f32⟩
  | 37 => ⟨S4096x1, .f32⟩
  | 38 => ⟨S4096x20000, .f32⟩
  | 39 => ⟨S4096x20000, .f32⟩
  | 40 => ⟨S4096x20000, .f32⟩
  | 41 => ⟨S_, .f32⟩
  | 42 => ⟨S4096, .f32⟩
  | 43 => ⟨S4096x1, .f32⟩
  | 44 => ⟨S4096x1, .f32⟩
  | 45 => ⟨S4096x20000, .f32⟩
  | 46 => ⟨S4096x20000, .f32⟩
  | 47 => ⟨S4096, .i32⟩
  | 48 => ⟨S_, .i32⟩
  | 49 => ⟨S4096, .i32⟩
  | 50 => ⟨S4096, .i1⟩
  | 51 => ⟨S_, .i32⟩
  | 52 => ⟨S4096, .i32⟩
  | 53 => ⟨S4096, .i32⟩
  | 54 => ⟨S4096, .i32⟩
  | 55 => ⟨S_, .i32⟩
  | 56 => ⟨S4096, .i32⟩
  | 57 => ⟨S4096, .i1⟩
  | 58 => ⟨S_, .i32⟩
  | 59 => ⟨S4096, .i32⟩
  | 60 => ⟨S4096, .i32⟩
  | 61 => ⟨S4096, .i32⟩
  | 62 => ⟨S4096x1, .i32⟩
  | 63 => ⟨S4096x1, .i32⟩
  | 64 => ⟨S4096x2, .i32⟩
  | 65 => ⟨S4096, .f32⟩
  | 66 => ⟨S_, .f32⟩
  | 67 => ⟨S_, .f32⟩
  | 68 => ⟨S_, .f32⟩
  | 69 => ⟨S_, .f32⟩
  | 70 => ⟨S_, .f32⟩
  | 71 => ⟨S256x4096, .f32⟩
  | 72 => ⟨S4096x4096, .f32⟩
  | 73 => ⟨S_, .f32⟩
  | 74 => ⟨S4096x4096, .f32⟩
  | 75 => ⟨S4096x4096, .f32⟩
  | 76 => ⟨S4096, .i32⟩
  | 77 => ⟨S4096x1, .i32⟩
  | 78 => ⟨S1x4096, .i32⟩
  | 79 => ⟨S4096x4096, .i32⟩
  | 80 => ⟨S4096x4096, .i32⟩
  | 81 => ⟨S4096x4096, .i1⟩
  | 82 => ⟨S4096x1, .i32⟩
  | 83 => ⟨S1x4096, .i32⟩
  | 84 => ⟨S4096x4096, .i32⟩
  | 85 => ⟨S4096x4096, .i32⟩
  | 86 => ⟨S4096x4096, .i1⟩
  | 87 => ⟨S4096x4096, .i1⟩
  | 88 => ⟨S4096x4096, .f32⟩
  | 89 => ⟨S4096x4096, .f32⟩
  | 90 => ⟨S_, .f32⟩
  | 91 => ⟨S4096, .f32⟩
  | 92 => ⟨S4096x4096, .i32⟩
  | 93 => ⟨S_, .i32⟩
  | 94 => ⟨S4096, .i32⟩
  | 95 => ⟨S4096, .f32⟩
  | 96 => ⟨S_, .f32⟩
  | 97 => ⟨S20000, .f32⟩
  | 98 => ⟨S4096x1, .i32⟩
  | 99 => ⟨S20000, .f32⟩
  | 100 => ⟨S_, .f32⟩
  | 101 => ⟨S20000, .f32⟩
  | 102 => ⟨S4096x1, .i32⟩
  | 103 => ⟨S20000, .f32⟩
  | 104 => ⟨S_, .f32⟩
  | 105 => ⟨S20000, .f32⟩
  | 106 => ⟨S20000, .i1⟩
  | 107 => ⟨S_, .f32⟩
  | 108 => ⟨S20000, .f32⟩
  | 109 => ⟨S20000, .f32⟩
  | 110 => ⟨S20000, .f32⟩
  | 111 => ⟨S_, .f32⟩
  | 112 => ⟨S_, .f32⟩
  | 113 => ⟨S20000, .f32⟩
  | 114 => ⟨S20000, .f32⟩
  | 115 => ⟨S_, .f32⟩
  | 116 => ⟨S20000, .f32⟩
  | 117 => ⟨S20000, .f32⟩
  | 118 => ⟨S_, .f32⟩
  | 119 => ⟨S20000, .f32⟩
  | 120 => ⟨S20000, .f32⟩
  | 121 => ⟨S_, .f32⟩
  | 122 => ⟨S_, .f32⟩
  | 123 => ⟨S20000, .f32⟩
  | 124 => ⟨S20000, .f32⟩
  | 125 => ⟨S20000, .i32⟩
  | 126 => ⟨S_, .i32⟩
  | 127 => ⟨S_, .i32⟩
  | _ => ⟨S4096x256, .f32⟩

abbrev hbmTy0_1 (i : Nat) : BufTy := match i % 128 with
  | 0 => ⟨S_, .f32⟩
  | 1 => ⟨S_, .f32⟩
  | 2 => ⟨S_, .i1⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_call3_cst : Ref sig .tc := ⟨.hbm, 32, rfl⟩
abbrev main_call3_v0 : Ref sig .tc := ⟨.hbm, 33, rfl⟩
abbrev main_call3_cst_0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_v6 : Ref sig .tc := ⟨.hbm, 40, rfl⟩
abbrev main_call3_cst_1 : Ref sig .tc := ⟨.hbm, 41, rfl⟩
abbrev main_call3_v7 : Ref sig .tc := ⟨.hbm, 42, rfl⟩
abbrev main_call3_v8 : Ref sig .tc := ⟨.hbm, 43, rfl⟩
abbrev main_call3_v9 : Ref sig .tc := ⟨.hbm, 44, rfl⟩
abbrev main_call3_v10 : Ref sig .tc := ⟨.hbm, 45, rfl⟩
abbrev main_v14 : Ref sig .tc := ⟨.hbm, 46, rfl⟩
abbrev main_v15 : Ref sig .tc := ⟨.hbm, 47, rfl⟩
abbrev main_c : Ref sig .tc := ⟨.hbm, 48, rfl⟩
abbrev main_v16 : Ref sig .tc := ⟨.hbm, 49, rfl⟩
abbrev main_v17 : Ref sig .tc := ⟨.hbm, 50, rfl⟩
abbrev main_c_1 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_c_2 : Ref sig .tc := ⟨.hbm, 55, rfl⟩
abbrev main_v21 : Ref sig .tc := ⟨.hbm, 56, rfl⟩
abbrev main_v22 : Ref sig .tc := ⟨.hbm, 57, rfl⟩
abbrev main_c_3 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_4 : Ref sig .tc := ⟨.hbm, 66, rfl⟩
abbrev main_v30 : Ref sig .tc := ⟨.hbm, 67, rfl⟩
abbrev main_cst_5 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_6 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_7 : Ref sig .tc := ⟨.hbm, 90, rfl⟩
abbrev main_v51 : Ref sig .tc := ⟨.hbm, 91, rfl⟩
abbrev main_v52 : Ref sig .tc := ⟨.hbm, 92, rfl⟩
abbrev main_c_8 : Ref sig .tc := ⟨.hbm, 93, rfl⟩
abbrev main_v53 : Ref sig .tc := ⟨.hbm, 94, rfl⟩
abbrev main_v54 : Ref sig .tc := ⟨.hbm, 95, rfl⟩
abbrev main_cst_9 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_10 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_11 : Ref sig .tc := ⟨.hbm, 104, rfl⟩
abbrev main_v61 : Ref sig .tc := ⟨.hbm, 105, rfl⟩
abbrev main_v62 : Ref sig .tc := ⟨.hbm, 106, rfl⟩
abbrev main_cst_12 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_13 : Ref sig .tc := ⟨.hbm, 111, rfl⟩
abbrev main_call4_v0 : Ref sig .tc := ⟨.hbm, 112, rfl⟩
abbrev main_call4_v1 : Ref sig .tc := ⟨.hbm, 113, rfl⟩
abbrev main_v66 : Ref sig .tc := ⟨.hbm, 114, rfl⟩
abbrev main_cst_14 : Ref sig .tc := ⟨.hbm, 115, rfl⟩
abbrev main_v67 : Ref sig .tc := ⟨.hbm, 116, rfl⟩
abbrev main_v68 : Ref sig .tc := ⟨.hbm, 117, rfl⟩
abbrev main_call5_cst : Ref sig .tc := ⟨.hbm, 118, rfl⟩
abbrev main_call5_v0 : Ref sig .tc := ⟨.hbm, 119, rfl⟩
abbrev main_v69 : Ref sig .tc := ⟨.hbm, 120, rfl⟩
abbrev main_cst_15 : Ref sig .tc := ⟨.hbm, 121, rfl⟩
abbrev main_call6_v0 : Ref sig .tc := ⟨.hbm, 122, rfl⟩
abbrev main_call6_v1 : Ref sig .tc := ⟨.hbm, 123, rfl⟩
abbrev main_v70 : Ref sig .tc := ⟨.hbm, 124, rfl⟩
abbrev main_v71 : Ref sig .tc := ⟨.hbm, 125, rfl⟩
abbrev main_c_16 : Ref sig .tc := ⟨.hbm, 126, rfl⟩
abbrev main_v72 : Ref sig .tc := ⟨.hbm, 127, rfl⟩
abbrev main_v73 : Ref sig .tc := ⟨.hbm, 128, rfl⟩
abbrev main_cst_17 : Ref sig .tc := ⟨.hbm, 129, rfl⟩
abbrev main_v74 : Ref sig .tc := ⟨.hbm, 130, rfl⟩
abbrev main_cst_18 : Ref sig .tc := ⟨.hbm, 131, rfl⟩
abbrev main_v75 : Ref sig .tc := ⟨.hbm, 132, rfl⟩
abbrev main_cst_19 : Ref sig .tc := ⟨.hbm, 133, rfl⟩
abbrev main_v76 : Ref sig .tc := ⟨.hbm, 134, rfl⟩
abbrev main_v77 : Ref sig .tc := ⟨.hbm, 135, rfl⟩
abbrev main_cst_20 : Ref sig .tc := ⟨.hbm, 136, rfl⟩
abbrev main_call7_v0 : Ref sig .tc := ⟨.hbm, 137, rfl⟩
abbrev main_v78 : Ref sig .tc := ⟨.hbm, 138, rfl⟩
abbrev main_cst_21 : Ref sig .tc := ⟨.hbm, 139, rfl⟩
abbrev main_v79 : Ref sig .tc := ⟨.hbm, 140, rfl⟩
abbrev main_v80 : Ref sig .tc := ⟨.hbm, 141, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  reducesTo_S20000x256_S20000_d1 : S20000x256.ReducesTo [1] S20000
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  transposes_S20000x256_S256x20000_1_0 : S20000x256.Transposes [1, 0] S256x20000
  bcast_S4096x1_S4096x20000_0_1 : S4096x1.BroadcastsInDim S4096x20000 (![0, 1] : Fin 2 → Fin S4096x20000.rank)
  bcast_S1x20000_S4096x20000_0_1 : S1x20000.BroadcastsInDim S4096x20000 (![0, 1] : Fin 2 → Fin S4096x20000.rank)
  bcast_S_S4096x20000 : S_.BroadcastsInDim S4096x20000 (![] : Fin 0 → Fin S4096x20000.rank)
  reducesTo_S4096x20000_S4096_d1 : S4096x20000.ReducesTo [1] S4096
  bcast_S_S4096 : S_.BroadcastsInDim S4096 (![] : Fin 0 → Fin S4096.rank)
  concatenates_S4096x1_S4096x1_S4096x2_d1 : Shape.Concatenates [S4096x1, S4096x1] S4096x2 1
  reducesTo_S4096_S_d0 : S4096.ReducesTo [0] S_
  transposes_S4096x256_S256x4096_1_0 : S4096x256.Transposes [1, 0] S256x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  natLt_1_32 : 1 < 32
  bcast_S_S20000 : S_.BroadcastsInDim S20000 (![] : Fin 0 → Fin S20000.rank)
  reducesTo_S20000_S_d0 : S20000.ReducesTo [0] S_
  dot_S4096x256_S256x20000_S4096x20000_1_0_0_1_n_n_wf : DotDims.WF S4096x256 S256x20000 S4096x20000 [1] [0] [0] [1] [] []
  gather_S4096x20000_S4096x2_S4096_n_01_n_n_01_1_11_wf : GatherDims.WF S4096x20000 S4096x2 S4096 [] [0, 1] [] [0, 1] [] 1 ![1, 1]
  dot_S4096x256_S256x4096_S4096x4096_1_0_0_1_n_n_wf : DotDims.WF S4096x256 S256x4096 S4096x4096 [1] [0] [0] [1] [] []
  scatter_S20000_S4096x1_S4096_n_0_0_1_wf : ScatterDims.WF S20000 S4096x1 S4096 [] [0] [0] 1

variable [Facts₀]

def dot_S4096x256_S256x20000_S4096x20000_1_0_0_1_n_n : DotDims S4096x256 S256x20000 S4096x20000 where
  lhsContracting := [1]
  rhsContracting := [0]
  lhsNonContracting := [0]
  rhsNonContracting := [1]
  lhsBatch := []
  rhsBatch := []
  wf := dot_S4096x256_S256x20000_S4096x20000_1_0_0_1_n_n_wf
def gather_S4096x20000_S4096x2_S4096_n_01_n_n_01_1_11 : GatherDims S4096x20000 S4096x2 S4096 where
  offsetDims := []
  collapsedSliceDims := [0, 1]
  operandBatchingDims := []
  startIndicesBatchingDims := []
  startIndexMap := [0, 1]
  indexVectorDim := 1
  sliceSizes := ![1, 1]
  wf := gather_S4096x20000_S4096x2_S4096_n_01_n_n_01_1_11_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def scatter_S20000_S4096x1_S4096_n_0_0_1 : ScatterDims S20000 S4096x1 S4096 where
  updateWindowDims := []
  insertedWindowDims := [0]
  scatterDimsToOperandDims := [0]
  indexVectorDim := 1
  wf := scatter_S20000_S4096x1_S4096_n_0_0_1_wf

class Facts : Prop extends Facts₀ where

variable [Facts]
-- ==== Proof.K.R0Runs.lean ====
import proofs.«410009_j62173946577734_1_alg».proof.Proof.Gen.Kernel.Launch
import proofs.«410009_j62173946577734_1_alg».proof.Proof.Gen.Kernel.Skeleton
import proofs.«410009_j62173946577734_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe
open Idealize.SL Idealize.SL.RA Idealize.SL.BI
open Idealize.SL.BI.BIBase Idealize.SL.BI.Laws Idealize.SL.Sem
open Idealize.ShloMosaic.Pipeline (Dat)

variable {F : FTy → Type} [FloatOps F]

local notation "𝕄" => MT nD τ sig Unit (Elt F) ℕ (UR sig nD τ) ℕ

def iblk0 (V : (c : Dev nD) → (b : Ref sig .tc) → Buf (Elt F) ((c : Thread nD τ).loc b)) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 20 = 0 :=
  (by decide +kernel : ∀ t : Fin grid0.N, cond0_0 (grid0.coords t) ↔ t.val % 20 = 0)

abbrev cond0_1 (i : grid0.Coords) : Prop := k0_cond2 i = 1#1

theorem hcond0_1 : ∀ t : Fin cfg0.N, cond0_1 (grid0.coords t) ↔ t.val % 20 = 19 :=
  (by decide +kernel : ∀ t : Fin grid0.N, cond0_1 (grid0.coords t) ↔ t.val % 20 = 19)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

abbrev ms0_0 (t : Fin cfg0.N) : Memref sig .tc .vmem S512x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)

abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2

abbrev VS0_0 : View sig .tc .vmem S512x1 .f32 := scM0_0.view

def held0 (c : Dev nD) (b : Ref sig .tc) : sProp 𝕄 := iprop(∃ f : Buf (Elt F) ((c : Thread nD τ).loc b), ((c : Thread nD τ).loc b) ↦{fullShare} f)

def rest0 (c : Dev nD) : sProp 𝕄 :=
  iprop(held0 (F := F) c cc1_stg0_0 ∗ held0 (F := F) c cc1_stg0_1 ∗ held0 (F := F) c cc1_stg1_0 ∗ held0 (F := F) c cc1_stg1_1 ∗ held0 (F := F) c cc1_stg2_0 ∗ held0 (F := F) c cc1_stg2_1 ∗ held0 (F := F) c cc1_stg3_0 ∗ held0 (F := F) c cc1_stg3_1 ∗ held0 (F := F) c cc1_stg4_0 ∗ held0 (F := F) c cc1_stg4_1 ∗ held0 (F := F) c cc1_stg5_0 ∗ held0 (F := F) c cc1_stg5_1)

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ rest0 (F := F) c) ∗ (∃ r, prngReg c r)) := by
  unfold Pipeline.ΦA rest0 held0; rw [scopedRest0_eq]; simp only [scM0_0, scM0_1, scM0_2, owns_whole]; try rfl

-- The body's seven memrefs (four windows, three scratch columns), each whole, and the three input blocks it reads.
structure Mems0 where
  a2 : Memref sig .tc .vmem S512x1 .i32
  h2 : a2.IsWhole
  a3 : Memref sig .tc .vmem S512x256 .bf16
  h3 : a3.IsWhole
  a4 : Memref sig .tc .vmem S1024x256 .bf16
  h4 : a4.IsWhole
  a5 : Memref sig .tc .vmem S512x1 .f32
  h5 : a5.IsWhole
  a6 : Memref sig .tc .vmem S512x1 .f32
  h6 : a6.IsWhole
  a7 : Memref sig .tc .vmem S512x1 .f32
  h7 : a7.IsWhole
  a8 : Memref sig .tc .vmem S512x1 .f32
  h8 : a8.IsWhole

structure Ins0 (F : FTy → Type) where
  x0 : Vec F S512x1 .i32
  x1 : Vec F S512x256 .bf16
  x2 : Vec F S1024x256 .bf16

abbrev mem0 (t : Fin cfg0.N) : Mems0 :=
  ⟨ms0_0 t, hs0_0 t, ms0_1 t, hs0_1 t, ms0_2 t, hs0_2 t, ms0_3 t, hs0_3 t, scM0_0, Memref.isWhole_whole _, scM0_1, Memref.isWhole_whole _, scM0_2, Memref.isWhole_whole _⟩

-- The inputs' memrefs at their blocks, beside what `P5` … `P8` say of the output's and the scratch columns'.
def seven0 (c : Dev nD) (m : Mems0) (x : Ins0 F) (P5 P6 P7 P8 : sProp 𝕄) : sProp 𝕄 :=
  iprop(owns (c : Thread nD τ) m.a2 fullShare x.x0 ∗ owns (c : Thread nD τ) m.a3 fullShare x.x1 ∗ owns (c : Thread nD τ) m.a4 fullShare x.x2 ∗ P5 ∗ P6 ∗ P7 ∗ P8)

-- A memref holding a list of pieces (last first) written over something.
def wrote0 (c : Dev nD) (a : Memref sig .tc .vmem S512x1 .f32) (L : List (View.Piece (Elt F) S512x1 .f32)) : sProp 𝕄 :=
  iprop(∃ f, a.view.loc (c : Thread nD τ) ↦[a.view.set]{fullShare} a.view.writes (Elt F) f L)

-- The body run on `m` from the inputs at `x`, the output as `P5` and the scratch columns as `P6` … `P8` say:
-- it keeps the inputs, leaves the output as `Q5` says and the pieces `LS0` … `LS2` written in the scratch columns.
def Run0 (c : Dev nD) (i : grid0.Coords) (m : Mems0) (x : Ins0 F) (P5 P6 P7 P8 Q5 : sProp 𝕄) (LS0 LS1 LS2 : List (View.Piece (Elt F) S512x1 .f32)) : Prop :=
  ∀ (E : Set ℕ) (K : PUnit → sProp 𝕄),
    iprop(seven0 c m x P5 P6 P7 P8 ∗ (seven0 c m x Q5 (wrote0 c m.a6 LS0) (wrote0 c m.a7 LS1) (wrote0 c m.a8 LS2) -∗ K ⟨⟩))
      ⊢ wp frame (wpE (defs₀ (F := F)) Variants.none c none) E (cc0__amsoftmax_kernel i m.a2 m.h2 m.a3 m.h3 m.a4 m.h4 m.a5 m.h5 m.a6 m.h6 m.a7 m.h7 m.a8 m.h8) K

end Cert.Kernel.Fr

end
-- ==== Proof.K.R0RunA.lean ====
import proofs.«410009_j62173946577734_1_alg».proof.Proof.K.R0Runs

noncomputable section

namespace Cert.Kernel.Fr

open Cert.Kernel Cert.Kernel.Gen
open Idealize.ShloMosaic Idealize.ShloMosaic.TcCoe
open Idealize.SL Idealize.SL.RA Idealize.SL.BI
open Idealize.SL.BI.BIBase Idealize.SL.BI.Laws Idealize.SL.Sem

variable {F : FTy → Type} [FloatOps F]

local notation "𝕄" => MT nD τ sig Unit (Elt F) ℕ (UR sig nD τ) ℕ

noncomputable def kernelRun0_A (c : Dev nD) (i : grid0.Coords) (m : Mems0) (hc0 : cond0_0 i) (hc1 : ¬cond0_1 i) (x : Ins0 F) :
    Σ' (L3 : List (View.Piece (Elt F) S512x1 .f32)) (LS0 : List (View.Piece (Elt F) S512x1 .f32)) (LS1 : List (View.Piece (Elt F) S512x1 .f32)), { LS2 : List (View.Piece (Elt F) S512x1 .f32) //
      ∀ xi3, Run0 c i m x (owns (c : Thread nD τ) m.a5 fullShare xi3) iprop(∃ d, owns (c : Thread nD τ) m.a6 fullShare d) iprop(∃ d, owns (c : Thread nD τ) m.a7 fullShare d) iprop(∃ d, owns (c : Thread nD τ) m.a8 fullShare d) (owns (c : Thread nD τ) m.a5 fullShare xi3) LS0 LS1 LS2 } := by
  refine ⟨[], ?_, ?_, ?_, fun xi3 E K => ?run⟩
  case run =>
    simp only [cc0__amsoftmax_kernel_eq_skeleton]; unfold cc0__amsoftmax_kernel_skel
    simp only [k0_part1_eq_skeleton]; unfold k0_part1_skel
    unfold seven0 wrote0 owns
    iintro ⟨⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩⟩, Hk⟩
    obtain rfl := m.h2.eq_unread hf0; obtain rfl := m.h3.eq_unread hf1; obtain rfl := m.h4.eq_unread hf2; obtain rfl := m.h5.eq_unread hf3
    sl_exec (disch := first | exact hc0 | exact hc1)
    sl_step
    iapply Hk
    isplitl [H0]
    · iexists _; isplitr; · ipureintro; exact m.h2.read_unread _
      iexact H0
    isplitl [H1]
    · iexists _; isplitr; · ipureintro; exact m.h3.read_unread _
      iexact H1
    isplitl [H2]
    · iexists _; isplitr; · ipureintro; exact m.h4.read_unread _
      iexact H2
    isplitl [H3]
    · iexists _; isplitr; · ipureintro; exact m.h5.read_unread _
      iexact H3
    isplitl [HS0]; · iexists _; iexact HS0
    isplitl [HS1]; · iexists _; iexact HS1
    iexists _; iexact HS2

end Cert.Kernel.Fr

end
-- ==== Proof.K.R0RunB.lean ====
import proofs.«410009_j62173946577734_1_alg».proof.Proof.K.R0Runs

noncomputable section

namespace Cert.Kernel.Fr

open Cert.Kernel Cert.Kernel.Gen
open Idealize.ShloMosaic Idealize.ShloMosaic.TcCoe
open Idealize.SL Idealize.SL.RA Idealize.SL.BI
open Idealize.SL.BI.BIBase Idealize.SL.BI.Laws Idealize.SL.Sem

variable {F : FTy → Type} [FloatOps F]

local notation "𝕄" => MT nD τ sig Unit (Elt F) ℕ (UR sig nD τ) ℕ

noncomputable def kernelRun0_B (c : Dev nD) (i : grid0.Coords) (m : Mems0) (hc0 : ¬cond0_0 i) (hc1 : ¬cond0_1 i) (x : Ins0 F) (xs0 xs1 xs2 : Vec F S512x1 .f32) :
    Σ' (L3 : List (View.Piece (Elt F) S512x1 .f32)) (LS0 : List (View.Piece (Elt F) S512x1 .f32)) (LS1 : List (View.Piece (Elt F) S512x1 .f32)), { LS2 : List (View.Piece (Elt F) S512x1 .f32) //
      ∀ xi3, Run0 c i m x (owns (c : Thread nD τ) m.a5 fullShare xi3) (owns (c : Thread nD τ) m.a6 fullShare xs0) (owns (c : Thread nD τ) m.a7 fullShare xs1) (owns (c : Thread nD τ) m.a8 fullShare xs2) (owns (c : Thread nD τ) m.a5 fullShare xi3) LS0 LS1 LS2 } := by
  refine ⟨[], ?_, ?_, ?_, fun xi3 E K => ?run⟩
  case run =>
    simp only [cc0__amsoftmax_kernel_eq_skeleton]; unfold cc0__amsoftmax_kernel_skel
    simp only [k0_part1_eq_skeleton]; unfold k0_part1_skel
    unfold seven0 wrote0 owns
    iintro ⟨⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩⟩, Hk⟩
    obtain rfl := m.h2.eq_unread hf0; obtain rfl := m.h3.eq_unread hf1; obtain rfl := m.h4.eq_unread hf2; obtain rfl := m.h5.eq_unread hf3; obtain rfl := m.h6.eq_unread hfs0; obtain rfl := m.h7.eq_unread hfs1; obtain rfl := m.h8.eq_unread hfs2
    sl_exec (disch := first | exact hc0 | exact hc1)
    sl_step
    iapply Hk
    isplitl [H0]
    · iexists _; isplitr; · ipureintro; exact m.h2.read_unread _
      iexact H0
    isplitl [H1]
    · iexists _; isplitr; · ipureintro; exact m.h3.read_unread _
      iexact H1
    isplitl [H2]
    · iexists _; isplitr; · ipureintro; exact m.h4.read_unread _
      iexact H2
    isplitl [H3]
    · iexists _; isplitr; · ipureintro; exact m.h5.read_unread _
      iexact H3
    isplitl [HS0]; · iexists _; iexact HS0
    isplitl [HS1]; · iexists _; iexact HS1
    iexists _; iexact HS2

end Cert.Kernel.Fr

end
-- ==== Proof.K.R0RunC.lean ====
import proofs.«410009_j62173946577734_1_alg».proof.Proof.K.R0Runs

noncomputable section

namespace Cert.Kernel.Fr

open Cert.Kernel Cert.Kernel.Gen
open Idealize.ShloMosaic Idealize.ShloMosaic.TcCoe
open Idealize.SL Idealize.SL.RA Idealize.SL.BI
open Idealize.SL.BI.BIBase Idealize.SL.BI.Laws Idealize.SL.Sem

variable {F : FTy → Type} [FloatOps F]

local notation "𝕄" => MT nD τ sig Unit (Elt F) ℕ (UR sig nD τ) ℕ

noncomputable def kernelRun0_C (c : Dev nD) (i : grid0.Coords) (m : Mems0) (hc0 : ¬cond0_0 i) (hc1 : cond0_1 i) (x : Ins0 F) (xs0 xs1 xs2 : Vec F S512x1 .f32) :
    Σ' (L3 : List (View.Piece (Elt F) S512x1 .f32)) (LS0 : List (View.Piece (Elt F) S512x1 .f32)) (LS1 : List (View.Piece (Elt F) S512x1 .f32)), { LS2 : List (View.Piece (Elt F) S512x1 .f32) //
      Run0 c i m x iprop(∃ d, owns (c : Thread nD τ) m.a5 fullShare d) (owns (c : Thread nD τ) m.a6 fullShare xs0) (owns (c : Thread nD τ) m.a7 fullShare xs1) (owns (c : Thread nD τ) m.a8 fullShare xs2) (wrote0 c m.a5 L3) LS0 LS1 LS2 } := by
  refine ⟨?_, ?_, ?_, ?_, fun E K => ?run⟩
  case run =>
    simp only [cc0__amsoftmax_kernel_eq_skeleton]; unfold cc0__amsoftmax_kernel_skel
    simp only [k0_part1_eq_skeleton]; unfold k0_part1_skel
    unfold seven0 wrote0 owns
    iintro ⟨⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩⟩, Hk⟩
    obtain rfl := m.h2.eq_unread hf0; obtain rfl := m.h3.eq_unread hf1; obtain rfl := m.h4.eq_unread hf2; obtain rfl := m.h6.eq_unread hfs0; obtain rfl := m.h7.eq_unread hfs1; obtain rfl := m.h8.eq_unread hfs2
    sl_exec (disch := first | exact hc0 | exact hc1)
    sl_step
    iapply Hk
    isplitl [H0]
    · iexists _; isplitr; · ipureintro; exact m.h2.read_unread _
      iexact H0
    isplitl [H1]
    · iexists _; isplitr; · ipureintro; exact m.h3.read_unread _
      iexact H1
    isplitl [H2]
    · iexists _; isplitr; · ipureintro; exact m.h4.read_unread _
      iexact H2
    isplitl [H3]; · iexists _; iexact H3
    isplitl [HS0]; · iexists _; iexact HS0
    isplitl [HS1]; · iexists _; iexact HS1
    iexists _; iexact HS2

end Cert.Kernel.Fr

end
-- ==== Proof.K.R0Frame.lean ====
import proofs.«410009_j62173946577734_1_alg».proof.Proof.K.R0RunA
import proofs.«410009_j62173946577734_1_alg».proof.Proof.K.R0RunB
import proofs.«410009_j62173946577734_1_alg».proof.Proof.K.R0RunC

noncomputable section

namespace Cert.Kernel.Fr

open Cert.Kernel Cert.Kernel.Gen
open Idealize.ShloMosaic Idealize.ShloMosaic.TcCoe
open Idealize.SL Idealize.SL.RA Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev Col0 (F : FTy → Type) := Vec F S512x1 .f32

variable (V : (c : Dev nD) → (b : Ref sig .tc) → Buf (Elt F) ((c : Thread nD τ).loc b)) (c : Dev nD)

abbrev ins0 (t : Fin cfg0.N) : Ins0 F := ⟨iblk0 V c 0 t, iblk0 V c 1 t, iblk0 V c 2 t⟩

def runA0 (t : Fin cfg0.N) (h0 : t.val % 20 = 0) (h1 : ¬t.val % 20 = 19) :=
  kernelRun0_A c (grid0.coords t) (mem0 t) ((hcond0_0 t).mpr h0) (fun h => h1 ((hcond0_1 t).mp h)) (ins0 V c t)
def runB0 (t : Fin cfg0.N) (h0 : ¬t.val % 20 = 0) (h1 : ¬t.val % 20 = 19) (xs : Col0 F × Col0 F × Col0 F) :=
  kernelRun0_B c (grid0.coords t) (mem0 t) (fun h => h0 ((hcond0_0 t).mp h)) (fun h => h1 ((hcond0_1 t).mp h)) (ins0 V c t) xs.1 xs.2.1 xs.2.2
def runC0 (t : Fin cfg0.N) (h0 : ¬t.val % 20 = 0) (h1 : t.val % 20 = 19) (xs : Col0 F × Col0 F × Col0 F) :=
  kernelRun0_C c (grid0.coords t) (mem0 t) (fun h => h0 ((hcond0_0 t).mp h)) ((hcond0_1 t).mpr h1) (ins0 V c t) xs.1 xs.2.1 xs.2.2

def rd0 (L : List (View.Piece (Elt F) S512x1 .f32)) : Col0 F := VS0_0.read (Elt F) (VS0_0.writes (Elt F) VS0_0.junk L)

def outs0 {P : List (View.Piece (Elt F) S512x1 .f32) → List (View.Piece (Elt F) S512x1 .f32) → List (View.Piece (Elt F) S512x1 .f32) → List (View.Piece (Elt F) S512x1 .f32) → Prop} (r : Σ' L3 LS0 LS1, { LS2 // P L3 LS0 LS1 LS2 }) : Col0 F × Col0 F × Col0 F × Col0 F :=
  (rd0 r.1, rd0 r.2.1, rd0 r.2.2.1, rd0 r.2.2.2.1)

def outsAt0 : (n : ℕ) → n < cfg0.N → Col0 F × Col0 F × Col0 F × Col0 F
  | n, hn =>
    if h0 : n % 20 = 0 then outs0 (runA0 V c ⟨n, hn⟩ h0 (by show ¬n % 20 = 19; omega))
    else if h1 : n % 20 = 19 then outs0 (runC0 V c ⟨n, hn⟩ h0 h1 (outsAt0 (n - 1) (Nat.lt_of_le_of_lt (Nat.sub_le _ _) hn)).2)
    else outs0 (runB0 V c ⟨n, hn⟩ h0 h1 (outsAt0 (n - 1) (Nat.lt_of_le_of_lt (Nat.sub_le _ _) hn)).2)
termination_by n => n
decreasing_by all_goals omega

def prev0 (t : Fin cfg0.N) : Col0 F × Col0 F × Col0 F := (outsAt0 V c (t.val - 1) (Nat.lt_of_le_of_lt (Nat.sub_le _ _) t.isLt)).2

theorem outsAt0_A (t : Fin cfg0.N) (h0 : t.val % 20 = 0) (h1 : ¬t.val % 20 = 19) : outsAt0 V c t.val t.isLt = outs0 (runA0 V c t h0 h1) := by
  rw [outsAt0, dif_pos h0]

theorem outsAt0_B (t : Fin cfg0.N) (h0 : ¬t.val % 20 = 0) (h1 : ¬t.val % 20 = 19) : outsAt0 V c t.val t.isLt = outs0 (runB0 V c t h0 h1 (prev0 V c t)) := by
  rw [outsAt0, dif_neg h0, dif_neg h1]; rfl

theorem outsAt0_C (t : Fin cfg0.N) (h0 : ¬t.val % 20 = 0) (h1 : t.val % 20 = 19) : outsAt0 V c t.val t.isLt = outs0 (runC0 V c t h0 h1 (prev0 V c t)) := by
  rw [outsAt0, dif_neg h0, dif_pos h1]; rfl

def scr0 (xs : Col0 F × Col0 F × Col0 F) : sProp 𝕄 :=
  iprop(iprop(owns (c : Thread nD τ) scM0_0 fullShare xs.1 ∗ owns (c : Thread nD τ) scM0_1 fullShare xs.2.1 ∗ owns (c : Thread nD τ) scM0_2 fullShare xs.2.2 ∗ rest0 (F := F) c) ∗ (∃ r, prngReg c r))

theorem scr0_forget (xs : Col0 F × Col0 F × Col0 F) : scr0 c xs ⊢ (Pipeline.ΦA spec0 c : sProp 𝕄) := by
  rw [PhiA0_eq]; unfold scr0
  iintro ⟨⟨HS0, HS1, HS2, Hr⟩, Hg⟩
  iframe Hr Hg
  isplitl [HS0]; · iexists _; iexact HS0
  isplitl [HS1]; · iexists _; iexact HS1
  iexists _; iexact HS2

def PhiS0 : (n : ℕ) → n ≤ cfg0.N → sProp 𝕄
  | 0, _ => Pipeline.ΦA spec0 c
  | n + 1, hn => scr0 c (outsAt0 V c n hn).2

theorem PhiS0_forget : ∀ (n : ℕ) (h : n ≤ cfg0.N), PhiS0 V c n h ⊢ (Pipeline.ΦA spec0 c : sProp 𝕄)
  | 0, _ => Entails.refl _
  | n + 1, _ => scr0_forget c _

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (w : Fin cfg0.W) : (dat0 V c).A w = V c (Pipeline.arrRef spec0 w) := by
  dsimp only [dat0]
theorem share0 (w : Fin cfg0.W) : (dat0 V c).share w = fullShare :=
  (dat0 V c).share_full (fun _ => rfl) w
theorem owed0 (t : Fin (cfg0.N + 1)) : (dat0 V c).owed t = 0 := rfl
theorem recorded0 (t : Fin (cfg0.N + 1)) : (dat0 V c).recorded t = Set.univ := rfl

theorem after0_0 (t : Fin cfg0.N) : (dat0 V c).after 0 t = iblk0 V c 0 t := by dsimp only [dat0]
theorem after0_1 (t : Fin cfg0.N) : (dat0 V c).after 1 t = iblk0 V c 1 t := by dsimp only [dat0]
theorem after0_2 (t : Fin cfg0.N) : (dat0 V c).after 2 t = iblk0 V c 2 t := by dsimp only [dat0]
theorem after0_3 (t : Fin cfg0.N) : (dat0 V c).after 3 t = (outsAt0 V c t.val t.isLt).1 := by dsimp only [dat0]

theorem before0_in (t : Fin cfg0.N) :
    (∀ d, (dat0 V c).before 0 t d = iblk0 V c 0 t) ∧ (∀ d, (dat0 V c).before 1 t d = iblk0 V c 1 t) ∧ ∀ d, (dat0 V c).before 2 t d = iblk0 V c 2 t := by
  refine ⟨?_, ?_, ?_⟩ <;>
    exact fun d => ((dat0 V c).before_in_eq_fetched _ rfl (fun _ => rfl) (fun _ _ _ => rfl) (fun _ => rfl) t d).trans rfl

theorem Phi0_pos (t : Fin cfg0.N) (hz : t.val ≠ 0) : (dat0 V c).Φ t.castSucc = scr0 c (prev0 V c t) := by
  obtain ⟨n, hn⟩ := t
  cases n with
  | zero => exact absurd rfl hz
  | succ n => rfl

theorem leaves_live0 (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

theorem Phi0_forget (t : Fin (cfg0.N + 1)) : (dat0 V c).Φ t ⊢ (Pipeline.ΦA spec0 c : sProp 𝕄) :=
  PhiS0_forget V c _ _

def bodyPre0 (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))
def bodyPost0 (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem sound_body0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [(before0_in V c t).1, (before0_in V c t).2.1, (before0_in V c t).2.2]
  rw [show (dat0 V c).owesAt () t.succ = (dat0 V c).owesAt () t.castSucc from rfl,
    show (dat0 V c).Φ t.succ = scr0 c (outsAt0 V c t.val t.isLt).2 from rfl,
    leaves_live0 V c 0 t (liveAt0_0 t), leaves_live0 V c 1 t (liveAt0_1 t), leaves_live0 V c 2 t (liveAt0_2 t), after0_0, after0_1, after0_2]
  by_cases h1 : t.val % 20 = 19
  · have h0 : ¬t.val % 20 = 0 := by omega
    rw [leaves_live0 V c 3 t (liveAt0_3 t ((hcond0_1 t).mpr h1)), after0_3, outsAt0_C V c t h0 h1, Phi0_pos V c t (fun hz => h0 (by rw [hz]))]
    dsimp only [scr0, outs0, rd0]
    iintro ⟨⟨⟨HS0, HS1, HS2, Hr⟩, Hg⟩, Ho, ⟨%d0, H0⟩, ⟨%d1, H1⟩, ⟨%d2, H2⟩, ⟨%d3, H3⟩⟩
    have hrun := (runC0 V c t h0 h1 (prev0 V c t)).2.2.2.2
    unfold Run0 seven0 wrote0 at hrun
    iapply (hrun Set.univ _)
    iframe H0 H1 H2 HS0 HS1 HS2
    isplitl [H3]; · iexists _; iexact H3
    iintro ⟨H0, H1, H2, ⟨%e3, H3⟩, ⟨%e0, HS0⟩, ⟨%e1, HS1⟩, ⟨%e2, HS2⟩⟩
    iframe Hr Hg Ho H0 H1 H2
    isplitl [HS0 HS1 HS2]
    · isplitl [HS0]; · ihave H' := (Ring.owns_of_writes_tiledL VS0_0 S512x1.size) $$ HS0; iapply H'; ipureintro; sl_kernel_rfl
      isplitl [HS1]; · ihave H' := (Ring.owns_of_writes_tiledL VS0_0 S512x1.size) $$ HS1; iapply H'; ipureintro; sl_kernel_rfl
      ihave H' := (Ring.owns_of_writes_tiledL VS0_0 S512x1.size) $$ HS2; iapply H'; ipureintro; sl_kernel_rfl
    ihave H' := (Ring.owns_of_writes_tiledL VS0_0 S512x1.size) $$ H3; iapply H'; ipureintro; sl_kernel_rfl
  rw [Dat.leavesExact_idle (dat0 V c) 3 t (idleAt0_3 t (fun h => h1 ((hcond0_1 t).mp h))) (noFlush0_3 t (fun h => h1 ((hcond0_1 t).mp h)))]
  by_cases h0 : t.val % 20 = 0
  on_goal 1 =>
    rw [outsAt0_A V c t h0 h1]
    refine (sep_mono_left (Phi0_forget V c _)).trans ?_
    rw [PhiA0_eq]
    have hrun := (runA0 V c t h0 h1).2.2.2.2
  on_goal 2 =>
    rw [outsAt0_B V c t h0 h1, Phi0_pos V c t (fun hz => h0 (by rw [hz]))]
    have hrun := (runB0 V c t h0 h1 (prev0 V c t)).2.2.2.2
  all_goals
    unfold Run0 seven0 wrote0 at hrun
    dsimp only [scr0, outs0, rd0]
    iintro ⟨⟨⟨HS0, HS1, HS2, Hr⟩, Hg⟩, Ho, ⟨%d0, H0⟩, ⟨%d1, H1⟩, ⟨%d2, H2⟩, ⟨%d3, H3⟩⟩
    iapply (hrun ((dat0 V c).before 3 t d3) Set.univ _)
    iframe H0 H1 H2 H3 HS0 HS1 HS2
    iintro ⟨H0, H1, H2, H3, ⟨%e0, HS0⟩, ⟨%e1, HS1⟩, ⟨%e2, HS2⟩⟩
    iframe Hr Hg Ho H0 H1 H2
    isplitr [H3]
    · isplitl [HS0]; · ihave H' := (Ring.owns_of_writes_tiledL VS0_0 S512x1.size) $$ HS0; iapply H'; ipureintro; sl_kernel_rfl
      isplitl [HS1]; · ihave H' := (Ring.owns_of_writes_tiledL VS0_0 S512x1.size) $$ HS1; iapply H'; ipureintro; sl_kernel_rfl
      ihave H' := (Ring.owns_of_writes_tiledL VS0_0 S512x1.size) $$ HS2; iapply H'; ipureintro; sl_kernel_rfl
    iexists _; iexact H3

theorem body_obligation0 : BodyObligation (dat0 (F := F) V c) (defs₀ (F := F)) Variants.none () Set.univ := fun t => by
  rw [bigSep_W0, bigSep_W0]
  exact sound_body0 V c t

theorem hin0 : (Pipeline.ΦA spec0 c : sProp 𝕄) ⊢ (dat0 V c).Φ 0 := by
  rw [show (dat0 V c).Φ 0 = Pipeline.ΦA spec0 c from rfl]
  try exact Entails.refl _

theorem hout0 : (dat0 V c).Φ (Fin.last cfg0.N) ⊢ (Pipeline.ΦA spec0 c : sProp 𝕄) :=
  Phi0_forget V c _

end Cert.Kernel.Fr

end
-- ==== Proof.K.R1Runs.lean ====
import proofs.«410009_j62173946577734_1_alg».proof.Proof.Gen.Kernel.Launch
import proofs.«410009_j62173946577734_1_alg».proof.Proof.Gen.Kernel.Skeleton
import proofs.«410009_j62173946577734_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

structure Mems1 where
  a2 : Memref sig .tc .vmem S512x1 .i32
  h2 : a2.IsWhole
  a3 : Memref sig .tc .vmem S1x512 .i32
  h3 : a3.IsWhole
  a4 : Memref sig .tc .vmem S512x256 .bf16
  h4 : a4.IsWhole
  a5 : Memref sig .tc .vmem S512x256 .bf16
  h5 : a5.IsWhole
  a6 : Memref sig .tc .vmem S512x1 .f32
  h6 : a6.IsWhole
  a7 : Memref sig .tc .vmem S512x1 .f32
  h7 : a7.IsWhole

structure Ins1 (F : FTy → Type) where
  x0 : Vec F S512x1 .i32
  x1 : Vec F S1x512 .i32
  x2 : Vec F S512x256 .bf16
  x3 : Vec F S512x256 .bf16

abbrev Outs1 (F : FTy → Type) := Vec F S512x1 .f32 × Vec F S512x1 .f32

abbrev mem1 (t : Fin cfg1.N) : Mems1 :=
  ⟨win1_0.stage (cfg1.slots t 0), hstage1_0 ((cfg1.slots t 0).cast nbuf1_0), win1_1.stage (cfg1.slots t 1), hstage1_1 ((cfg1.slots t 1).cast nbuf1_1),
   win1_2.stage (cfg1.slots t 2), hstage1_2 ((cfg1.slots t 2).cast nbuf1_2), win1_3.stage (cfg1.slots t 3), hstage1_3 ((cfg1.slots t 3).cast nbuf1_3),
   win1_4.stage (cfg1.slots t 4), hstage1_4 ((cfg1.slots t 4).cast nbuf1_4), win1_5.stage (cfg1.slots t 5), hstage1_5 ((cfg1.slots t 5).cast nbuf1_5)⟩

def six (c : Dev nD) (m : Mems1) (x : Ins1 F) (P6 P7 : sProp 𝕄) : sProp 𝕄 :=
  iprop(owns (c : Thread nD τ) m.a2 fullShare x.x0 ∗ owns (c : Thread nD τ) m.a3 fullShare x.x1 ∗ owns (c : Thread nD τ) m.a4 fullShare x.x2
    ∗ owns (c : Thread nD τ) m.a5 fullShare x.x3 ∗ P6 ∗ P7)

def wrote (c : Dev nD) (a : Memref sig .tc .vmem S512x1 .f32) (L : List (View.Piece (Elt F) S512x1 .f32)) : sProp 𝕄 :=
  iprop(∃ f, a.view.loc (c : Thread nD τ) ↦[a.view.set]{fullShare} a.view.writes (Elt F) f L)

def Run1 (c : Dev nD) (i : grid1.Coords) (m : Mems1) (x : Ins1 F) (xo : Outs1 F) (L4 L5 : List (View.Piece (Elt F) S512x1 .f32)) : Prop :=
  ∀ (E : Set ℕ) (K : PUnit → sProp 𝕄),
    iprop(six c m x (owns (c : Thread nD τ) m.a6 fullShare xo.1) (owns (c : Thread nD τ) m.a7 fullShare xo.2) ∗ (six c m x (wrote c m.a6 L4) (wrote c m.a7 L5) -∗ K ⟨⟩))
      ⊢ wp frame (wpE (defs₀ (F := F)) Variants.none c none) E (cc1__intra_kernel i m.a2 m.h2 m.a3 m.h3 m.a4 m.h4 m.a5 m.h5 m.a6 m.h6 m.a7 m.h7) K

theorem wrote_owns (c : Dev nD) (a : Memref sig .tc .vmem S512x1 .f32) (L : List (View.Piece (Elt F) S512x1 .f32))
    (h : View.Piece.tiledL L S512x1.size = true) : wrote c a L ⊢ owns (c : Thread nD τ) a fullShare (View.canon L) := by
  unfold wrote owns
  iintro ⟨%f, H⟩; iexists a.view.writes (Elt F) f L; isplitr
  · ipureintro; exact View.read_writes_eq_canon _ _ _ (View.cover_of_tiledL L _ h)
  · iexact H

end Cert.Kernel.Fr

end
-- ==== Proof.K.R1RunA.lean ====
import proofs.«410009_j62173946577734_1_alg».proof.Proof.K.R1Runs

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_A (c : Dev nD) (i : grid1.Coords) (m : Mems1) (hc0 : cond1_0 i) (x : Ins1 F) :
    Σ' L4, { L5 // ∀ xo, Run1 c i m x xo L4 L5 } := by
  refine ⟨?_, ?_, fun xo E K => ?run⟩
  case run =>
    simp only [cc1__intra_kernel_eq_skeleton]; unfold cc1__intra_kernel_skel
    simp only [k1_part1_eq_skeleton]
    unfold six wrote owns
    iintro ⟨⟨⟨%f0, %hf0, H0⟩, ⟨%f1, %hf1, H1⟩, ⟨%f2, %hf2, H2⟩, ⟨%f3, %hf3, H3⟩, ⟨%f4, -, H4⟩, ⟨%f5, -, H5⟩⟩, Hk⟩
    obtain rfl := m.h2.eq_unread hf0; obtain rfl := m.h3.eq_unread hf1; obtain rfl := m.h4.eq_unread hf2; obtain rfl := m.h5.eq_unread hf3
    sl_exec (disch := first | exact hc0)
    sl_step
    iapply Hk
    isplitl [H0]
    · iexists _; isplitr; · ipureintro; exact m.h2.read_unread _
      iexact H0
    isplitl [H1]
    · iexists _; isplitr; · ipureintro; exact m.h3.read_unread _
      iexact H1
    isplitl [H2]
    · iexists _; isplitr; · ipureintro; exact m.h4.read_unread _
      iexact H2
    isplitl [H3]
    · iexists _; isplitr; · ipureintro; exact m.h5.read_unread _
      iexact H3
    isplitl [H4]
    · iexists _; iexact H4
    iexists _; iexact H5

def outA (c : Dev nD) (i : grid1.Coords) (m : Mems1) (hc0 : cond1_0 i) (x : Ins1 F) : Outs1 F :=
  (View.canon (kernelRun1_A c i m hc0 x).1, View.canon (kernelRun1_A c i m hc0 x).2.1)

theorem tiledA (c : Dev nD) (i : grid1.Coords) (m : Mems1) (hc0 : cond1_0 i) (x : Ins1 F) :
    View.Piece.tiledL (kernelRun1_A c i m hc0 x).1 S512x1.size = true ∧ View.Piece.tiledL (kernelRun1_A c i m hc0 x).2.1 S512x1.size = true :=
  ⟨by sl_kernel_rfl, by sl_kernel_rfl⟩

end Cert.Kernel.Fr

end
-- ==== Proof.K.R1RunB.lean ====
import proofs.«410009_j62173946577734_1_alg».proof.Proof.K.R1Runs

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_B (c : Dev nD) (i : grid1.Coords) (m : Mems1) (hc0 : ¬cond1_0 i) (x : Ins1 F) (xo : Outs1 F) :
    Σ' L4, { L5 // Run1 c i m x xo L4 L5 } := by
  refine ⟨?_, ?_, fun E K => ?run⟩
  case run =>
    simp only [cc1__intra_kernel_eq_skeleton]; unfold cc1__intra_kernel_skel
    simp only [k1_part1_eq_skeleton]
    unfold six wrote owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
    obtain rfl := m.h2.eq_unread hf0; obtain rfl := m.h3.eq_unread hf1; obtain rfl := m.h4.eq_unread hf2; obtain rfl := m.h5.eq_unread hf3; obtain rfl := m.h6.eq_unread hf4; obtain rfl := m.h7.eq_unread hf5
    sl_exec (disch := first | exact hc0)
    sl_step
    iapply Hk
    isplitl [H0]
    · iexists _; isplitr; · ipureintro; exact m.h2.read_unread _
      iexact H0
    isplitl [H1]
    · iexists _; isplitr; · ipureintro; exact m.h3.read_unread _
      iexact H1
    isplitl [H2]
    · iexists _; isplitr; · ipureintro; exact m.h4.read_unread _
      iexact H2
    isplitl [H3]
    · iexists _; isplitr; · ipureintro; exact m.h5.read_unread _
      iexact H3
    isplitl [H4]
    · iexists _; iexact H4
    iexists _; iexact H5

def outB (c : Dev nD) (i : grid1.Coords) (m : Mems1) (hc0 : ¬cond1_0 i) (x : Ins1 F) (xo : Outs1 F) : Outs1 F :=
  (View.canon (kernelRun1_B c i m hc0 x xo).1, View.canon (kernelRun1_B c i m hc0 x xo).2.1)

theorem tiledB (c : Dev nD) (i : grid1.Coords) (m : Mems1) (hc0 : ¬cond1_0 i) (x : Ins1 F) (xo : Outs1 F) :
    View.Piece.tiledL (kernelRun1_B c i m hc0 x xo).1 S512x1.size = true ∧ View.Piece.tiledL (kernelRun1_B c i m hc0 x xo).2.1 S512x1.size = true :=
  ⟨by sl_kernel_rfl, by sl_kernel_rfl⟩

end Cert.Kernel.Fr

end
-- ==== Proof.K.R1Frame.lean ====
import proofs.«410009_j62173946577734_1_alg».proof.Proof.K.R1RunA
import proofs.«410009_j62173946577734_1_alg».proof.Proof.K.R1RunB

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (q : Fin cfg1.W → PosShare TreeShare) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ins1 (t : Fin cfg1.N) : Ins1 F := ⟨iblk1 V c 0 t, iblk1 V c 1 t, iblk1 V c 2 t, iblk1 V c 3 t⟩

def outsAt1 : (n : ℕ) → n < cfg1.N → Outs1 F
  | n, hn =>
    if h0 : n % 8 = 0 then outA c (grid1.coords ⟨n, hn⟩) (mem1 ⟨n, hn⟩) ((hcond1_0 ⟨n, hn⟩).mpr h0) (ins1 V c ⟨n, hn⟩)
    else outB c (grid1.coords ⟨n, hn⟩) (mem1 ⟨n, hn⟩) (fun h => h0 ((hcond1_0 ⟨n, hn⟩).mp h)) (ins1 V c ⟨n, hn⟩)
      (outsAt1 (n - 1) (Nat.lt_of_le_of_lt (Nat.sub_le _ _) hn))
termination_by n => n
decreasing_by omega

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2
  Φ _ := Pipeline.ΦA spec1 c
  q := q
  owed _ := 0

theorem A_eq1 (w : Fin cfg1.W) : (dat1 V q c).A w = V c (Pipeline.arrRef spec1 w) := rfl
theorem q_eq1 : (dat1 V q c).q = q := rfl
theorem owed1 (t : Fin (cfg1.N + 1)) : (dat1 V q c).owed t = 0 := rfl

theorem before1_in (t : Fin cfg1.N) :
    (∀ d, (dat1 V q c).before 0 t d = (ins1 V c t).x0) ∧ (∀ d, (dat1 V q c).before 1 t d = (ins1 V c t).x1)
    ∧ (∀ d, (dat1 V q c).before 2 t d = (ins1 V c t).x2) ∧ ∀ d, (dat1 V q c).before 3 t d = (ins1 V c t).x3 := by
  refine ⟨?_, ?_, ?_, ?_⟩ <;>
    exact fun d => ((dat1 V q c).before_in_eq_fetched _ rfl (fun _ => rfl) (fun _ _ _ => rfl) (fun _ => rfl) t d).trans rfl

theorem before1_out (t : Fin cfg1.N) (h0 : ¬t.val % 8 = 0) :
    (∀ d, (dat1 V q c).before 4 t d = (outsAt1 V c (t.val - 1) (Nat.lt_of_le_of_lt (Nat.sub_le _ _) t.isLt)).1)
    ∧ ∀ d, (dat1 V q c).before 5 t d = (outsAt1 V c (t.val - 1) (Nat.lt_of_le_of_lt (Nat.sub_le _ _) t.isLt)).2 := by
  have hN : t.val < 64 := lt_of_lt_of_eq t.isLt N_1
  exact ⟨fun d => Dat.before_out_kept _ 4 rfl t (by omega) (Bool.eq_false_iff.mpr fun h => by have := (flush1_4 _).mp h; dsimp only at this; omega) (fun _ => rfl) (fun _ _ => rfl) d,
    fun d => Dat.before_out_kept _ 5 rfl t (by omega) (Bool.eq_false_iff.mpr fun h => by have := (flush1_5 _).mp h; dsimp only at this; omega) (fun _ => rfl) (fun _ _ => rfl) d⟩

theorem body_of_run (t : Fin cfg1.N) (L4 L5 : List (View.Piece (Elt F) S512x1 .f32))
    (hL : View.Piece.tiledL L4 S512x1.size = true ∧ View.Piece.tiledL L5 S512x1.size = true)
    (h4 : (outsAt1 V c t.val t.isLt).1 = View.canon L4) (h5 : (outsAt1 V c t.val t.isLt).2 = View.canon L5)
    (hrun : ∀ d4 d5, Run1 c (grid1.coords t) (mem1 t) (ins1 V c t) ((dat1 V q c).before 4 t d4, (dat1 V q c).before 5 t d5) L4 L5) :
    iprop((dat1 V q c).Φ t.castSucc ∗ (dat1 V q c).owesAt () t.castSucc
      ∗ (∃ d, owns (c : Thread nD τ) (mem1 t).a2 fullShare ((dat1 V q c).before 0 t d))
      ∗ (∃ d, owns (c : Thread nD τ) (mem1 t).a3 fullShare ((dat1 V q c).before 1 t d))
      ∗ (∃ d, owns (c : Thread nD τ) (mem1 t).a4 fullShare ((dat1 V q c).before 2 t d))
      ∗ (∃ d, owns (c : Thread nD τ) (mem1 t).a5 fullShare ((dat1 V q c).before 3 t d))
      ∗ (∃ d, owns (c : Thread nD τ) (mem1 t).a6 fullShare ((dat1 V q c).before 4 t d))
      ∗ (∃ d, owns (c : Thread nD τ) (mem1 t).a7 fullShare ((dat1 V q c).before 5 t d)))
    ⊢ wp frame (wpE (defs₀ (F := F)) Variants.none c none) Set.univ (bodyAt1 t) fun _ =>
      iprop((dat1 V q c).Φ t.castSucc ∗ (dat1 V q c).owesAt () t.castSucc ∗ six c (mem1 t) (ins1 V c t)
        (owns (c : Thread nD τ) (mem1 t).a6 fullShare (outsAt1 V c t.val t.isLt).1) (owns (c : Thread nD τ) (mem1 t).a7 fullShare (outsAt1 V c t.val t.isLt).2)) := by
  rw [h4, h5]
  iintro ⟨HΦ, Ho, ⟨%d0, H0⟩, ⟨%d1, H1⟩, ⟨%d2, H2⟩, ⟨%d3, H3⟩, ⟨%d4, H4⟩, ⟨%d5, H5⟩⟩
  rw [(before1_in V q c t).1 d0, (before1_in V q c t).2.1 d1, (before1_in V q c t).2.2.1 d2, (before1_in V q c t).2.2.2 d3]
  iapply hrun d4 d5 Set.univ _
  unfold six
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply wrote_owns c _ _ hL.1; iexact H4
  iapply wrote_owns c _ _ hL.2; iexact H5

theorem body_obligation1 : BodyObligation (dat1 (F := F) V q c) (defs₀ (F := F)) Variants.none () Set.univ := fun t => by
  rw [bigSep_W1, bigSep_W1]
  by_cases h0 : t.val % 8 = 0
  · exact body_of_run V q c t _ _ (tiledA c _ _ _ _) (by rw [outsAt1, dif_pos h0]; rfl) (by rw [outsAt1, dif_pos h0]; rfl)
      fun d4 d5 => (kernelRun1_A c _ _ ((hcond1_0 t).mpr h0) _).2.2 _
  · exact body_of_run V q c t _ _ (tiledB c _ _ _ _ _) (by rw [outsAt1, dif_neg h0]; rfl) (by rw [outsAt1, dif_neg h0]; rfl)
      fun d4 d5 => by
        rw [(before1_out V q c t h0).1, (before1_out V q c t h0).2]
        exact (kernelRun1_B c _ _ (fun h => h0 ((hcond1_0 t).mp h)) _ _).2.2

theorem hin1 : (Pipeline.ΦA spec1 c : sProp 𝕄) ⊢ (dat1 V q c).Φ 0 := BI.Entails.refl _
theorem hout1 : (dat1 V q c).Φ (Fin.last cfg1.N) ⊢ (Pipeline.ΦA spec1 c : sProp 𝕄) := BI.Entails.refl _
theorem recorded1 (t : Fin (cfg1.N + 1)) : (dat1 V q c).recorded t = Set.univ := rfl

end

end Cert.Kernel.Fr

end
-- ==== Proof.K.R1Arrays.lean ====
import proofs.«410009_j62173946577734_1_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

def q1 : Fin cfg1.W → PosShare TreeShare :=
  fun w : Fin 6 => if w = 2 then fullShare.left else if w = 3 then fullShare.right else fullShare

theorem arrImage1 : Finset.univ.image (Pipeline.arrRef spec1) = [main_v13, main_v14, main_v6, main_v15_0, main_v15_1].toFinset := by decide

section
variable {c : Dev nD} (dat : Dat τ (Elt F) Unit ℕ (UR sig nD τ) ℕ cfg1 c) (hq : dat.q = q1)
  (Vc : (b : Ref sig .tc) → Buf (Elt F) ((c : Thread nD τ).loc b))
  (G : (w : Fin cfg1.W) → Buf (Elt F) ((cfg1.win w).arr.view.loc (c : Thread nD τ))) (hG : ∀ w, G w = Vc (Pipeline.arrRef spec1 w))
include hq hG

theorem arrays1_eq : dat.arrays G = (Pipeline.arrBufs spec1 c Vc : sProp 𝕄) := by
  obtain rfl : G = fun w => Vc (Pipeline.arrRef spec1 w) := funext hG
  have h6 : ((c : Thread nD τ).loc main_v6 ↦{fullShare} Vc main_v6 : sProp 𝕄)
      = BI.sep ((c : Thread nD τ).loc main_v6 ↦{fullShare.left} Vc main_v6) ((c : Thread nD τ).loc main_v6 ↦{fullShare.right} Vc main_v6) :=
    BI.Entails.antisymm (pointsTo_share (PosShare.mem_left_op_right fullShare)).1 (pointsTo_share (PosShare.mem_left_op_right fullShare)).2
  have hassoc : ∀ P Q R : sProp 𝕄, BI.sep (BI.sep P Q) R = BI.sep P (BI.sep Q R) :=
    fun P Q R => BI.Entails.antisymm Idealize.SL.BI.sep_assoc Idealize.SL.BI.sep_assoc'
  have h1 : dat.arrays (fun w => Vc (Pipeline.arrRef spec1 w))
      = bigSep Finset.univ fun w : Fin 6 => ((c : Thread nD τ).loc (Pipeline.arrRef spec1 w) ↦{if (cfg1.win w).isOut then fullShare else q1 w} Vc (Pipeline.arrRef spec1 w) : sProp 𝕄) := by
    unfold Dat.arrays Dat.share
    exact bigSep_congr fun w _ => by rw [(arr_whole1 w).set_eq_univ, hq]
  rw [h1, bigSep_W1]
  unfold Pipeline.arrBufs
  rw [bigSep_eq_bigSepL_of_eq _ arrImage1 (by decide)]
  simp only [bigSepL_cons_cons, bigSepL_singleton]
  rw [h6, hassoc]
  rfl

theorem arrays1_intro : (Pipeline.arrBufs spec1 c Vc : sProp 𝕄) ⊢ dat.arrays G :=
  Entails.of_eq (arrays1_eq dat hq Vc G hG).symm

theorem arrays1_elim : dat.arrays G ⊢ (Pipeline.arrBufs spec1 c Vc : sProp 𝕄) :=
  Entails.of_eq (arrays1_eq dat hq Vc G hG)

end

end Cert.Kernel.Fr

end
-- ==== Proof.K.Segs.lean ====
import proofs.«410009_j62173946577734_1_alg».proof.Proof.Gen.Kernel.Regions
import proofs.«410009_j62173946577734_1_alg».proof.Proof.K.R0Frame
import proofs.«410009_j62173946577734_1_alg».proof.Proof.K.R1Frame
import proofs.«410009_j62173946577734_1_alg».proof.Proof.K.R1Arrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev ent0 : (c : Dev nD) → (b : Ref sig .tc) → Buf (Elt F) ((c : Thread nD τ).loc b) := fun c b => Gen.V6 m c b

def W7 (c : Dev nD) : Valuation τ sig (Elt F) :=
  Pipeline.withArrays spec0 c (Gen.V6 m c) fun w => (dat0 (ent0 m) c).arrAt w cfg0.N

def outsA : Gen.Outs (F := F) := fun _ r c => W7 m c r

abbrev ent1A : (c : Dev nD) → (b : Ref sig .tc) → Buf (Elt F) ((c : Thread nD τ).loc b) := fun c b => Gen.V8 m (outsA m) c b

def W9 (c : Dev nD) : Valuation τ sig (Elt F) :=
  Pipeline.withArrays spec1 c (Gen.V8 m (outsA m) c) fun w => (dat1 (ent1A m) q1 c).arrAt w cfg1.N

def outsK : Gen.Outs (F := F) := fun J r c =>
  match J with
  | 9 => W9 m c r
  | _ => W7 m c r

abbrev ent1 : (c : Dev nD) → (b : Ref sig .tc) → Buf (Elt F) ((c : Thread nD τ).loc b) := fun c b => Gen.V8 m (outsK m) c b

theorem withArrays_arr_of_unique {gr : Nat} {W : Nat} (win : Fin W → Pipeline.WinSpec sig gr) (c : Dev nD)
    (V : Valuation τ sig (Elt F)) (A : (w : Fin W) → Buf (Elt F) ((win w).arr.view.loc (c.tc : Thread nD τ))) (w : Fin W)
    (hu : ∀ w', Pipeline.arrRef win w' = Pipeline.arrRef win w → w' = w) :
    Pipeline.withArrays win c V A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  suffices ∀ (w' : Fin W) (e : Proc.devRef .tc (Pipeline.arrRef win w') = Proc.devRef (τ := τ) .tc (Pipeline.arrRef win w)),
      cast (congrArg (fun b' : DevRef τ sig => b'.ty.Contents (Elt F)) e) (A w') = A w from this _ h.choose_spec
  intro w' e
  obtain rfl : w' = w := hu w' (Proc.devRef_injective _ e)
  rfl

theorem W7_arr (c : Dev nD) (w : Fin cfg0.W) :
    W7 m c (Proc.devRef .tc (Pipeline.arrRef spec0 w)) = (dat0 (ent0 m) c).arrAt w cfg0.N := by
  unfold W7; exact Pipeline.withArrays_arr spec0 launch0.win.arr_inj c _ _ w

theorem W9_arr (c : Dev nD) (w : Fin cfg1.W) (hu : ∀ w', Pipeline.arrRef spec1 w' = Pipeline.arrRef spec1 w → w' = w) :
    W9 m c (Proc.devRef .tc (Pipeline.arrRef spec1 w)) = (dat1 (ent1A m) q1 c).arrAt w cfg1.N := by
  unfold W9; exact withArrays_arr_of_unique spec1 c _ _ w hu

theorem V7_v10 (c : Dev nD) : Gen.V7 m (outsK m) c main_v10 = (dat0 (ent0 m) c).arrAt 3 cfg0.N := by
  unfold Gen.V7
  rw [Function.update_self]
  exact W7_arr m c 3

theorem V9_v15_0 (c : Dev nD) : Gen.V9 m (outsK m) c main_v15_0 = (dat1 (ent1 m) q1 c).arrAt 4 cfg1.N := by
  unfold Gen.V9
  rw [Function.update_of_ne (StableHlo.devRef_ne_of_ne (by decide)), Function.update_self]
  exact W9_arr m c 4 (by decide)

theorem V9_v15_1 (c : Dev nD) : Gen.V9 m (outsK m) c main_v15_1 = (dat1 (ent1 m) q1 c).arrAt 5 cfg1.N := by
  unfold Gen.V9
  rw [Function.update_self]
  exact W9_arr m c 5 (by decide)

def pdats : (p : Fin 2) → (c : Dev nD) → Dat τ (Elt F) Unit ℕ (UR sig nD τ) ℕ (cfgs p) c
  | ⟨0, _⟩ => fun c => dat0 (ent0 m) c
  | ⟨1, _⟩ => fun c => dat1 (ent1 m) q1 c

abbrev L : GSem nD τ sig → Finset Unit := fun _ => ∅
abbrev lv : GSem nD τ sig → Unit → ℕ := fun _ _ => 0

abbrev Rng (c : Dev nD) : sProp 𝕄 := iprop(∃ r, prngReg c r)
abbrev Owes (c : Dev nD) : sProp 𝕄 := iprop(∃ W, owes (c : Thread nD τ) (0 : CellTallies nD τ sig Unit) W)
abbrev R (c : Dev nD) : sProp 𝕄 := iprop(Rng c ∗ Owes c)

abbrev ex0 : (c : Dev nD) → (b : Ref sig .tc) → Buf (Elt F) ((c : Thread nD τ).loc b) := fun c b => Gen.V7 m (outsK m) c b

theorem hF0 (c : Dev nD) : ∀ w : Fin 4, (dat0 (ent0 m) c).arrAt w cfg0.N = ex0 m c (Pipeline.arrRef spec0 w)
  | 0 | 1 | 2 => (((dat0 (ent0 m) c).arrAt_in _ rfl _).trans (A_eq0 (ent0 m) c _)).trans (Gen.V7_of m (outsK m) c _ (by decide)).symm
  | 3 => (V7_v10 m c).symm
  | ⟨_ + 4, h⟩ => absurd h (Nat.not_lt.2 (Nat.le_add_left _ _))

theorem hrest0 (c : Dev nD) : ∀ b, b ∉ Finset.univ.image (Pipeline.arrRef spec0) → ex0 m c b = ent0 m c b :=
  fun b hb => Gen.V7_of m (outsK m) c b fun h => by
    rw [List.mem_singleton] at h; subst h
    exact hb (Finset.mem_image.mpr ⟨3, Finset.mem_univ _, rfl⟩)

abbrev ex1 : (c : Dev nD) → (b : Ref sig .tc) → Buf (Elt F) ((c : Thread nD τ).loc b) := fun c b => Gen.V9 m (outsK m) c b

theorem hF1 (c : Dev nD) : ∀ w : Fin 6, (dat1 (ent1 m) q1 c).arrAt w cfg1.N = ex1 m c (Pipeline.arrRef spec1 w)
  | 0 | 1 | 2 | 3 => (((dat1 (ent1 m) q1 c).arrAt_in _ rfl _).trans (A_eq1 (ent1 m) q1 c _)).trans (Gen.V9_of m (outsK m) c _ (by decide)).symm
  | 4 => (V9_v15_0 m c).symm
  | 5 => (V9_v15_1 m c).symm
  | ⟨_ + 6, h⟩ => absurd h (Nat.not_lt.2 (Nat.le_add_left _ _))

theorem hrest1 (c : Dev nD) : ∀ b, b ∉ Finset.univ.image (Pipeline.arrRef spec1) → ex1 m c b = ent1 m c b :=
  fun b hb => Gen.V9_of m (outsK m) c b fun h => by
    rcases List.mem_cons.mp h with h | h
    · subst h; exact hb (Finset.mem_image.mpr ⟨4, Finset.mem_univ _, rfl⟩)
    · rw [List.mem_singleton] at h; subst h
      exact hb (Finset.mem_image.mpr ⟨5, Finset.mem_univ _, rfl⟩)

theorem entry_of {H A Z PH OS LA : sProp 𝕄} {Λ₀ : Labels} {cfg : Cfg sig Λ₀} {c : Dev nD} (D : Dat τ (Elt F) Unit ℕ (UR sig nD τ) ℕ cfg c)
    (h0 : D.owed 0 = 0) (hr : D.recorded 0 = Set.univ) (hs : H ⊢ iprop(A ∗ Z))
    (hp : (BI.emp : sProp 𝕄) ⊢ PH := by unfold Pipeline.prefHeld; rw [show (Finset.univ : Finset (Fin 0)) = ∅ from rfl, BI.bigSep_empty]) :
    iprop(iprop(H ∗ R c) ∗ OS ∗ LA) ⊢ |={Set.univ}=> iprop(A ∗ PH ∗ D.owesAt () 0 ∗ Rng c ∗ Z) := by
  iintro ⟨⟨Hub, Hp, HO⟩, -, -⟩
  ihave H := hs $$ Hub
  icases H with ⟨Ha, Hrest⟩
  imodintro
  isplitl [Ha]; · iexact Ha
  isplitr; · iapply hp; iempintro
  isplitl [HO]
  · unfold Pipeline.Dat.owesAt Pipeline.owesWithin
    rw [h0]
    icases HO with ⟨%W, HO⟩; iexists W; isplitr
    · ipureintro; exact fun x _ => Or.inl (hr ▸ Set.mem_univ x)
    iexact HO
  isplitl [Hp]; · iexact Hp
  iexact Hrest

theorem exit_of {A Z H : sProp 𝕄} {Λ₀ : Labels} {cfg : Cfg sig Λ₀} {c : Dev nD} (D : Dat τ (Elt F) Unit ℕ (UR sig nD τ) ℕ cfg c)
    (h0 : D.owed (Fin.last _) = 0) (hj : iprop(A ∗ Z) ⊢ H) :
    iprop(A ∗ D.owesAt () (Fin.last _) ∗ Rng c ∗ Z) ⊢ |={Set.univ}=> iprop(H ∗ R c) := by
  iintro ⟨Ha, HO, HY, Hrest⟩
  imodintro
  isplitl [Ha Hrest]
  · iapply hj; isplitl [Ha] <;> iassumption
  isplitl [HY]; · iexact HY
  unfold Pipeline.Dat.owesAt Pipeline.owesWithin
  rw [h0]
  icases HO with ⟨%W, -, HO⟩; iexists W; iexact HO

theorem hin_of {X PH S Φ : sProp 𝕄} (h : iprop(S ∗ X) ⊢ Φ) : iprop(X ∗ PH ∗ S) ⊢ Φ := by
  refine BIBase.Entails.trans ?_ h
  iintro ⟨Hp, -, Hr⟩
  isplitl [Hr]; · iexact Hr
  iexact Hp

theorem hout_of {Φ S Y : sProp 𝕄} (h : Φ ⊢ iprop(S ∗ Y)) : Φ ⊢ iprop(Y ∗ BI.emp ∗ S) := by
  refine h.trans ?_
  iintro ⟨Hr, Hp⟩
  isplitl [Hp]; · iexact Hp
  isplitr; · iempintro
  iexact Hr

set_option backward.isDefEq.respectTransparency.types false in

def reg0 : Pipeline.RegionSeg (pcfgs (F := F)) Gen.adm (pdats m) () defs₀ Variants.none L lv 0 where
  win := launch0.win.to₀
  block_pos := block_pos0
  stage_whole := stage_whole0
  K := PEmpty
  osem k := k.elim
  ho := Pipeline.OwnSemFacts.none _
  hbody c := (body_obligation0 (ent0 m) c).loose
  hwaits := Pipeline.hwaits_of_owed_zero _ _ _ _ L lv 0 fun c t => owed0 (ent0 m) c t
  pre c := iprop(StableHlo.held (c : Thread nD τ) (Pipeline.ucRefs τ sig) (Gen.V6 m c) ∗ R c)
  post c := iprop(StableHlo.held (c : Thread nD τ) (Pipeline.ucRefs τ sig) (Gen.V7 m (outsK m) c) ∗ R c)
  X := Rng
  Y := Rng
  Z c := Pipeline.unscopedRest (Ix := Unit) (Name := ℕ) (U := UR sig nD τ) (Lvl := ℕ) spec0 c (ent0 m c)
  hentry c := by
    have hsplit := Pipeline.arrays_of_unscopedBufs (p := 0) (pcfgs (F := F)) Gen.adm (pdats m) launch0.win launch0.arr_whole c
      (fun w => share0 (ent0 m) c w) (ent0 m c) fun w => A_eq0 (ent0 m) c w
    rw [Pipeline.unscopedBufs_held] at hsplit
    exact entry_of (pdats m 0 c) (owed0 (ent0 m) c 0) (recorded0 (ent0 m) c 0) hsplit
  hin c := hin_of (hin0 (ent0 m) c)
  hout c := by rw [Pipeline.ownSems0_none]; exact hout_of (hout0 (ent0 m) c)
  hexit c := by
    have hjoin := Pipeline.unscopedBufs_of_arrays (p := 0) (pcfgs (F := F)) Gen.adm (Ix := Unit) (Name := ℕ) (U := UR sig nD τ) (Lvl := ℕ)
      launch0.win launch0.arr_whole c (pdats m) (fun w => share0 (ent0 m) c w)
      (ent0 m c) (ex0 m c) ((pdats m 0 c).arrAt · cfg0.N) (hF0 m c) (hrest0 m c)
    rw [Pipeline.unscopedBufs_held] at hjoin
    exact exit_of (pdats m 0 c) (owed0 (ent0 m) c _) hjoin

theorem entry1 (c : Dev nD) :
    (StableHlo.held (c : Thread nD τ) (Pipeline.ucRefs τ sig) (Gen.V8 m (outsK m) c) : sProp 𝕄)
      ⊢ iprop((dat1 (ent1 m) q1 c).arrays ((dat1 (ent1 m) q1 c).arrAt · 0)
          ∗ Pipeline.unscopedRest (Ix := Unit) (Name := ℕ) (U := UR sig nD τ) (Lvl := ℕ) spec1 c (ent1 m c)) := by
  rw [← Pipeline.unscopedBufs_held (Ix := Unit) (Name := ℕ) (U := UR sig nD τ) (Lvl := ℕ) c (Gen.V8 m (outsK m) c)]
  refine BI.Entails.trans (Entails.of_eq (Pipeline.unscopedBufs_split₀ (Ix := Unit) (Name := ℕ) (U := UR sig nD τ) (Lvl := ℕ) cfgs 1 winFacts₀1.arr_unscoped c (ent1 m c))) ?_
  exact sep_mono (arrays1_intro (dat1 (ent1 m) q1 c) (q_eq1 (ent1 m) q1 c) (ent1 m c) _ fun w => A_eq1 (ent1 m) q1 c w) .rfl

theorem exit1 (c : Dev nD) :
    iprop((dat1 (ent1 m) q1 c).arrays ((dat1 (ent1 m) q1 c).arrAt · cfg1.N)
        ∗ Pipeline.unscopedRest (Ix := Unit) (Name := ℕ) (U := UR sig nD τ) (Lvl := ℕ) spec1 c (ent1 m c))
      ⊢ (StableHlo.held (c : Thread nD τ) (Pipeline.ucRefs τ sig) (Gen.V9 m (outsK m) c) : sProp 𝕄) := by
  rw [← Pipeline.unscopedBufs_held (Ix := Unit) (Name := ℕ) (U := UR sig nD τ) (Lvl := ℕ) c (Gen.V9 m (outsK m) c)]
  refine BI.Entails.trans ?_ (Entails.of_eq (Pipeline.unscopedBufs_split₀ (Ix := Unit) (Name := ℕ) (U := UR sig nD τ) (Lvl := ℕ) cfgs 1 winFacts₀1.arr_unscoped c (ex1 m c)).symm)
  refine sep_mono (arrays1_elim (dat1 (ent1 m) q1 c) (q_eq1 (ent1 m) q1 c) (ex1 m c) _ (hF1 m c)) (Entails.of_eq ?_)
  unfold Pipeline.unscopedRest
  exact bigSep_congr fun b hb => by rw [hrest1 m c b (Finset.mem_sdiff.mp hb).2]

set_option backward.isDefEq.respectTransparency.types false in

def reg1 : Pipeline.RegionSeg (pcfgs (F := F)) Gen.adm (pdats m) () defs₀ Variants.none L lv 1 where
  win := winFacts₀1
  block_pos := block_pos1
  stage_whole := stage_whole1
  K := PEmpty
  osem k := k.elim
  ho := Pipeline.OwnSemFacts.none _
  hbody c := (body_obligation1 (ent1 m) q1 c).loose
  hwaits := Pipeline.hwaits_of_owed_zero _ _ _ _ L lv 1 fun c t => owed1 (ent1 m) q1 c t
  pre c := iprop(StableHlo.held (c : Thread nD τ) (Pipeline.ucRefs τ sig) (Gen.V8 m (outsK m) c) ∗ R c)
  post c := iprop(StableHlo.held (c : Thread nD τ) (Pipeline.ucRefs τ sig) (Gen.V9 m (outsK m) c) ∗ R c)
  X := Rng
  Y := Rng
  Z c := Pipeline.unscopedRest (Ix := Unit) (Name := ℕ) (U := UR sig nD τ) (Lvl := ℕ) spec1 c (ent1 m c)
  hentry c := entry_of (pdats m 1 c) (owed1 (ent1 m) q1 c 0) (recorded1 (ent1 m) q1 c 0) (entry1 m c)
  hin c := hin_of (hin1 (ent1 m) q1 c)
  hout c := by rw [Pipeline.ownSems0_none]; exact hout_of (hout1 (ent1 m) q1 c)
  hexit c := exit_of (pdats m 1 c) (owed1 (ent1 m) q1 c _) (exit1 m c)

abbrev Erest : Fin 3 → Dev nD → sProp 𝕄 := fun _ c => R c

abbrev init0 := initOf (Pipeline.cells cfgs cellOf_inj) (Pipeline.launchToks cfgs cellOf_inj)

theorem hu₀ : (ownU init0 : sProp 𝕄)
    ⊢ |={Set.univ}=> iprop(BI.own (emb₁ init0)
        ∗ bigSep Finset.univ fun _ : Dev nD => (BI.emp : sProp 𝕄)) := by
  iintro Hu; imodintro
  isplitl [Hu]
  · iapply (show (ownU init0 : sProp 𝕄)
        ⊢ BI.own (emb₁ init0) from .rfl)
    iexact Hu
  iapply (show (BI.emp : sProp 𝕄) ⊢ bigSep Finset.univ (fun _ : Dev nD => (BI.emp : sProp 𝕄)) from by rw [BI.bigSep_emp_const])
  iempintro

theorem hE2 (c : Dev nD) : Erest (F := F) 2 c ⊢ Owes c := by
  iintro ⟨-, HO⟩; iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run_vals (ρ : Dev nD → PrngReg) : θ_run defs (onTc (τ := τ) (main (F := F))) ⟨m, fun _ => 0, ρ⟩ (fun r => ∀ c : Dev nD,
      r.2.mem ((c.tc : Thread nD τ).loc main_v43) = Gen.V18 m (outsK m) c main_v43
      ∧ r.2.mem ((c.tc : Thread nD τ).loc main_v12) = Gen.V18 m (outsK m) c main_v12
      ∧ r.2.mem ((c.tc : Thread nD τ).loc main_v41) = Gen.V18 m (outsK m) c main_v41
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) Gen.adm (pdats m) () cellOf_inj emb₁ defs₀ Variants.none L lv m ρ main
    (Gen.segs m (outsK m) Variants.none L lv Erest () (pdats m) (reg0 m) (reg1 m))
    (fun c Q => by
      rewrite [main_chain c, Pipeline.Seg.run_eq_chain]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => (BI.emp : sProp 𝕄))
    init0 hu₀
    (T₀ := fun c => iprop(StableHlo.held (c : Thread nD τ) (Pipeline.ucRefs τ sig) (Gen.V0 m c) ∗ Erest 0 c))
    (Tₙ := fun c => StableHlo.held (c : Thread nD τ) (Pipeline.ucRefs τ sig) (Gen.V18 m (outsK m) c))
    (hch := fun c => ⟨.rfl, .rfl, .rfl, .rfl, .rfl, .rfl, .rfl, .rfl, .rfl, .rfl, .rfl, .rfl, .rfl, .rfl, .rfl, .rfl, .rfl, .rfl, sep_mono .rfl (hE2 c)⟩)
    (hinit := ?_)
    (QY := fun c s => s.mem ((c.tc : Thread nD τ).loc main_v43) = Gen.V18 m (outsK m) c main_v43
      ∧ s.mem ((c.tc : Thread nD τ).loc main_v12) = Gen.V18 m (outsK m) c main_v12
      ∧ s.mem ((c.tc : Thread nD τ).loc main_v41) = Gen.V18 m (outsK m) c main_v41
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  ·

    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (Gen.V18 m (outsK m) c) s') $$ [Hh HSI]
    · isplitl [Hh] <;> iassumption
    icases Hr with ⟨%h, HSI⟩
    imodintro
    isplitr
    · ipureintro
      exact ⟨h (Proc.devRef .tc main_v43) (mem_uc main_v43 (by decide)),
        h (Proc.devRef .tc main_v12) (mem_uc main_v12 (by decide)),
        h (Proc.devRef .tc main_v41) (mem_uc main_v41 (by decide)),
        (h (Proc.devRef .tc main_arg0) (mem_uc main_arg0 (by decide))).trans (Gen.V18_main_arg0 m (outsK m) c),
        (h (Proc.devRef .tc main_arg1) (mem_uc main_arg1 (by decide))).trans (Gen.V18_main_arg1 m (outsK m) c),
        (h (Proc.devRef .tc main_arg2) (mem_uc main_arg2 (by decide))).trans (Gen.V18_main_arg2 m (outsK m) c)⟩
    · iexact HSI

end Cert.Kernel.Fr

end
-- ==== Proof.KI.R0Runs.lean ====
import proofs.«410009_j62173946577734_1_alg».proof.Proof.Gen.KernelIdeal.Launch
import proofs.«410009_j62173946577734_1_alg».proof.Proof.Gen.KernelIdeal.Skeleton
import proofs.«410009_j62173946577734_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe
open Idealize.SL Idealize.SL.RA Idealize.SL.BI
open Idealize.SL.BI.BIBase Idealize.SL.BI.Laws Idealize.SL.Sem
open Idealize.ShloMosaic.Pipeline (Dat)

variable {F : FTy → Type} [FloatOps F] [Named F]

local notation "𝕄" => MT nD τ sig Unit (Elt F) ℕ (UR sig nD τ) ℕ

def iblk0 (V : (c : Dev nD) → (b : Ref sig .tc) → Buf (Elt F) ((c : Thread nD τ).loc b)) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 20 = 0 :=
  (by decide +kernel : ∀ t : Fin grid0.N, cond0_0 (grid0.coords t) ↔ t.val % 20 = 0)

abbrev cond0_1 (i : grid0.Coords) : Prop := k0_cond2 i = 1#1

theorem hcond0_1 : ∀ t : Fin cfg0.N, cond0_1 (grid0.coords t) ↔ t.val % 20 = 19 :=
  (by decide +kernel : ∀ t : Fin grid0.N, cond0_1 (grid0.coords t) ↔ t.val % 20 = 19)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

abbrev ms0_0 (t : Fin cfg0.N) : Memref sig .tc .vmem S512x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)

abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2

abbrev VS0_0 : View sig .tc .vmem S512x1 .f32 := scM0_0.view

def held0 (c : Dev nD) (b : Ref sig .tc) : sProp 𝕄 := iprop(∃ f : Buf (Elt F) ((c : Thread nD τ).loc b), ((c : Thread nD τ).loc b) ↦{fullShare} f)

def rest0 (c : Dev nD) : sProp 𝕄 :=
  iprop(held0 (F := F) c cc1_stg0_0 ∗ held0 (F := F) c cc1_stg0_1 ∗ held0 (F := F) c cc1_stg1_0 ∗ held0 (F := F) c cc1_stg1_1 ∗ held0 (F := F) c cc1_stg2_0 ∗ held0 (F := F) c cc1_stg2_1 ∗ held0 (F := F) c cc1_stg3_0 ∗ held0 (F := F) c cc1_stg3_1 ∗ held0 (F := F) c cc1_stg4_0 ∗ held0 (F := F) c cc1_stg4_1 ∗ held0 (F := F) c cc1_stg5_0 ∗ held0 (F := F) c cc1_stg5_1)

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ rest0 (F := F) c) ∗ (∃ r, prngReg c r)) := by
  unfold Pipeline.ΦA rest0 held0; rw [scopedRest0_eq]; simp only [scM0_0, scM0_1, scM0_2, owns_whole]; try rfl

-- The body's seven memrefs (four windows, three scratch columns), each whole, and the three input blocks it reads.
structure Mems0 where
  a2 : Memref sig .tc .vmem S512x1 .i32
  h2 : a2.IsWhole
  a3 : Memref sig .tc .vmem S512x256 .bf16
  h3 : a3.IsWhole
  a4 : Memref sig .tc .vmem S1024x256 .bf16
  h4 : a4.IsWhole
  a5 : Memref sig .tc .vmem S512x1 .f32
  h5 : a5.IsWhole
  a6 : Memref sig .tc .vmem S512x1 .f32
  h6 : a6.IsWhole
  a7 : Memref sig .tc .vmem S512x1 .f32
  h7 : a7.IsWhole
  a8 : Memref sig .tc .vmem S512x1 .f32
  h8 : a8.IsWhole

structure Ins0 (F : FTy → Type) where
  x0 : Vec F S512x1 .i32
  x1 : Vec F S512x256 .bf16
  x2 : Vec F S1024x256 .bf16

abbrev mem0 (t : Fin cfg0.N) : Mems0 :=
  ⟨ms0_0 t, hs0_0 t, ms0_1 t, hs0_1 t, ms0_2 t, hs0_2 t, ms0_3 t, hs0_3 t, scM0_0, Memref.isWhole_whole _, scM0_1, Memref.isWhole_whole _, scM0_2, Memref.isWhole_whole _⟩

-- The inputs' memrefs at their blocks, beside what `P5` … `P8` say of the output's and the scratch columns'.
def seven0 (c : Dev nD) (m : Mems0) (x : Ins0 F) (P5 P6 P7 P8 : sProp 𝕄) : sProp 𝕄 :=
  iprop(owns (c : Thread nD τ) m.a2 fullShare x.x0 ∗ owns (c : Thread nD τ) m.a3 fullShare x.x1 ∗ owns (c : Thread nD τ) m.a4 fullShare x.x2 ∗ P5 ∗ P6 ∗ P7 ∗ P8)

-- A memref holding a list of pieces (last first) written over something.
def wrote0 (c : Dev nD) (a : Memref sig .tc .vmem S512x1 .f32) (L : List (View.Piece (Elt F) S512x1 .f32)) : sProp 𝕄 :=
  iprop(∃ f, a.view.loc (c : Thread nD τ) ↦[a.view.set]{fullShare} a.view.writes (Elt F) f L)

-- The body run on `m` from the inputs at `x`, the output as `P5` and the scratch columns as `P6` … `P8` say:
-- it keeps the inputs, leaves the output as `Q5` says and the pieces `LS0` … `LS2` written in the scratch columns.
def Run0 (c : Dev nD) (i : grid0.Coords) (m : Mems0) (x : Ins0 F) (P5 P6 P7 P8 Q5 : sProp 𝕄) (LS0 LS1 LS2 : List (View.Piece (Elt F) S512x1 .f32)) : Prop :=
  ∀ (E : Set ℕ) (K : PUnit → sProp 𝕄),
    iprop(seven0 c m x P5 P6 P7 P8 ∗ (seven0 c m x Q5 (wrote0 c m.a6 LS0) (wrote0 c m.a7 LS1) (wrote0 c m.a8 LS2) -∗ K ⟨⟩))
      ⊢ wp frame (wpE (defs₀ (F := F)) Variants.none c none) E (cc0__amsoftmax_kernel i m.a2 m.h2 m.a3 m.h3 m.a4 m.h4 m.a5 m.h5 m.a6 m.h6 m.a7 m.h7 m.a8 m.h8) K

end Cert.KernelIdeal.Fr

end
-- ==== Proof.KI.R0RunA.lean ====
import proofs.«410009_j62173946577734_1_alg».proof.Proof.KI.R0Runs

noncomputable section

namespace Cert.KernelIdeal.Fr

open Cert.KernelIdeal Cert.KernelIdeal.Gen
open Idealize.ShloMosaic Idealize.ShloMosaic.TcCoe
open Idealize.SL Idealize.SL.RA Idealize.SL.BI
open Idealize.SL.BI.BIBase Idealize.SL.BI.Laws Idealize.SL.Sem

variable {F : FTy → Type} [FloatOps F] [Named F]

local notation "𝕄" => MT nD τ sig Unit (Elt F) ℕ (UR sig nD τ) ℕ

noncomputable def kernelRun0_A (c : Dev nD) (i : grid0.Coords) (m : Mems0) (hc0 : cond0_0 i) (hc1 : ¬cond0_1 i) (x : Ins0 F) :
    Σ' (L3 : List (View.Piece (Elt F) S512x1 .f32)) (LS0 : List (View.Piece (Elt F) S512x1 .f32)) (LS1 : List (View.Piece (Elt F) S512x1 .f32)), { LS2 : List (View.Piece (Elt F) S512x1 .f32) //
      ∀ xi3, Run0 c i m x (owns (c : Thread nD τ) m.a5 fullShare xi3) iprop(∃ d, owns (c : Thread nD τ) m.a6 fullShare d) iprop(∃ d, owns (c : Thread nD τ) m.a7 fullShare d) iprop(∃ d, owns (c : Thread nD τ) m.a8 fullShare d) (owns (c : Thread nD τ) m.a5 fullShare xi3) LS0 LS1 LS2 } := by
  refine ⟨[], ?_, ?_, ?_, fun xi3 E K => ?run⟩
  case run =>
    simp only [cc0__amsoftmax_kernel_eq_skeleton]; unfold cc0__amsoftmax_kernel_skel
    simp only [k0_part1_eq_skeleton]; unfold k0_part1_skel
    unfold seven0 wrote0 owns
    iintro ⟨⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩⟩, Hk⟩
    obtain rfl := m.h2.eq_unread hf0; obtain rfl := m.h3.eq_unread hf1; obtain rfl := m.h4.eq_unread hf2; obtain rfl := m.h5.eq_unread hf3
    sl_exec (disch := first | exact hc0 | exact hc1)
    sl_step
    iapply Hk
    isplitl [H0]
    · iexists _; isplitr; · ipureintro; exact m.h2.read_unread _
      iexact H0
    isplitl [H1]
    · iexists _; isplitr; · ipureintro; exact m.h3.read_unread _
      iexact H1
    isplitl [H2]
    · iexists _; isplitr; · ipureintro; exact m.h4.read_unread _
      iexact H2
    isplitl [H3]
    · iexists _; isplitr; · ipureintro; exact m.h5.read_unread _
      iexact H3
    isplitl [HS0]; · iexists _; iexact HS0
    isplitl [HS1]; · iexists _; iexact HS1
    iexists _; iexact HS2

end Cert.KernelIdeal.Fr

end
-- ==== Proof.KI.R0RunB.lean ====
import proofs.«410009_j62173946577734_1_alg».proof.Proof.KI.R0Runs

noncomputable section

namespace Cert.KernelIdeal.Fr

open Cert.KernelIdeal Cert.KernelIdeal.Gen
open Idealize.ShloMosaic Idealize.ShloMosaic.TcCoe
open Idealize.SL Idealize.SL.RA Idealize.SL.BI
open Idealize.SL.BI.BIBase Idealize.SL.BI.Laws Idealize.SL.Sem

variable {F : FTy → Type} [FloatOps F] [Named F]

local notation "𝕄" => MT nD τ sig Unit (Elt F) ℕ (UR sig nD τ) ℕ

noncomputable def kernelRun0_B (c : Dev nD) (i : grid0.Coords) (m : Mems0) (hc0 : ¬cond0_0 i) (hc1 : ¬cond0_1 i) (x : Ins0 F) (xs0 xs1 xs2 : Vec F S512x1 .f32) :
    Σ' (L3 : List (View.Piece (Elt F) S512x1 .f32)) (LS0 : List (View.Piece (Elt F) S512x1 .f32)) (LS1 : List (View.Piece (Elt F) S512x1 .f32)), { LS2 : List (View.Piece (Elt F) S512x1 .f32) //
      ∀ xi3, Run0 c i m x (owns (c : Thread nD τ) m.a5 fullShare xi3) (owns (c : Thread nD τ) m.a6 fullShare xs0) (owns (c : Thread nD τ) m.a7 fullShare xs1) (owns (c : Thread nD τ) m.a8 fullShare xs2) (owns (c : Thread nD τ) m.a5 fullShare xi3) LS0 LS1 LS2 } := by
  refine ⟨[], ?_, ?_, ?_, fun xi3 E K => ?run⟩
  case run =>
    simp only [cc0__amsoftmax_kernel_eq_skeleton]; unfold cc0__amsoftmax_kernel_skel
    simp only [k0_part1_eq_skeleton]; unfold k0_part1_skel
    unfold seven0 wrote0 owns
    iintro ⟨⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩⟩, Hk⟩
    obtain rfl := m.h2.eq_unread hf0; obtain rfl := m.h3.eq_unread hf1; obtain rfl := m.h4.eq_unread hf2; obtain rfl := m.h5.eq_unread hf3; obtain rfl := m.h6.eq_unread hfs0; obtain rfl := m.h7.eq_unread hfs1; obtain rfl := m.h8.eq_unread hfs2
    sl_exec (disch := first | exact hc0 | exact hc1)
    sl_step
    iapply Hk
    isplitl [H0]
    · iexists _; isplitr; · ipureintro; exact m.h2.read_unread _
      iexact H0
    isplitl [H1]
    · iexists _; isplitr; · ipureintro; exact m.h3.read_unread _
      iexact H1
    isplitl [H2]
    · iexists _; isplitr; · ipureintro; exact m.h4.read_unread _
      iexact H2
    isplitl [H3]
    · iexists _; isplitr; · ipureintro; exact m.h5.read_unread _
      iexact H3
    isplitl [HS0]; · iexists _; iexact HS0
    isplitl [HS1]; · iexists _; iexact HS1
    iexists _; iexact HS2

end Cert.KernelIdeal.Fr

end
-- ==== Proof.KI.R0RunC.lean ====
import proofs.«410009_j62173946577734_1_alg».proof.Proof.KI.R0Runs

noncomputable section

namespace Cert.KernelIdeal.Fr

open Cert.KernelIdeal Cert.KernelIdeal.Gen
open Idealize.ShloMosaic Idealize.ShloMosaic.TcCoe
open Idealize.SL Idealize.SL.RA Idealize.SL.BI
open Idealize.SL.BI.BIBase Idealize.SL.BI.Laws Idealize.SL.Sem

variable {F : FTy → Type} [FloatOps F] [Named F]

local notation "𝕄" => MT nD τ sig Unit (Elt F) ℕ (UR sig nD τ) ℕ

noncomputable def kernelRun0_C (c : Dev nD) (i : grid0.Coords) (m : Mems0) (hc0 : ¬cond0_0 i) (hc1 : cond0_1 i) (x : Ins0 F) (xs0 xs1 xs2 : Vec F S512x1 .f32) :
    Σ' (L3 : List (View.Piece (Elt F) S512x1 .f32)) (LS0 : List (View.Piece (Elt F) S512x1 .f32)) (LS1 : List (View.Piece (Elt F) S512x1 .f32)), { LS2 : List (View.Piece (Elt F) S512x1 .f32) //
      Run0 c i m x iprop(∃ d, owns (c : Thread nD τ) m.a5 fullShare d) (owns (c : Thread nD τ) m.a6 fullShare xs0) (owns (c : Thread nD τ) m.a7 fullShare xs1) (owns (c : Thread nD τ) m.a8 fullShare xs2) (wrote0 c m.a5 L3) LS0 LS1 LS2 } := by
  refine ⟨?_, ?_, ?_, ?_, fun E K => ?run⟩
  case run =>
    simp only [cc0__amsoftmax_kernel_eq_skeleton]; unfold cc0__amsoftmax_kernel_skel
    simp only [k0_part1_eq_skeleton]; unfold k0_part1_skel
    unfold seven0 wrote0 owns
    iintro ⟨⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩⟩, Hk⟩
    obtain rfl := m.h2.eq_unread hf0; obtain rfl := m.h3.eq_unread hf1; obtain rfl := m.h4.eq_unread hf2; obtain rfl := m.h6.eq_unread hfs0; obtain rfl := m.h7.eq_unread hfs1; obtain rfl := m.h8.eq_unread hfs2
    sl_exec (disch := first | exact hc0 | exact hc1)
    sl_step
    iapply Hk
    isplitl [H0]
    · iexists _; isplitr; · ipureintro; exact m.h2.read_unread _
      iexact H0
    isplitl [H1]
    · iexists _; isplitr; · ipureintro; exact m.h3.read_unread _
      iexact H1
    isplitl [H2]
    · iexists _; isplitr; · ipureintro; exact m.h4.read_unread _
      iexact H2
    isplitl [H3]; · iexists _; iexact H3
    isplitl [HS0]; · iexists _; iexact HS0
    isplitl [HS1]; · iexists _; iexact HS1
    iexists _; iexact HS2

end Cert.KernelIdeal.Fr

end
-- ==== Proof.KI.R0Frame.lean ====
import proofs.«410009_j62173946577734_1_alg».proof.Proof.KI.R0RunA
import proofs.«410009_j62173946577734_1_alg».proof.Proof.KI.R0RunB
import proofs.«410009_j62173946577734_1_alg».proof.Proof.KI.R0RunC

noncomputable section

namespace Cert.KernelIdeal.Fr

open Cert.KernelIdeal Cert.KernelIdeal.Gen
open Idealize.ShloMosaic Idealize.ShloMosaic.TcCoe
open Idealize.SL Idealize.SL.RA Idealize.SL.BI
open Idealize.SL.BI.BIBase Idealize.SL.BI.Laws Idealize.SL.Sem
open Idealize.ShloMosaic.Pipeline (Dat BodyObligation)

variable {F : FTy → Type} [FloatOps F] [Named F]

local notation "𝕄" => MT nD τ sig Unit (Elt F) ℕ (UR sig nD τ) ℕ

theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev Col0 (F : FTy → Type) := Vec F S512x1 .f32

variable (V : (c : Dev nD) → (b : Ref sig .tc) → Buf (Elt F) ((c : Thread nD τ).loc b)) (c : Dev nD)

abbrev ins0 (t : Fin cfg0.N) : Ins0 F := ⟨iblk0 V c 0 t, iblk0 V c 1 t, iblk0 V c 2 t⟩

def runA0 (t : Fin cfg0.N) (h0 : t.val % 20 = 0) (h1 : ¬t.val % 20 = 19) :=
  kernelRun0_A c (grid0.coords t) (mem0 t) ((hcond0_0 t).mpr h0) (fun h => h1 ((hcond0_1 t).mp h)) (ins0 V c t)
def runB0 (t : Fin cfg0.N) (h0 : ¬t.val % 20 = 0) (h1 : ¬t.val % 20 = 19) (xs : Col0 F × Col0 F × Col0 F) :=
  kernelRun0_B c (grid0.coords t) (mem0 t) (fun h => h0 ((hcond0_0 t).mp h)) (fun h => h1 ((hcond0_1 t).mp h)) (ins0 V c t) xs.1 xs.2.1 xs.2.2
def runC0 (t : Fin cfg0.N) (h0 : ¬t.val % 20 = 0) (h1 : t.val % 20 = 19) (xs : Col0 F × Col0 F × Col0 F) :=
  kernelRun0_C c (grid0.coords t) (mem0 t) (fun h => h0 ((hcond0_0 t).mp h)) ((hcond0_1 t).mpr h1) (ins0 V c t) xs.1 xs.2.1 xs.2.2

def rd0 (L : List (View.Piece (Elt F) S512x1 .f32)) : Col0 F := VS0_0.read (Elt F) (VS0_0.writes (Elt F) VS0_0.junk L)

def outs0 {P : List (View.Piece (Elt F) S512x1 .f32) → List (View.Piece (Elt F) S512x1 .f32) → List (View.Piece (Elt F) S512x1 .f32) → List (View.Piece (Elt F) S512x1 .f32) → Prop} (r : Σ' L3 LS0 LS1, { LS2 // P L3 LS0 LS1 LS2 }) : Col0 F × Col0 F × Col0 F × Col0 F :=
  (rd0 r.1, rd0 r.2.1, rd0 r.2.2.1, rd0 r.2.2.2.1)

def outsAt0 : (n : ℕ) → n < cfg0.N → Col0 F × Col0 F × Col0 F × Col0 F
  | n, hn =>
    if h0 : n % 20 = 0 then outs0 (runA0 V c ⟨n, hn⟩ h0 (by show ¬n % 20 = 19; omega))
    else if h1 : n % 20 = 19 then outs0 (runC0 V c ⟨n, hn⟩ h0 h1 (outsAt0 (n - 1) (Nat.lt_of_le_of_lt (Nat.sub_le _ _) hn)).2)
    else outs0 (runB0 V c ⟨n, hn⟩ h0 h1 (outsAt0 (n - 1) (Nat.lt_of_le_of_lt (Nat.sub_le _ _) hn)).2)
termination_by n => n
decreasing_by all_goals omega

def prev0 (t : Fin cfg0.N) : Col0 F × Col0 F × Col0 F := (outsAt0 V c (t.val - 1) (Nat.lt_of_le_of_lt (Nat.sub_le _ _) t.isLt)).2

theorem outsAt0_A (t : Fin cfg0.N) (h0 : t.val % 20 = 0) (h1 : ¬t.val % 20 = 19) : outsAt0 V c t.val t.isLt = outs0 (runA0 V c t h0 h1) := by
  rw [outsAt0, dif_pos h0]

theorem outsAt0_B (t : Fin cfg0.N) (h0 : ¬t.val % 20 = 0) (h1 : ¬t.val % 20 = 19) : outsAt0 V c t.val t.isLt = outs0 (runB0 V c t h0 h1 (prev0 V c t)) := by
  rw [outsAt0, dif_neg h0, dif_neg h1]; rfl

theorem outsAt0_C (t : Fin cfg0.N) (h0 : ¬t.val % 20 = 0) (h1 : t.val % 20 = 19) : outsAt0 V c t.val t.isLt = outs0 (runC0 V c t h0 h1 (prev0 V c t)) := by
  rw [outsAt0, dif_neg h0, dif_pos h1]; rfl

def scr0 (xs : Col0 F × Col0 F × Col0 F) : sProp 𝕄 :=
  iprop(iprop(owns (c : Thread nD τ) scM0_0 fullShare xs.1 ∗ owns (c : Thread nD τ) scM0_1 fullShare xs.2.1 ∗ owns (c : Thread nD τ) scM0_2 fullShare xs.2.2 ∗ rest0 (F := F) c) ∗ (∃ r, prngReg c r))

theorem scr0_forget (xs : Col0 F × Col0 F × Col0 F) : scr0 c xs ⊢ (Pipeline.ΦA spec0 c : sProp 𝕄) := by
  rw [PhiA0_eq]; unfold scr0
  iintro ⟨⟨HS0, HS1, HS2, Hr⟩, Hg⟩
  iframe Hr Hg
  isplitl [HS0]; · iexists _; iexact HS0
  isplitl [HS1]; · iexists _; iexact HS1
  iexists _; iexact HS2

def PhiS0 : (n : ℕ) → n ≤ cfg0.N → sProp 𝕄
  | 0, _ => Pipeline.ΦA spec0 c
  | n + 1, hn => scr0 c (outsAt0 V c n hn).2

theorem PhiS0_forget : ∀ (n : ℕ) (h : n ≤ cfg0.N), PhiS0 V c n h ⊢ (Pipeline.ΦA spec0 c : sProp 𝕄)
  | 0, _ => Entails.refl _
  | n + 1, _ => scr0_forget c _

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (w : Fin cfg0.W) : (dat0 V c).A w = V c (Pipeline.arrRef spec0 w) := by
  dsimp only [dat0]
theorem share0 (w : Fin cfg0.W) : (dat0 V c).share w = fullShare :=
  (dat0 V c).share_full (fun _ => rfl) w
theorem owed0 (t : Fin (cfg0.N + 1)) : (dat0 V c).owed t = 0 := rfl
theorem recorded0 (t : Fin (cfg0.N + 1)) : (dat0 V c).recorded t = Set.univ := rfl

theorem after0_0 (t : Fin cfg0.N) : (dat0 V c).after 0 t = iblk0 V c 0 t := by dsimp only [dat0]
theorem after0_1 (t : Fin cfg0.N) : (dat0 V c).after 1 t = iblk0 V c 1 t := by dsimp only [dat0]
theorem after0_2 (t : Fin cfg0.N) : (dat0 V c).after 2 t = iblk0 V c 2 t := by dsimp only [dat0]
theorem after0_3 (t : Fin cfg0.N) : (dat0 V c).after 3 t = (outsAt0 V c t.val t.isLt).1 := by dsimp only [dat0]

theorem before0_in (t : Fin cfg0.N) :
    (∀ d, (dat0 V c).before 0 t d = iblk0 V c 0 t) ∧ (∀ d, (dat0 V c).before 1 t d = iblk0 V c 1 t) ∧ ∀ d, (dat0 V c).before 2 t d = iblk0 V c 2 t := by
  refine ⟨?_, ?_, ?_⟩ <;>
    exact fun d => ((dat0 V c).before_in_eq_fetched _ rfl (fun _ => rfl) (fun _ _ _ => rfl) (fun _ => rfl) t d).trans rfl

theorem Phi0_pos (t : Fin cfg0.N) (hz : t.val ≠ 0) : (dat0 V c).Φ t.castSucc = scr0 c (prev0 V c t) := by
  obtain ⟨n, hn⟩ := t
  cases n with
  | zero => exact absurd rfl hz
  | succ n => rfl

theorem leaves_live0 (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

theorem Phi0_forget (t : Fin (cfg0.N + 1)) : (dat0 V c).Φ t ⊢ (Pipeline.ΦA spec0 c : sProp 𝕄) :=
  PhiS0_forget V c _ _

def bodyPre0 (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))
def bodyPost0 (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem sound_body0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [(before0_in V c t).1, (before0_in V c t).2.1, (before0_in V c t).2.2]
  rw [show (dat0 V c).owesAt () t.succ = (dat0 V c).owesAt () t.castSucc from rfl,
    show (dat0 V c).Φ t.succ = scr0 c (outsAt0 V c t.val t.isLt).2 from rfl,
    leaves_live0 V c 0 t (liveAt0_0 t), leaves_live0 V c 1 t (liveAt0_1 t), leaves_live0 V c 2 t (liveAt0_2 t), after0_0, after0_1, after0_2]
  by_cases h1 : t.val % 20 = 19
  · have h0 : ¬t.val % 20 = 0 := by omega
    rw [leaves_live0 V c 3 t (liveAt0_3 t ((hcond0_1 t).mpr h1)), after0_3, outsAt0_C V c t h0 h1, Phi0_pos V c t (fun hz => h0 (by rw [hz]))]
    dsimp only [scr0, outs0, rd0]
    iintro ⟨⟨⟨HS0, HS1, HS2, Hr⟩, Hg⟩, Ho, ⟨%d0, H0⟩, ⟨%d1, H1⟩, ⟨%d2, H2⟩, ⟨%d3, H3⟩⟩
    have hrun := (runC0 V c t h0 h1 (prev0 V c t)).2.2.2.2
    unfold Run0 seven0 wrote0 at hrun
    iapply (hrun Set.univ _)
    iframe H0 H1 H2 HS0 HS1 HS2
    isplitl [H3]; · iexists _; iexact H3
    iintro ⟨H0, H1, H2, ⟨%e3, H3⟩, ⟨%e0, HS0⟩, ⟨%e1, HS1⟩, ⟨%e2, HS2⟩⟩
    iframe Hr Hg Ho H0 H1 H2
    isplitl [HS0 HS1 HS2]
    · isplitl [HS0]; · ihave H' := (Ring.owns_of_writes_tiledL VS0_0 S512x1.size) $$ HS0; iapply H'; ipureintro; sl_kernel_rfl
      isplitl [HS1]; · ihave H' := (Ring.owns_of_writes_tiledL VS0_0 S512x1.size) $$ HS1; iapply H'; ipureintro; sl_kernel_rfl
      ihave H' := (Ring.owns_of_writes_tiledL VS0_0 S512x1.size) $$ HS2; iapply H'; ipureintro; sl_kernel_rfl
    ihave H' := (Ring.owns_of_writes_tiledL VS0_0 S512x1.size) $$ H3; iapply H'; ipureintro; sl_kernel_rfl
  rw [Dat.leavesExact_idle (dat0 V c) 3 t (idleAt0_3 t (fun h => h1 ((hcond0_1 t).mp h))) (noFlush0_3 t (fun h => h1 ((hcond0_1 t).mp h)))]
  by_cases h0 : t.val % 20 = 0
  on_goal 1 =>
    rw [outsAt0_A V c t h0 h1]
    refine (sep_mono_left (Phi0_forget V c _)).trans ?_
    rw [PhiA0_eq]
    have hrun := (runA0 V c t h0 h1).2.2.2.2
  on_goal 2 =>
    rw [outsAt0_B V c t h0 h1, Phi0_pos V c t (fun hz => h0 (by rw [hz]))]
    have hrun := (runB0 V c t h0 h1 (prev0 V c t)).2.2.2.2
  all_goals
    unfold Run0 seven0 wrote0 at hrun
    dsimp only [scr0, outs0, rd0]
    iintro ⟨⟨⟨HS0, HS1, HS2, Hr⟩, Hg⟩, Ho, ⟨%d0, H0⟩, ⟨%d1, H1⟩, ⟨%d2, H2⟩, ⟨%d3, H3⟩⟩
    iapply (hrun ((dat0 V c).before 3 t d3) Set.univ _)
    iframe H0 H1 H2 H3 HS0 HS1 HS2
    iintro ⟨H0, H1, H2, H3, ⟨%e0, HS0⟩, ⟨%e1, HS1⟩, ⟨%e2, HS2⟩⟩
    iframe Hr Hg Ho H0 H1 H2
    isplitr [H3]
    · isplitl [HS0]; · ihave H' := (Ring.owns_of_writes_tiledL VS0_0 S512x1.size) $$ HS0; iapply H'; ipureintro; sl_kernel_rfl
      isplitl [HS1]; · ihave H' := (Ring.owns_of_writes_tiledL VS0_0 S512x1.size) $$ HS1; iapply H'; ipureintro; sl_kernel_rfl
      ihave H' := (Ring.owns_of_writes_tiledL VS0_0 S512x1.size) $$ HS2; iapply H'; ipureintro; sl_kernel_rfl
    iexists _; iexact H3

theorem body_obligation0 : BodyObligation (dat0 (F := F) V c) (defs₀ (F := F)) Variants.none () Set.univ := fun t => by
  rw [bigSep_W0, bigSep_W0]
  exact sound_body0 V c t

theorem hin0 : (Pipeline.ΦA spec0 c : sProp 𝕄) ⊢ (dat0 V c).Φ 0 := by
  rw [show (dat0 V c).Φ 0 = Pipeline.ΦA spec0 c from rfl]
  try exact Entails.refl _

theorem hout0 : (dat0 V c).Φ (Fin.last cfg0.N) ⊢ (Pipeline.ΦA spec0 c : sProp 𝕄) :=
  Phi0_forget V c _

end Cert.KernelIdeal.Fr

end
-- ==== Proof.KI.R1Runs.lean ====
import proofs.«410009_j62173946577734_1_alg».proof.Proof.Gen.KernelIdeal.Launch
import proofs.«410009_j62173946577734_1_alg».proof.Proof.Gen.KernelIdeal.Skeleton
import proofs.«410009_j62173946577734_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

structure Mems1 where
  a2 : Memref sig .tc .vmem S512x1 .i32
  h2 : a2.IsWhole
  a3 : Memref sig .tc .vmem S1x512 .i32
  h3 : a3.IsWhole
  a4 : Memref sig .tc .vmem S512x256 .bf16
  h4 : a4.IsWhole
  a5 : Memref sig .tc .vmem S512x256 .bf16
  h5 : a5.IsWhole
  a6 : Memref sig .tc .vmem S512x1 .f32
  h6 : a6.IsWhole
  a7 : Memref sig .tc .vmem S512x1 .f32
  h7 : a7.IsWhole

structure Ins1 (F : FTy → Type) where
  x0 : Vec F S512x1 .i32
  x1 : Vec F S1x512 .i32
  x2 : Vec F S512x256 .bf16
  x3 : Vec F S512x256 .bf16

abbrev Outs1 (F : FTy → Type) := Vec F S512x1 .f32 × Vec F S512x1 .f32

abbrev mem1 (t : Fin cfg1.N) : Mems1 :=
  ⟨win1_0.stage (cfg1.slots t 0), hstage1_0 ((cfg1.slots t 0).cast nbuf1_0), win1_1.stage (cfg1.slots t 1), hstage1_1 ((cfg1.slots t 1).cast nbuf1_1),
   win1_2.stage (cfg1.slots t 2), hstage1_2 ((cfg1.slots t 2).cast nbuf1_2), win1_3.stage (cfg1.slots t 3), hstage1_3 ((cfg1.slots t 3).cast nbuf1_3),
   win1_4.stage (cfg1.slots t 4), hstage1_4 ((cfg1.slots t 4).cast nbuf1_4), win1_5.stage (cfg1.slots t 5), hstage1_5 ((cfg1.slots t 5).cast nbuf1_5)⟩

def six (c : Dev nD) (m : Mems1) (x : Ins1 F) (P6 P7 : sProp 𝕄) : sProp 𝕄 :=
  iprop(owns (c : Thread nD τ) m.a2 fullShare x.x0 ∗ owns (c : Thread nD τ) m.a3 fullShare x.x1 ∗ owns (c : Thread nD τ) m.a4 fullShare x.x2
    ∗ owns (c : Thread nD τ) m.a5 fullShare x.x3 ∗ P6 ∗ P7)

def wrote (c : Dev nD) (a : Memref sig .tc .vmem S512x1 .f32) (L : List (View.Piece (Elt F) S512x1 .f32)) : sProp 𝕄 :=
  iprop(∃ f, a.view.loc (c : Thread nD τ) ↦[a.view.set]{fullShare} a.view.writes (Elt F) f L)

def Run1 (c : Dev nD) (i : grid1.Coords) (m : Mems1) (x : Ins1 F) (xo : Outs1 F) (L4 L5 : List (View.Piece (Elt F) S512x1 .f32)) : Prop :=
  ∀ (E : Set ℕ) (K : PUnit → sProp 𝕄),
    iprop(six c m x (owns (c : Thread nD τ) m.a6 fullShare xo.1) (owns (c : Thread nD τ) m.a7 fullShare xo.2) ∗ (six c m x (wrote c m.a6 L4) (wrote c m.a7 L5) -∗ K ⟨⟩))
      ⊢ wp frame (wpE (defs₀ (F := F)) Variants.none c none) E (cc1__intra_kernel i m.a2 m.h2 m.a3 m.h3 m.a4 m.h4 m.a5 m.h5 m.a6 m.h6 m.a7 m.h7) K

theorem wrote_owns (c : Dev nD) (a : Memref sig .tc .vmem S512x1 .f32) (L : List (View.Piece (Elt F) S512x1 .f32))
    (h : View.Piece.tiledL L S512x1.size = true) : wrote c a L ⊢ owns (c : Thread nD τ) a fullShare (View.canon L) := by
  unfold wrote owns
  iintro ⟨%f, H⟩; iexists a.view.writes (Elt F) f L; isplitr
  · ipureintro; exact View.read_writes_eq_canon _ _ _ (View.cover_of_tiledL L _ h)
  · iexact H

end Cert.KernelIdeal.Fr

end
-- ==== Proof.KI.R1RunA.lean ====
import proofs.«410009_j62173946577734_1_alg».proof.Proof.KI.R1Runs

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

noncomputable def kernelRun1_A (c : Dev nD) (i : grid1.Coords) (m : Mems1) (hc0 : cond1_0 i) (x : Ins1 F) :
    Σ' L4, { L5 // ∀ xo, Run1 c i m x xo L4 L5 } := by
  refine ⟨?_, ?_, fun xo E K => ?run⟩
  case run =>
    simp only [cc1__intra_kernel_eq_skeleton]; unfold cc1__intra_kernel_skel
    simp only [k1_part1_eq_skeleton]
    unfold six wrote owns
    iintro ⟨⟨⟨%f0, %hf0, H0⟩, ⟨%f1, %hf1, H1⟩, ⟨%f2, %hf2, H2⟩, ⟨%f3, %hf3, H3⟩, ⟨%f4, -, H4⟩, ⟨%f5, -, H5⟩⟩, Hk⟩
    obtain rfl := m.h2.eq_unread hf0; obtain rfl := m.h3.eq_unread hf1; obtain rfl := m.h4.eq_unread hf2; obtain rfl := m.h5.eq_unread hf3
    sl_exec (disch := first | exact hc0)
    sl_step
    iapply Hk
    isplitl [H0]
    · iexists _; isplitr; · ipureintro; exact m.h2.read_unread _
      iexact H0
    isplitl [H1]
    · iexists _; isplitr; · ipureintro; exact m.h3.read_unread _
      iexact H1
    isplitl [H2]
    · iexists _; isplitr; · ipureintro; exact m.h4.read_unread _
      iexact H2
    isplitl [H3]
    · iexists _; isplitr; · ipureintro; exact m.h5.read_unread _
      iexact H3
    isplitl [H4]
    · iexists _; iexact H4
    iexists _; iexact H5

def outA (c : Dev nD) (i : grid1.Coords) (m : Mems1) (hc0 : cond1_0 i) (x : Ins1 F) : Outs1 F :=
  (View.canon (kernelRun1_A c i m hc0 x).1, View.canon (kernelRun1_A c i m hc0 x).2.1)

theorem tiledA (c : Dev nD) (i : grid1.Coords) (m : Mems1) (hc0 : cond1_0 i) (x : Ins1 F) :
    View.Piece.tiledL (kernelRun1_A c i m hc0 x).1 S512x1.size = true ∧ View.Piece.tiledL (kernelRun1_A c i m hc0 x).2.1 S512x1.size = true :=
  ⟨by sl_kernel_rfl, by sl_kernel_rfl⟩

end Cert.KernelIdeal.Fr

end
-- ==== Proof.KI.R1RunB.lean ====
import proofs.«410009_j62173946577734_1_alg».proof.Proof.KI.R1Runs

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

noncomputable def kernelRun1_B (c : Dev nD) (i : grid1.Coords) (m : Mems1) (hc0 : ¬cond1_0 i) (x : Ins1 F) (xo : Outs1 F) :
    Σ' L4, { L5 // Run1 c i m x xo L4 L5 } := by
  refine ⟨?_, ?_, fun E K => ?run⟩
  case run =>
    simp only [cc1__intra_kernel_eq_skeleton]; unfold cc1__intra_kernel_skel
    simp only [k1_part1_eq_skeleton]
    unfold six wrote owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
    obtain rfl := m.h2.eq_unread hf0; obtain rfl := m.h3.eq_unread hf1; obtain rfl := m.h4.eq_unread hf2; obtain rfl := m.h5.eq_unread hf3; obtain rfl := m.h6.eq_unread hf4; obtain rfl := m.h7.eq_unread hf5
    sl_exec (disch := first | exact hc0)
    sl_step
    iapply Hk
    isplitl [H0]
    · iexists _; isplitr; · ipureintro; exact m.h2.read_unread _
      iexact H0
    isplitl [H1]
    · iexists _; isplitr; · ipureintro; exact m.h3.read_unread _
      iexact H1
    isplitl [H2]
    · iexists _; isplitr; · ipureintro; exact m.h4.read_unread _
      iexact H2
    isplitl [H3]
    · iexists _; isplitr; · ipureintro; exact m.h5.read_unread _
      iexact H3
    isplitl [H4]
    · iexists _; iexact H4
    iexists _; iexact H5

def outB (c : Dev nD) (i : grid1.Coords) (m : Mems1) (hc0 : ¬cond1_0 i) (x : Ins1 F) (xo : Outs1 F) : Outs1 F :=
  (View.canon (kernelRun1_B c i m hc0 x xo).1, View.canon (kernelRun1_B c i m hc0 x xo).2.1)

theorem tiledB (c : Dev nD) (i : grid1.Coords) (m : Mems1) (hc0 : ¬cond1_0 i) (x : Ins1 F) (xo : Outs1 F) :
    View.Piece.tiledL (kernelRun1_B c i m hc0 x xo).1 S512x1.size = true ∧ View.Piece.tiledL (kernelRun1_B c i m hc0 x xo).2.1 S512x1.size = true :=
  ⟨by sl_kernel_rfl, by sl_kernel_rfl⟩

end Cert.KernelIdeal.Fr

end
-- ==== Proof.KI.R1Frame.lean ====
import proofs.«410009_j62173946577734_1_alg».proof.Proof.KI.R1RunA
import proofs.«410009_j62173946577734_1_alg».proof.Proof.KI.R1RunB

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b)) (q : Fin cfg1.W → PosShare TreeShare) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ins1 (t : Fin cfg1.N) : Ins1 F := ⟨iblk1 V c 0 t, iblk1 V c 1 t, iblk1 V c 2 t, iblk1 V c 3 t⟩

def outsAt1 : (n : ℕ) → n < cfg1.N → Outs1 F
  | n, hn =>
    if h0 : n % 8 = 0 then outA c (grid1.coords ⟨n, hn⟩) (mem1 ⟨n, hn⟩) ((hcond1_0 ⟨n, hn⟩).mpr h0) (ins1 V c ⟨n, hn⟩)
    else outB c (grid1.coords ⟨n, hn⟩) (mem1 ⟨n, hn⟩) (fun h => h0 ((hcond1_0 ⟨n, hn⟩).mp h)) (ins1 V c ⟨n, hn⟩)
      (outsAt1 (n - 1) (Nat.lt_of_le_of_lt (Nat.sub_le _ _) hn))
termination_by n => n
decreasing_by omega

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2
  Φ _ := Pipeline.ΦA spec1 c
  q := q
  owed _ := 0

theorem A_eq1 (w : Fin cfg1.W) : (dat1 V q c).A w = V c (Pipeline.arrRef spec1 w) := rfl
theorem q_eq1 : (dat1 V q c).q = q := rfl
theorem owed1 (t : Fin (cfg1.N + 1)) : (dat1 V q c).owed t = 0 := rfl

theorem before1_in (t : Fin cfg1.N) :
    (∀ d, (dat1 V q c).before 0 t d = (ins1 V c t).x0) ∧ (∀ d, (dat1 V q c).before 1 t d = (ins1 V c t).x1)
    ∧ (∀ d, (dat1 V q c).before 2 t d = (ins1 V c t).x2) ∧ ∀ d, (dat1 V q c).before 3 t d = (ins1 V c t).x3 := by
  refine ⟨?_, ?_, ?_, ?_⟩ <;>
    exact fun d => ((dat1 V q c).before_in_eq_fetched _ rfl (fun _ => rfl) (fun _ _ _ => rfl) (fun _ => rfl) t d).trans rfl

theorem before1_out (t : Fin cfg1.N) (h0 : ¬t.val % 8 = 0) :
    (∀ d, (dat1 V q c).before 4 t d = (outsAt1 V c (t.val - 1) (Nat.lt_of_le_of_lt (Nat.sub_le _ _) t.isLt)).1)
    ∧ ∀ d, (dat1 V q c).before 5 t d = (outsAt1 V c (t.val - 1) (Nat.lt_of_le_of_lt (Nat.sub_le _ _) t.isLt)).2 := by
  have hN : t.val < 64 := lt_of_lt_of_eq t.isLt N_1
  exact ⟨fun d => Dat.before_out_kept _ 4 rfl t (by omega) (Bool.eq_false_iff.mpr fun h => by have := (flush1_4 _).mp h; dsimp only at this; omega) (fun _ => rfl) (fun _ _ => rfl) d,
    fun d => Dat.before_out_kept _ 5 rfl t (by omega) (Bool.eq_false_iff.mpr fun h => by have := (flush1_5 _).mp h; dsimp only at this; omega) (fun _ => rfl) (fun _ _ => rfl) d⟩

theorem body_of_run (t : Fin cfg1.N) (L4 L5 : List (View.Piece (Elt F) S512x1 .f32))
    (hL : View.Piece.tiledL L4 S512x1.size = true ∧ View.Piece.tiledL L5 S512x1.size = true)
    (h4 : (outsAt1 V c t.val t.isLt).1 = View.canon L4) (h5 : (outsAt1 V c t.val t.isLt).2 = View.canon L5)
    (hrun : ∀ d4 d5, Run1 c (grid1.coords t) (mem1 t) (ins1 V c t) ((dat1 V q c).before 4 t d4, (dat1 V q c).before 5 t d5) L4 L5) :
    iprop((dat1 V q c).Φ t.castSucc ∗ (dat1 V q c).owesAt () t.castSucc
      ∗ (∃ d, owns (c : Thread nD τ) (mem1 t).a2 fullShare ((dat1 V q c).before 0 t d))
      ∗ (∃ d, owns (c : Thread nD τ) (mem1 t).a3 fullShare ((dat1 V q c).before 1 t d))
      ∗ (∃ d, owns (c : Thread nD τ) (mem1 t).a4 fullShare ((dat1 V q c).before 2 t d))
      ∗ (∃ d, owns (c : Thread nD τ) (mem1 t).a5 fullShare ((dat1 V q c).before 3 t d))
      ∗ (∃ d, owns (c : Thread nD τ) (mem1 t).a6 fullShare ((dat1 V q c).before 4 t d))
      ∗ (∃ d, owns (c : Thread nD τ) (mem1 t).a7 fullShare ((dat1 V q c).before 5 t d)))
    ⊢ wp frame (wpE (defs₀ (F := F)) Variants.none c none) Set.univ (bodyAt1 t) fun _ =>
      iprop((dat1 V q c).Φ t.castSucc ∗ (dat1 V q c).owesAt () t.castSucc ∗ six c (mem1 t) (ins1 V c t)
        (owns (c : Thread nD τ) (mem1 t).a6 fullShare (outsAt1 V c t.val t.isLt).1) (owns (c : Thread nD τ) (mem1 t).a7 fullShare (outsAt1 V c t.val t.isLt).2)) := by
  rw [h4, h5]
  iintro ⟨HΦ, Ho, ⟨%d0, H0⟩, ⟨%d1, H1⟩, ⟨%d2, H2⟩, ⟨%d3, H3⟩, ⟨%d4, H4⟩, ⟨%d5, H5⟩⟩
  rw [(before1_in V q c t).1 d0, (before1_in V q c t).2.1 d1, (before1_in V q c t).2.2.1 d2, (before1_in V q c t).2.2.2 d3]
  iapply hrun d4 d5 Set.univ _
  unfold six
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply wrote_owns c _ _ hL.1; iexact H4
  iapply wrote_owns c _ _ hL.2; iexact H5

theorem body_obligation1 : BodyObligation (dat1 (F := F) V q c) (defs₀ (F := F)) Variants.none () Set.univ := fun t => by
  rw [bigSep_W1, bigSep_W1]
  by_cases h0 : t.val % 8 = 0
  · exact body_of_run V q c t _ _ (tiledA c _ _ _ _) (by rw [outsAt1, dif_pos h0]; rfl) (by rw [outsAt1, dif_pos h0]; rfl)
      fun d4 d5 => (kernelRun1_A c _ _ ((hcond1_0 t).mpr h0) _).2.2 _
  · exact body_of_run V q c t _ _ (tiledB c _ _ _ _ _) (by rw [outsAt1, dif_neg h0]; rfl) (by rw [outsAt1, dif_neg h0]; rfl)
      fun d4 d5 => by
        rw [(before1_out V q c t h0).1, (before1_out V q c t h0).2]
        exact (kernelRun1_B c _ _ (fun h => h0 ((hcond1_0 t).mp h)) _ _).2.2

theorem hin1 : (Pipeline.ΦA spec1 c : sProp 𝕄) ⊢ (dat1 V q c).Φ 0 := BI.Entails.refl _
theorem hout1 : (dat1 V q c).Φ (Fin.last cfg1.N) ⊢ (Pipeline.ΦA spec1 c : sProp 𝕄) := BI.Entails.refl _
theorem recorded1 (t : Fin (cfg1.N + 1)) : (dat1 V q c).recorded t = Set.univ := rfl

end

end Cert.KernelIdeal.Fr

end
-- ==== Proof.KI.R1Arrays.lean ====
import proofs.«410009_j62173946577734_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

def q1 : Fin cfg1.W → PosShare TreeShare :=
  fun w : Fin 6 => if w = 2 then fullShare.left else if w = 3 then fullShare.right else fullShare

theorem arrImage1 : Finset.univ.image (Pipeline.arrRef spec1) = [main_v13, main_v14, main_v6, main_v15_0, main_v15_1].toFinset := by decide

section
variable {c : Dev nD} (dat : Dat τ (Elt F) Unit ℕ (UR sig nD τ) ℕ cfg1 c) (hq : dat.q = q1)
  (Vc : (b : Ref sig .tc) → Buf (Elt F) ((c : Thread nD τ).loc b))
  (G : (w : Fin cfg1.W) → Buf (Elt F) ((cfg1.win w).arr.view.loc (c : Thread nD τ))) (hG : ∀ w, G w = Vc (Pipeline.arrRef spec1 w))
include hq hG

theorem arrays1_eq : dat.arrays G = (Pipeline.arrBufs spec1 c Vc : sProp 𝕄) := by
  obtain rfl : G = fun w => Vc (Pipeline.arrRef spec1 w) := funext hG
  have h6 : ((c : Thread nD τ).loc main_v6 ↦{fullShare} Vc main_v6 : sProp 𝕄)
      = BI.sep ((c : Thread nD τ).loc main_v6 ↦{fullShare.left} Vc main_v6) ((c : Thread nD τ).loc main_v6 ↦{fullShare.right} Vc main_v6) :=
    BI.Entails.antisymm (pointsTo_share (PosShare.mem_left_op_right fullShare)).1 (pointsTo_share (PosShare.mem_left_op_right fullShare)).2
  have hassoc : ∀ P Q R : sProp 𝕄, BI.sep (BI.sep P Q) R = BI.sep P (BI.sep Q R) :=
    fun P Q R => BI.Entails.antisymm Idealize.SL.BI.sep_assoc Idealize.SL.BI.sep_assoc'
  have h1 : dat.arrays (fun w => Vc (Pipeline.arrRef spec1 w))
      = bigSep Finset.univ fun w : Fin 6 => ((c : Thread nD τ).loc (Pipeline.arrRef spec1 w) ↦{if (cfg1.win w).isOut then fullShare else q1 w} Vc (Pipeline.arrRef spec1 w) : sProp 𝕄) := by
    unfold Dat.arrays Dat.share
    exact bigSep_congr fun w _ => by rw [(arr_whole1 w).set_eq_univ, hq]
  rw [h1, bigSep_W1]
  unfold Pipeline.arrBufs
  rw [bigSep_eq_bigSepL_of_eq _ arrImage1 (by decide)]
  simp only [bigSepL_cons_cons, bigSepL_singleton]
  rw [h6, hassoc]
  rfl

theorem arrays1_intro : (Pipeline.arrBufs spec1 c Vc : sProp 𝕄) ⊢ dat.arrays G :=
  Entails.of_eq (arrays1_eq dat hq Vc G hG).symm

theorem arrays1_elim : dat.arrays G ⊢ (Pipeline.arrBufs spec1 c Vc : sProp 𝕄) :=
  Entails.of_eq (arrays1_eq dat hq Vc G hG)

end

end Cert.KernelIdeal.Fr

end
-- ==== Proof.KI.Segs.lean ====
import proofs.«410009_j62173946577734_1_alg».proof.Proof.Gen.KernelIdeal.Regions
import proofs.«410009_j62173946577734_1_alg».proof.Proof.KI.R0Frame
import proofs.«410009_j62173946577734_1_alg».proof.Proof.KI.R1Frame
import proofs.«410009_j62173946577734_1_alg».proof.Proof.KI.R1Arrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

abbrev ent0 : (c : Dev nD) → (b : Ref sig .tc) → Buf (Elt F) ((c : Thread nD τ).loc b) := fun c b => Gen.V6 m c b

def W7 (c : Dev nD) : Valuation τ sig (Elt F) :=
  Pipeline.withArrays spec0 c (Gen.V6 m c) fun w => (dat0 (ent0 m) c).arrAt w cfg0.N

def outsA : Gen.Outs (F := F) := fun _ r c => W7 m c r

abbrev ent1A : (c : Dev nD) → (b : Ref sig .tc) → Buf (Elt F) ((c : Thread nD τ).loc b) := fun c b => Gen.V8 m (outsA m) c b

def W9 (c : Dev nD) : Valuation τ sig (Elt F) :=
  Pipeline.withArrays spec1 c (Gen.V8 m (outsA m) c) fun w => (dat1 (ent1A m) q1 c).arrAt w cfg1.N

def outsK : Gen.Outs (F := F) := fun J r c =>
  match J with
  | 9 => W9 m c r
  | _ => W7 m c r

abbrev ent1 : (c : Dev nD) → (b : Ref sig .tc) → Buf (Elt F) ((c : Thread nD τ).loc b) := fun c b => Gen.V8 m (outsK m) c b

theorem withArrays_arr_of_unique {gr : Nat} {W : Nat} (win : Fin W → Pipeline.WinSpec sig gr) (c : Dev nD)
    (V : Valuation τ sig (Elt F)) (A : (w : Fin W) → Buf (Elt F) ((win w).arr.view.loc (c.tc : Thread nD τ))) (w : Fin W)
    (hu : ∀ w', Pipeline.arrRef win w' = Pipeline.arrRef win w → w' = w) :
    Pipeline.withArrays win c V A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  suffices ∀ (w' : Fin W) (e : Proc.devRef .tc (Pipeline.arrRef win w') = Proc.devRef (τ := τ) .tc (Pipeline.arrRef win w)),
      cast (congrArg (fun b' : DevRef τ sig => b'.ty.Contents (Elt F)) e) (A w') = A w from this _ h.choose_spec
  intro w' e
  obtain rfl : w' = w := hu w' (Proc.devRef_injective _ e)
  rfl

theorem W7_arr (c : Dev nD) (w : Fin cfg0.W) :
    W7 m c (Proc.devRef .tc (Pipeline.arrRef spec0 w)) = (dat0 (ent0 m) c).arrAt w cfg0.N := by
  unfold W7; exact Pipeline.withArrays_arr spec0 launch0.win.arr_inj c _ _ w

theorem W9_arr (c : Dev nD) (w : Fin cfg1.W) (hu : ∀ w', Pipeline.arrRef spec1 w' = Pipeline.arrRef spec1 w → w' = w) :
    W9 m c (Proc.devRef .tc (Pipeline.arrRef spec1 w)) = (dat1 (ent1A m) q1 c).arrAt w cfg1.N := by
  unfold W9; exact withArrays_arr_of_unique spec1 c _ _ w hu

theorem V7_v10 (c : Dev nD) : Gen.V7 m (outsK m) c main_v10 = (dat0 (ent0 m) c).arrAt 3 cfg0.N := by
  unfold Gen.V7
  rw [Function.update_self]
  exact W7_arr m c 3

theorem V9_v15_0 (c : Dev nD) : Gen.V9 m (outsK m) c main_v15_0 = (dat1 (ent1 m) q1 c).arrAt 4 cfg1.N := by
  unfold Gen.V9
  rw [Function.update_of_ne (StableHlo.devRef_ne_of_ne (by decide)), Function.update_self]
  exact W9_arr m c 4 (by decide)

theorem V9_v15_1 (c : Dev nD) : Gen.V9 m (outsK m) c main_v15_1 = (dat1 (ent1 m) q1 c).arrAt 5 cfg1.N := by
  unfold Gen.V9
  rw [Function.update_self]
  exact W9_arr m c 5 (by decide)

def pdats : (p : Fin 2) → (c : Dev nD) → Dat τ (Elt F) Unit ℕ (UR sig nD τ) ℕ (cfgs p) c
  | ⟨0, _⟩ => fun c => dat0 (ent0 m) c
  | ⟨1, _⟩ => fun c => dat1 (ent1 m) q1 c

abbrev L : GSem nD τ sig → Finset Unit := fun _ => ∅
abbrev lv : GSem nD τ sig → Unit → ℕ := fun _ _ => 0

abbrev Rng (c : Dev nD) : sProp 𝕄 := iprop(∃ r, prngReg c r)
abbrev Owes (c : Dev nD) : sProp 𝕄 := iprop(∃ W, owes (c : Thread nD τ) (0 : CellTallies nD τ sig Unit) W)
abbrev R (c : Dev nD) : sProp 𝕄 := iprop(Rng c ∗ Owes c)

abbrev ex0 : (c : Dev nD) → (b : Ref sig .tc) → Buf (Elt F) ((c : Thread nD τ).loc b) := fun c b => Gen.V7 m (outsK m) c b

theorem hF0 (c : Dev nD) : ∀ w : Fin 4, (dat0 (ent0 m) c).arrAt w cfg0.N = ex0 m c (Pipeline.arrRef spec0 w)
  | 0 | 1 | 2 => (((dat0 (ent0 m) c).arrAt_in _ rfl _).trans (A_eq0 (ent0 m) c _)).trans (Gen.V7_of m (outsK m) c _ (by decide)).symm
  | 3 => (V7_v10 m c).symm
  | ⟨_ + 4, h⟩ => absurd h (Nat.not_lt.2 (Nat.le_add_left _ _))

theorem hrest0 (c : Dev nD) : ∀ b, b ∉ Finset.univ.image (Pipeline.arrRef spec0) → ex0 m c b = ent0 m c b :=
  fun b hb => Gen.V7_of m (outsK m) c b fun h => by
    rw [List.mem_singleton] at h; subst h
    exact hb (Finset.mem_image.mpr ⟨3, Finset.mem_univ _, rfl⟩)

abbrev ex1 : (c : Dev nD) → (b : Ref sig .tc) → Buf (Elt F) ((c : Thread nD τ).loc b) := fun c b => Gen.V9 m (outsK m) c b

theorem hF1 (c : Dev nD) : ∀ w : Fin 6, (dat1 (ent1 m) q1 c).arrAt w cfg1.N = ex1 m c (Pipeline.arrRef spec1 w)
  | 0 | 1 | 2 | 3 => (((dat1 (ent1 m) q1 c).arrAt_in _ rfl _).trans (A_eq1 (ent1 m) q1 c _)).trans (Gen.V9_of m (outsK m) c _ (by decide)).symm
  | 4 => (V9_v15_0 m c).symm
  | 5 => (V9_v15_1 m c).symm
  | ⟨_ + 6, h⟩ => absurd h (Nat.not_lt.2 (Nat.le_add_left _ _))

theorem hrest1 (c : Dev nD) : ∀ b, b ∉ Finset.univ.image (Pipeline.arrRef spec1) → ex1 m c b = ent1 m c b :=
  fun b hb => Gen.V9_of m (outsK m) c b fun h => by
    rcases List.mem_cons.mp h with h | h
    · subst h; exact hb (Finset.mem_image.mpr ⟨4, Finset.mem_univ _, rfl⟩)
    · rw [List.mem_singleton] at h; subst h
      exact hb (Finset.mem_image.mpr ⟨5, Finset.mem_univ _, rfl⟩)

theorem entry_of {H A Z PH OS LA : sProp 𝕄} {Λ₀ : Labels} {cfg : Cfg sig Λ₀} {c : Dev nD} (D : Dat τ (Elt F) Unit ℕ (UR sig nD τ) ℕ cfg c)
    (h0 : D.owed 0 = 0) (hr : D.recorded 0 = Set.univ) (hs : H ⊢ iprop(A ∗ Z))
    (hp : (BI.emp : sProp 𝕄) ⊢ PH := by unfold Pipeline.prefHeld; rw [show (Finset.univ : Finset (Fin 0)) = ∅ from rfl, BI.bigSep_empty]) :
    iprop(iprop(H ∗ R c) ∗ OS ∗ LA) ⊢ |={Set.univ}=> iprop(A ∗ PH ∗ D.owesAt () 0 ∗ Rng c ∗ Z) := by
  iintro ⟨⟨Hub, Hp, HO⟩, -, -⟩
  ihave H := hs $$ Hub
  icases H with ⟨Ha, Hrest⟩
  imodintro
  isplitl [Ha]; · iexact Ha
  isplitr; · iapply hp; iempintro
  isplitl [HO]
  · unfold Pipeline.Dat.owesAt Pipeline.owesWithin
    rw [h0]
    icases HO with ⟨%W, HO⟩; iexists W; isplitr
    · ipureintro; exact fun x _ => Or.inl (hr ▸ Set.mem_univ x)
    iexact HO
  isplitl [Hp]; · iexact Hp
  iexact Hrest

theorem exit_of {A Z H : sProp 𝕄} {Λ₀ : Labels} {cfg : Cfg sig Λ₀} {c : Dev nD} (D : Dat τ (Elt F) Unit ℕ (UR sig nD τ) ℕ cfg c)
    (h0 : D.owed (Fin.last _) = 0) (hj : iprop(A ∗ Z) ⊢ H) :
    iprop(A ∗ D.owesAt () (Fin.last _) ∗ Rng c ∗ Z) ⊢ |={Set.univ}=> iprop(H ∗ R c) := by
  iintro ⟨Ha, HO, HY, Hrest⟩
  imodintro
  isplitl [Ha Hrest]
  · iapply hj; isplitl [Ha] <;> iassumption
  isplitl [HY]; · iexact HY
  unfold Pipeline.Dat.owesAt Pipeline.owesWithin
  rw [h0]
  icases HO with ⟨%W, -, HO⟩; iexists W; iexact HO

theorem hin_of {X PH S Φ : sProp 𝕄} (h : iprop(S ∗ X) ⊢ Φ) : iprop(X ∗ PH ∗ S) ⊢ Φ := by
  refine BIBase.Entails.trans ?_ h
  iintro ⟨Hp, -, Hr⟩
  isplitl [Hr]; · iexact Hr
  iexact Hp

theorem hout_of {Φ S Y : sProp 𝕄} (h : Φ ⊢ iprop(S ∗ Y)) : Φ ⊢ iprop(Y ∗ BI.emp ∗ S) := by
  refine h.trans ?_
  iintro ⟨Hr, Hp⟩
  isplitl [Hp]; · iexact Hp
  isplitr; · iempintro
  iexact Hr

set_option backward.isDefEq.respectTransparency.types false in

def reg0 : Pipeline.RegionSeg (pcfgs (F := F)) Gen.adm (pdats m) () defs₀ Variants.none L lv 0 where
  win := launch0.win.to₀
  block_pos := block_pos0
  stage_whole := stage_whole0
  K := PEmpty
  osem k := k.elim
  ho := Pipeline.OwnSemFacts.none _
  hbody c := (body_obligation0 (ent0 m) c).loose
  hwaits := Pipeline.hwaits_of_owed_zero _ _ _ _ L lv 0 fun c t => owed0 (ent0 m) c t
  pre c := iprop(StableHlo.held (c : Thread nD τ) (Pipeline.ucRefs τ sig) (Gen.V6 m c) ∗ R c)
  post c := iprop(StableHlo.held (c : Thread nD τ) (Pipeline.ucRefs τ sig) (Gen.V7 m (outsK m) c) ∗ R c)
  X := Rng
  Y := Rng
  Z c := Pipeline.unscopedRest (Ix := Unit) (Name := ℕ) (U := UR sig nD τ) (Lvl := ℕ) spec0 c (ent0 m c)
  hentry c := by
    have hsplit := Pipeline.arrays_of_unscopedBufs (p := 0) (pcfgs (F := F)) Gen.adm (pdats m) launch0.win launch0.arr_whole c
      (fun w => share0 (ent0 m) c w) (ent0 m c) fun w => A_eq0 (ent0 m) c w
    rw [Pipeline.unscopedBufs_held] at hsplit
    exact entry_of (pdats m 0 c) (owed0 (ent0 m) c 0) (recorded0 (ent0 m) c 0) hsplit
  hin c := hin_of (hin0 (ent0 m) c)
  hout c := by rw [Pipeline.ownSems0_none]; exact hout_of (hout0 (ent0 m) c)
  hexit c := by
    have hjoin := Pipeline.unscopedBufs_of_arrays (p := 0) (pcfgs (F := F)) Gen.adm (Ix := Unit) (Name := ℕ) (U := UR sig nD τ) (Lvl := ℕ)
      launch0.win launch0.arr_whole c (pdats m) (fun w => share0 (ent0 m) c w)
      (ent0 m c) (ex0 m c) ((pdats m 0 c).arrAt · cfg0.N) (hF0 m c) (hrest0 m c)
    rw [Pipeline.unscopedBufs_held] at hjoin
    exact exit_of (pdats m 0 c) (owed0 (ent0 m) c _) hjoin

theorem entry1 (c : Dev nD) :
    (StableHlo.held (c : Thread nD τ) (Pipeline.ucRefs τ sig) (Gen.V8 m (outsK m) c) : sProp 𝕄)
      ⊢ iprop((dat1 (ent1 m) q1 c).arrays ((dat1 (ent1 m) q1 c).arrAt · 0)
          ∗ Pipeline.unscopedRest (Ix := Unit) (Name := ℕ) (U := UR sig nD τ) (Lvl := ℕ) spec1 c (ent1 m c)) := by
  rw [← Pipeline.unscopedBufs_held (Ix := Unit) (Name := ℕ) (U := UR sig nD τ) (Lvl := ℕ) c (Gen.V8 m (outsK m) c)]
  refine BI.Entails.trans (Entails.of_eq (Pipeline.unscopedBufs_split₀ (Ix := Unit) (Name := ℕ) (U := UR sig nD τ) (Lvl := ℕ) cfgs 1 winFacts₀1.arr_unscoped c (ent1 m c))) ?_
  exact sep_mono (arrays1_intro (dat1 (ent1 m) q1 c) (q_eq1 (ent1 m) q1 c) (ent1 m c) _ fun w => A_eq1 (ent1 m) q1 c w) .rfl

theorem exit1 (c : Dev nD) :
    iprop((dat1 (ent1 m) q1 c).arrays ((dat1 (ent1 m) q1 c).arrAt · cfg1.N)
        ∗ Pipeline.unscopedRest (Ix := Unit) (Name := ℕ) (U := UR sig nD τ) (Lvl := ℕ) spec1 c (ent1 m c))
      ⊢ (StableHlo.held (c : Thread nD τ) (Pipeline.ucRefs τ sig) (Gen.V9 m (outsK m) c) : sProp 𝕄) := by
  rw [← Pipeline.unscopedBufs_held (Ix := Unit) (Name := ℕ) (U := UR sig nD τ) (Lvl := ℕ) c (Gen.V9 m (outsK m) c)]
  refine BI.Entails.trans ?_ (Entails.of_eq (Pipeline.unscopedBufs_split₀ (Ix := Unit) (Name := ℕ) (U := UR sig nD τ) (Lvl := ℕ) cfgs 1 winFacts₀1.arr_unscoped c (ex1 m c)).symm)
  refine sep_mono (arrays1_elim (dat1 (ent1 m) q1 c) (q_eq1 (ent1 m) q1 c) (ex1 m c) _ (hF1 m c)) (Entails.of_eq ?_)
  unfold Pipeline.unscopedRest
  exact bigSep_congr fun b hb => by rw [hrest1 m c b (Finset.mem_sdiff.mp hb).2]

set_option backward.isDefEq.respectTransparency.types false in

def reg1 : Pipeline.RegionSeg (pcfgs (F := F)) Gen.adm (pdats m) () defs₀ Variants.none L lv 1 where
  win := winFacts₀1
  block_pos := block_pos1
  stage_whole := stage_whole1
  K := PEmpty
  osem k := k.elim
  ho := Pipeline.OwnSemFacts.none _
  hbody c := (body_obligation1 (ent1 m) q1 c).loose
  hwaits := Pipeline.hwaits_of_owed_zero _ _ _ _ L lv 1 fun c t => owed1 (ent1 m) q1 c t
  pre c := iprop(StableHlo.held (c : Thread nD τ) (Pipeline.ucRefs τ sig) (Gen.V8 m (outsK m) c) ∗ R c)
  post c := iprop(StableHlo.held (c : Thread nD τ) (Pipeline.ucRefs τ sig) (Gen.V9 m (outsK m) c) ∗ R c)
  X := Rng
  Y := Rng
  Z c := Pipeline.unscopedRest (Ix := Unit) (Name := ℕ) (U := UR sig nD τ) (Lvl := ℕ) spec1 c (ent1 m c)
  hentry c := entry_of (pdats m 1 c) (owed1 (ent1 m) q1 c 0) (recorded1 (ent1 m) q1 c 0) (entry1 m c)
  hin c := hin_of (hin1 (ent1 m) q1 c)
  hout c := by rw [Pipeline.ownSems0_none]; exact hout_of (hout1 (ent1 m) q1 c)
  hexit c := exit_of (pdats m 1 c) (owed1 (ent1 m) q1 c _) (exit1 m c)

abbrev Erest : Fin 3 → Dev nD → sProp 𝕄 := fun _ c => R c

abbrev init0 := initOf (Pipeline.cells cfgs cellOf_inj) (Pipeline.launchToks cfgs cellOf_inj)

theorem hu₀ : (ownU init0 : sProp 𝕄)
    ⊢ |={Set.univ}=> iprop(BI.own (emb₁ init0)
        ∗ bigSep Finset.univ fun _ : Dev nD => (BI.emp : sProp 𝕄)) := by
  iintro Hu; imodintro
  isplitl [Hu]
  · iapply (show (ownU init0 : sProp 𝕄)
        ⊢ BI.own (emb₁ init0) from .rfl)
    iexact Hu
  iapply (show (BI.emp : sProp 𝕄) ⊢ bigSep Finset.univ (fun _ : Dev nD => (BI.emp : sProp 𝕄)) from by rw [BI.bigSep_emp_const])
  iempintro

theorem hE2 (c : Dev nD) : Erest (F := F) 2 c ⊢ Owes c := by
  iintro ⟨-, HO⟩; iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run_vals (ρ : Dev nD → PrngReg) : θ_run defs (onTc (τ := τ) (main (F := F))) ⟨m, fun _ => 0, ρ⟩ (fun r => ∀ c : Dev nD,
      r.2.mem ((c.tc : Thread nD τ).loc main_v43) = Gen.V18 m (outsK m) c main_v43
      ∧ r.2.mem ((c.tc : Thread nD τ).loc main_v12) = Gen.V18 m (outsK m) c main_v12
      ∧ r.2.mem ((c.tc : Thread nD τ).loc main_v41) = Gen.V18 m (outsK m) c main_v41
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) Gen.adm (pdats m) () cellOf_inj emb₁ defs₀ Variants.none L lv m ρ main
    (Gen.segs m (outsK m) Variants.none L lv Erest () (pdats m) (reg0 m) (reg1 m))
    (fun c Q => by
      rewrite [main_chain c, Pipeline.Seg.run_eq_chain]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => (BI.emp : sProp 𝕄))
    init0 hu₀
    (T₀ := fun c => iprop(StableHlo.held (c : Thread nD τ) (Pipeline.ucRefs τ sig) (Gen.V0 m c) ∗ Erest 0 c))
    (Tₙ := fun c => StableHlo.held (c : Thread nD τ) (Pipeline.ucRefs τ sig) (Gen.V18 m (outsK m) c))
    (hch := fun c => ⟨.rfl, .rfl, .rfl, .rfl, .rfl, .rfl, .rfl, .rfl, .rfl, .rfl, .rfl, .rfl, .rfl, .rfl, .rfl, .rfl, .rfl, .rfl, sep_mono .rfl (hE2 c)⟩)
    (hinit := ?_)
    (QY := fun c s => s.mem ((c.tc : Thread nD τ).loc main_v43) = Gen.V18 m (outsK m) c main_v43
      ∧ s.mem ((c.tc : Thread nD τ).loc main_v12) = Gen.V18 m (outsK m) c main_v12
      ∧ s.mem ((c.tc : Thread nD τ).loc main_v41) = Gen.V18 m (outsK m) c main_v41
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  ·

    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (Gen.V18 m (outsK m) c) s') $$ [Hh HSI]
    · isplitl [Hh] <;> iassumption
    icases Hr with ⟨%h, HSI⟩
    imodintro
    isplitr
    · ipureintro
      exact ⟨h (Proc.devRef .tc main_v43) (mem_uc main_v43 (by decide)),
        h (Proc.devRef .tc main_v12) (mem_uc main_v12 (by decide)),
        h (Proc.devRef .tc main_v41) (mem_uc main_v41 (by decide)),
        (h (Proc.devRef .tc main_arg0) (mem_uc main_arg0 (by decide))).trans (Gen.V18_main_arg0 m (outsK m) c),
        (h (Proc.devRef .tc main_arg1) (mem_uc main_arg1 (by decide))).trans (Gen.V18_main_arg1 m (outsK m) c),
        (h (Proc.devRef .tc main_arg2) (mem_uc main_arg2 (by decide))).trans (Gen.V18_main_arg2 m (outsK m) c)⟩
    · iexact HSI

end Cert.KernelIdeal.Fr

end
-- ==== Proof.RefRead.lean ====
import proofs.«410009_j62173946577734_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F] (x0 : (⟨S4096x256, .f32⟩ : BufTy).Contents (Elt F)) (x1 : (⟨S4096, .i32⟩ : BufTy).Contents (Elt F)) (x2 : (⟨S20000x256, .f32⟩ : BufTy).Contents (Elt F))

-- At exact values a float sum along one axis is the initial value plus the sum of the operand over that axis.
theorem reduceAdd_row_apply {s t u : Shape} {a : Fin s.rank} (h' : s.ReducesTo [a] t) (h : s.Reduces [a] t) (hu : 0 < u.numel)
    (y : FVec Ideal s .f32) (c : u.Idx → Ideal .f32) (i : t.Idx) (idx : Fin (s.size a) → s.Idx)
    (hidx : ∀ k, h.lift i k = idx k) :
    Host.reduceAdd y c h' hu i = c (Shape.Idx.first hu) + ∑ k, y (idx k) := by
  simp only [Host.reduceAdd, Ideal.hostReduceAdd_def]
  rw [Ideal.hostReduceAdd_single h' h]
  exact congrArg (_ + ·) (Finset.sum_congr rfl fun k _ => congrArg y (hidx k))

-- At exact values a product contracting one axis of each operand is the sum over that axis of the elements' products.
theorem dot_apply {sl sr so : Shape} (D : DotDims sl sr so) (n : Nat) (hr : D.contr.rank = 1) (hs : D.contr.size ⟨0, by omega⟩ = n)
    (y0 : FVec Ideal sl .f32) (y1 : FVec Ideal sr .f32) (i : so.Idx) (l : Fin n → sl.Idx) (r : Fin n → sr.Idx)
    (hl : ∀ k, D.lhsIdx i ((ValueIdx.contrEquiv1 D n hr hs).symm k) = l k)
    (hr' : ∀ k, D.rhsIdx i ((ValueIdx.contrEquiv1 D n hr hs).symm k) = r k) :
    Host.dotGeneral D none y0 y1 i = ∑ k, y0 (l k) * y1 (r k) := by
  simp only [Host.dotGeneral]
  rw [Ideal.dotGeneral_apply, ← Equiv.sum_comp (ValueIdx.contrEquiv1 D n hr hs).symm]
  exact Finset.sum_congr rfl fun k _ => by rw [hl, hr']

def val_main_call0_v0 : (⟨S4096x256, .f32⟩ : BufTy).Contents (Elt F) :=
  mulf (x0) (x0)

theorem val_main_call0_v0_apply (i : S4096x256.Idx) :
    val_main_call0_v0 (F := F) x0 i = FloatOps.mulf (x0 i) (x0 i) := rfl

def val_main_call0_cst : (⟨S_, .f32⟩ : BufTy).Contents (Elt F) :=
  constant S_ .f32 0x00000000#32

theorem val_main_call0_cst_apply (i : S_.Idx) :
    val_main_call0_cst (F := F) i = FloatOps.ofBits .f32 0x00000000#32 := rfl

def val_main_call0_v1 : (⟨S4096, .f32⟩ : BufTy).Contents (Elt F) :=
  Host.reduceAdd (val_main_call0_v0 (F := F) x0) (val_main_call0_cst (F := F)) reducesTo_S4096x256_S4096_d1 h_S_

abbrev idx_main_call0_v1 (i : S4096.Idx) (k : Fin 256) : S4096x256.Idx := fun a => match a with
  | ⟨0, _⟩ => ⟨(i 0).val, (i 0).isLt⟩
  | ⟨1, _⟩ => ⟨k.val, k.isLt⟩

theorem val_main_call0_v1_apply (x0 : (⟨S4096x256, .f32⟩ : BufTy).Contents (Elt Ideal)) (i : S4096.Idx) :
    val_main_call0_v1 (F := Ideal) x0 i = (val_main_call0_cst (F := Ideal)) (Shape.Idx.first h_S_) + ∑ k : Fin 256, (val_main_call0_v0 (F := Ideal) x0) (idx_main_call0_v1 i k) :=
  reduceAdd_row_apply _ (by decide) _ _ _ i _ fun k => funext fun a => Fin.ext (by match a with | ⟨0, _⟩ => rfl | ⟨1, _⟩ => rfl)

def val_main_call0_v2 : (⟨S4096x1, .f32⟩ : BufTy).Contents (Elt F) :=
  broadcastInDim S4096x1 ![0] bcast_S4096_S4096x1_0 (val_main_call0_v1 (F := F) x0)

abbrev idx_main_call0_v2 (i : S4096x1.Idx) : S4096.Idx := fun a => match a with
  | ⟨0, _⟩ => ⟨(i 0).val, (i 0).isLt⟩

theorem val_main_call0_v2_apply (i : S4096x1.Idx) :
    val_main_call0_v2 (F := F) x0 i = val_main_call0_v1 (F := F) x0 (idx_main_call0_v2 i) :=
  broadcastInDim_apply _ _ _ i _ fun a => match a with | ⟨0, _⟩ => rfl

def val_main_v0 : (⟨S4096x1, .f32⟩ : BufTy).Contents (Elt F) :=
  Host.sqrt (val_main_call0_v2 (F := F) x0)

theorem val_main_v0_apply (i : S4096x1.Idx) :
    val_main_v0 (F := F) x0 i = FloatOps.hostUnary .sqrt (val_main_call0_v2 (F := F) x0 i) := rfl

def val_main_v1 : (⟨S4096x256, .f32⟩ : BufTy).Contents (Elt F) :=
  broadcastInDim S4096x256 ![0, 1] bcast_S4096x1_S4096x256_0_1 (val_main_v0 (F := F) x0)

abbrev idx_main_v1 (i : S4096x256.Idx) : S4096x1.Idx := fun a => match a with
  | ⟨0, _⟩ => ⟨(i 0).val, (i 0).isLt⟩
  | ⟨1, _⟩ => ⟨0, Nat.one_pos⟩

theorem val_main_v1_apply (i : S4096x256.Idx) :
    val_main_v1 (F := F) x0 i = val_main_v0 (F := F) x0 (idx_main_v1 i) :=
  broadcastInDim_apply _ _ _ i _ fun a => match a with | ⟨0, _⟩ => rfl | ⟨1, _⟩ => rfl

def val_main_v2 : (⟨S4096x256, .f32⟩ : BufTy).Contents (Elt F) :=
  Host.divf (x0) (val_main_v1 (F := F) x0)

theorem val_main_v2_apply (i : S4096x256.Idx) :
    val_main_v2 (F := F) x0 i = FloatOps.hostDivf (x0 i) (val_main_v1 (F := F) x0 i) := rfl

def val_main_call1_v0 : (⟨S20000x256, .f32⟩ : BufTy).Contents (Elt F) :=
  mulf (x2) (x2)

theorem val_main_call1_v0_apply (i : S20000x256.Idx) :
    val_main_call1_v0 (F := F) x2 i = FloatOps.mulf (x2 i) (x2 i) := rfl

def val_main_call1_cst : (⟨S_, .f32⟩ : BufTy).Contents (Elt F) :=
  constant S_ .f32 0x00000000#32

theorem val_main_call1_cst_apply (i : S_.Idx) :
    val_main_call1_cst (F := F) i = FloatOps.ofBits .f32 0x00000000#32 := rfl

def val_main_call1_v1 : (⟨S20000, .f32⟩ : BufTy).Contents (Elt F) :=
  Host.reduceAdd (val_main_call1_v0 (F := F) x2) (val_main_call1_cst (F := F)) reducesTo_S20000x256_S20000_d1 h_S_

abbrev idx_main_call1_v1 (i : S20000.Idx) (k : Fin 256) : S20000x256.Idx := fun a => match a with
  | ⟨0, _⟩ => ⟨(i 0).val, (i 0).isLt⟩
  | ⟨1, _⟩ => ⟨k.val, k.isLt⟩

theorem val_main_call1_v1_apply (x2 : (⟨S20000x256, .f32⟩ : BufTy).Contents (Elt Ideal)) (i : S20000.Idx) :
    val_main_call1_v1 (F := Ideal) x2 i = (val_main_call1_cst (F := Ideal)) (Shape.Idx.first h_S_) + ∑ k : Fin 256, (val_main_call1_v0 (F := Ideal) x2) (idx_main_call1_v1 i k) :=
  reduceAdd_row_apply _ (by decide) _ _ _ i _ fun k => funext fun a => Fin.ext (by match a with | ⟨0, _⟩ => rfl | ⟨1, _⟩ => rfl)

def val_main_call1_v2 : (⟨S20000x1, .f32⟩ : BufTy).Contents (Elt F) :=
  broadcastInDim S20000x1 ![0] bcast_S20000_S20000x1_0 (val_main_call1_v1 (F := F) x2)

abbrev idx_main_call1_v2 (i : S20000x1.Idx) : S20000.Idx := fun a => match a with
  | ⟨0, _⟩ => ⟨(i 0).val, (i 0).isLt⟩

theorem val_main_call1_v2_apply (i : S20000x1.Idx) :
    val_main_call1_v2 (F := F) x2 i = val_main_call1_v1 (F := F) x2 (idx_main_call1_v2 i) :=
  broadcastInDim_apply _ _ _ i _ fun a => match a with | ⟨0, _⟩ => rfl

def val_main_v3 : (⟨S20000x1, .f32⟩ : BufTy).Contents (Elt F) :=
  Host.sqrt (val_main_call1_v2 (F := F) x2)

theorem val_main_v3_apply (i : S20000x1.Idx) :
    val_main_v3 (F := F) x2 i = FloatOps.hostUnary .sqrt (val_main_call1_v2 (F := F) x2 i) := rfl

def val_main_v4 : (⟨S20000x256, .f32⟩ : BufTy).Contents (Elt F) :=
  broadcastInDim S20000x256 ![0, 1] bcast_S20000x1_S20000x256_0_1 (val_main_v3 (F := F) x2)

abbrev idx_main_v4 (i : S20000x256.Idx) : S20000x1.Idx := fun a => match a with
  | ⟨0, _⟩ => ⟨(i 0).val, (i 0).isLt⟩
  | ⟨1, _⟩ => ⟨0, Nat.one_pos⟩

theorem val_main_v4_apply (i : S20000x256.Idx) :
    val_main_v4 (F := F) x2 i = val_main_v3 (F := F) x2 (idx_main_v4 i) :=
  broadcastInDim_apply _ _ _ i _ fun a => match a with | ⟨0, _⟩ => rfl | ⟨1, _⟩ => rfl

def val_main_v5 : (⟨S20000x256, .f32⟩ : BufTy).Contents (Elt F) :=
  Host.divf (x2) (val_main_v4 (F := F) x2)

theorem val_main_v5_apply (i : S20000x256.Idx) :
    val_main_v5 (F := F) x2 i = FloatOps.hostDivf (x2 i) (val_main_v4 (F := F) x2 i) := rfl

def val_main_v6 : (⟨S256x20000, .f32⟩ : BufTy).Contents (Elt F) :=
  transpose S256x20000 [1, 0] (val_main_v5 (F := F) x2) transposes_S20000x256_S256x20000_1_0

abbrev idx_main_v6 (i : S256x20000.Idx) : S20000x256.Idx := fun a => match a with
  | ⟨0, _⟩ => ⟨(i 1).val, (i 1).isLt⟩
  | ⟨1, _⟩ => ⟨(i 0).val, (i 0).isLt⟩

theorem val_main_v6_apply (i : S256x20000.Idx) :
    val_main_v6 (F := F) x2 i = val_main_v5 (F := F) x2 (idx_main_v6 i) :=
  transpose_apply _ _ _ i _ fun a => match a with | ⟨0, _⟩ => rfl | ⟨1, _⟩ => rfl

def val_main_v7 : (⟨S4096x20000, .f32⟩ : BufTy).Contents (Elt F) :=
  Host.dotGeneral dot_S4096x256_S256x20000_S4096x20000_1_0_0_1_n_n none (val_main_v2 (F := F) x0) (val_main_v6 (F := F) x2)

theorem lhs_main_v7_0 (i : S4096x20000.Idx) (q : dot_S4096x256_S256x20000_S4096x20000_1_0_0_1_n_n.contr.Idx) :
    (dot_S4096x256_S256x20000_S4096x20000_1_0_0_1_n_n.lhsIdx i q 0).val = (i 0).val := by
  unfold DotDims.lhsIdx
  rw [dif_neg (show ¬(0 : Fin S4096x256.rank) ∈ dot_S4096x256_S256x20000_S4096x20000_1_0_0_1_n_n.lhsBatch by decide), dif_pos (show (0 : Fin S4096x256.rank) ∈ dot_S4096x256_S256x20000_S4096x20000_1_0_0_1_n_n.lhsNonContracting by decide)]
  rfl

theorem lhs_main_v7_1 (i : S4096x20000.Idx) (q : dot_S4096x256_S256x20000_S4096x20000_1_0_0_1_n_n.contr.Idx) :
    (dot_S4096x256_S256x20000_S4096x20000_1_0_0_1_n_n.lhsIdx i q 1).val = (q ⟨0, by decide⟩).val :=
  dot_S4096x256_S256x20000_S4096x20000_1_0_0_1_n_n.lhsIdx_val_of_single rfl i q

theorem rhs_main_v7_0 (i : S4096x20000.Idx) (q : dot_S4096x256_S256x20000_S4096x20000_1_0_0_1_n_n.contr.Idx) :
    (dot_S4096x256_S256x20000_S4096x20000_1_0_0_1_n_n.rhsIdx i q 0).val = (q ⟨0, by decide⟩).val :=
  dot_S4096x256_S256x20000_S4096x20000_1_0_0_1_n_n.rhsIdx_val_of_single rfl i q

theorem rhs_main_v7_1 (i : S4096x20000.Idx) (q : dot_S4096x256_S256x20000_S4096x20000_1_0_0_1_n_n.contr.Idx) :
    (dot_S4096x256_S256x20000_S4096x20000_1_0_0_1_n_n.rhsIdx i q 1).val = (i 1).val := by
  unfold DotDims.rhsIdx
  rw [dif_neg (show ¬(1 : Fin S256x20000.rank) ∈ dot_S4096x256_S256x20000_S4096x20000_1_0_0_1_n_n.rhsBatch by decide), dif_pos (show (1 : Fin S256x20000.rank) ∈ dot_S4096x256_S256x20000_S4096x20000_1_0_0_1_n_n.rhsNonContracting by decide)]
  rfl

abbrev lidx_main_v7 (i : S4096x20000.Idx) (k : Fin 256) : S4096x256.Idx := fun a => match a with
  | ⟨0, _⟩ => ⟨(i 0).val, (i 0).isLt⟩
  | ⟨1, _⟩ => ⟨k.val, k.isLt⟩

abbrev ridx_main_v7 (i : S4096x20000.Idx) (k : Fin 256) : S256x20000.Idx := fun a => match a with
  | ⟨0, _⟩ => ⟨k.val, k.isLt⟩
  | ⟨1, _⟩ => ⟨(i 1).val, (i 1).isLt⟩

theorem val_main_v7_apply (x0 : (⟨S4096x256, .f32⟩ : BufTy).Contents (Elt Ideal)) (x2 : (⟨S20000x256, .f32⟩ : BufTy).Contents (Elt Ideal)) (i : S4096x20000.Idx) :
    val_main_v7 (F := Ideal) x0 x2 i = ∑ k : Fin 256, (val_main_v2 (F := Ideal) x0) (lidx_main_v7 i k) * (val_main_v6 (F := Ideal) x2) (ridx_main_v7 i k) :=
  dot_apply _ 256 rfl rfl _ _ i _ _
    (fun k => funext fun a => Fin.ext (by match a with
      | ⟨0, _⟩ => exact lhs_main_v7_0 _ _
      | ⟨1, _⟩ => exact (lhs_main_v7_1 _ _).trans (ValueIdx.contrEquiv1_symm_val _ 256 rfl rfl k)))
    (fun k => funext fun a => Fin.ext (by match a with
      | ⟨0, _⟩ => exact (rhs_main_v7_0 _ _).trans (ValueIdx.contrEquiv1_symm_val _ 256 rfl rfl k)
      | ⟨1, _⟩ => exact rhs_main_v7_1 _ _))

def val_main_call2_v0 : (⟨S4096x1, .i32⟩ : BufTy).Contents (Elt F) :=
  broadcastInDim S4096x1 ![0] bcast_S4096_S4096x1_0 (x1)

abbrev idx_main_call2_v0 := idx_main_call0_v2

theorem val_main_call2_v0_apply (i : S4096x1.Idx) :
    val_main_call2_v0 (F := F) x1 i = x1 (idx_main_call2_v0 i) :=
  broadcastInDim_apply _ _ _ i _ fun a => match a with | ⟨0, _⟩ => rfl

def val_main_call2_v1 : (⟨S1x20000, .i32⟩ : BufTy).Contents (Elt F) :=
  iotaInDim S1x20000 32 1

theorem val_main_call2_v1_apply (i : S1x20000.Idx) :
    val_main_call2_v1 (F := F) i = BitVec.ofNat 32 (i 1).val := rfl

def val_main_call2_v2 : (⟨S4096x20000, .i32⟩ : BufTy).Contents (Elt F) :=
  broadcastInDim S4096x20000 ![0, 1] bcast_S4096x1_S4096x20000_0_1 (val_main_call2_v0 (F := F) x1)

abbrev idx_main_call2_v2 (i : S4096x20000.Idx) : S4096x1.Idx := fun a => match a with
  | ⟨0, _⟩ => ⟨(i 0).val, (i 0).isLt⟩
  | ⟨1, _⟩ => ⟨0, Nat.one_pos⟩

theorem val_main_call2_v2_apply (i : S4096x20000.Idx) :
    val_main_call2_v2 (F := F) x1 i = val_main_call2_v0 (F := F) x1 (idx_main_call2_v2 i) :=
  broadcastInDim_apply _ _ _ i _ fun a => match a with | ⟨0, _⟩ => rfl | ⟨1, _⟩ => rfl

def val_main_call2_v3 : (⟨S4096x20000, .i32⟩ : BufTy).Contents (Elt F) :=
  broadcastInDim S4096x20000 ![0, 1] bcast_S1x20000_S4096x20000_0_1 (val_main_call2_v1 (F := F))

abbrev idx_main_call2_v3 (i : S4096x20000.Idx) : S1x20000.Idx := fun a => match a with
  | ⟨0, _⟩ => ⟨0, Nat.one_pos⟩
  | ⟨1, _⟩ => ⟨(i 1).val, (i 1).isLt⟩

theorem val_main_call2_v3_apply (i : S4096x20000.Idx) :
    val_main_call2_v3 (F := F) i = val_main_call2_v1 (F := F) (idx_main_call2_v3 i) :=
  broadcastInDim_apply _ _ _ i _ fun a => match a with | ⟨0, _⟩ => rfl | ⟨1, _⟩ => rfl

def val_main_call2_v4 : (⟨S4096x20000, .i1⟩ : BufTy).Contents (Elt F) :=
  cmpi .eq (val_main_call2_v2 (F := F) x1) (val_main_call2_v3 (F := F))

theorem val_main_call2_v4_apply (i : S4096x20000.Idx) :
    val_main_call2_v4 (F := F) x1 i = IntOp.cmpi .eq (val_main_call2_v2 (F := F) x1 i) (val_main_call2_v3 (F := F) i) := rfl

def val_main_v8 : (⟨S4096x20000, .f32⟩ : BufTy).Contents (Elt F) :=
  uitofp .f32 (val_main_call2_v4 (F := F) x1)

theorem val_main_v8_apply (i : S4096x20000.Idx) :
    val_main_v8 (F := F) x1 i = FloatOps.uitofp .f32 (val_main_call2_v4 (F := F) x1 i) := rfl

def val_main_cst : (⟨S_, .f32⟩ : BufTy).Contents (Elt F) :=
  constant S_ .f32 0x3E99999A#32

theorem val_main_cst_apply (i : S_.Idx) :
    val_main_cst (F := F) i = FloatOps.ofBits .f32 0x3E99999A#32 := rfl

def val_main_v9 : (⟨S4096x20000, .f32⟩ : BufTy).Contents (Elt F) :=
  broadcastInDim S4096x20000 ![] bcast_S_S4096x20000 (val_main_cst (F := F))

abbrev idx_main_v9 (i : S4096x20000.Idx) : S_.Idx := fun a => a.elim0

theorem val_main_v9_apply (i : S4096x20000.Idx) :
    val_main_v9 (F := F) i = val_main_cst (F := F) (idx_main_v9 i) :=
  broadcastInDim_apply _ _ _ i _ fun a => a.elim0

def val_main_v10 : (⟨S4096x20000, .f32⟩ : BufTy).Contents (Elt F) :=
  mulf (val_main_v9 (F := F)) (val_main_v8 (F := F) x1)

theorem val_main_v10_apply (i : S4096x20000.Idx) :
    val_main_v10 (F := F) x1 i = FloatOps.mulf (val_main_v9 (F := F) i) (val_main_v8 (F := F) x1 i) := rfl

def val_main_v11 : (⟨S4096x20000, .f32⟩ : BufTy).Contents (Elt F) :=
  subf (val_main_v7 (F := F) x0 x2) (val_main_v10 (F := F) x1)

theorem val_main_v11_apply (i : S4096x20000.Idx) :
    val_main_v11 (F := F) x0 x1 x2 i = FloatOps.subf (val_main_v7 (F := F) x0 x2 i) (val_main_v10 (F := F) x1 i) := rfl

def val_main_cst_0 : (⟨S_, .f32⟩ : BufTy).Contents (Elt F) :=
  constant S_ .f32 0x41F00000#32

theorem val_main_cst_0_apply (i : S_.Idx) :
    val_main_cst_0 (F := F) i = FloatOps.ofBits .f32 0x41F00000#32 := rfl

def val_main_v12 : (⟨S4096x20000, .f32⟩ : BufTy).Contents (Elt F) :=
  broadcastInDim S4096x20000 ![] bcast_S_S4096x20000 (val_main_cst_0 (F := F))

abbrev idx_main_v12 := idx_main_v9

theorem val_main_v12_apply (i : S4096x20000.Idx) :
    val_main_v12 (F := F) i = val_main_cst_0 (F := F) (idx_main_v12 i) :=
  broadcastInDim_apply _ _ _ i _ fun a => a.elim0

def val_main_v13 : (⟨S4096x20000, .f32⟩ : BufTy).Contents (Elt F) :=
  mulf (val_main_v11 (F := F) x0 x1 x2) (val_main_v12 (F := F))

theorem val_main_v13_apply (i : S4096x20000.Idx) :
    val_main_v13 (F := F) x0 x1 x2 i = FloatOps.mulf (val_main_v11 (F := F) x0 x1 x2 i) (val_main_v12 (F := F) i) := rfl

def val_main_call3_cst : (⟨S_, .f32⟩ : BufTy).Contents (Elt F) :=
  constant S_ .f32 0xFF800000#32

theorem val_main_call3_cst_apply (i : S_.Idx) :
    val_main_call3_cst (F := F) i = FloatOps.ofBits .f32 0xFF800000#32 := rfl

def val_main_call3_v0 : (⟨S4096, .f32⟩ : BufTy).Contents (Elt F) :=
  Host.reduce FloatOps.maximumf (val_main_v13 (F := F) x0 x1 x2) (val_main_call3_cst (F := F)) reducesTo_S4096x20000_S4096_d1 h_S_

def val_main_call3_cst_0 : (⟨S_, .f32⟩ : BufTy).Contents (Elt F) :=
  constant S_ .f32 0xFF800000#32

theorem val_main_call3_cst_0_apply (i : S_.Idx) :
    val_main_call3_cst_0 (F := F) i = FloatOps.ofBits .f32 0xFF800000#32 := rfl

def val_main_call3_v1 : (⟨S4096, .f32⟩ : BufTy).Contents (Elt F) :=
  broadcastInDim S4096 ![] bcast_S_S4096 (val_main_call3_cst_0 (F := F))

abbrev idx_main_call3_v1 (i : S4096.Idx) : S_.Idx := fun a => a.elim0

theorem val_main_call3_v1_apply (i : S4096.Idx) :
    val_main_call3_v1 (F := F) i = val_main_call3_cst_0 (F := F) (idx_main_call3_v1 i) :=
  broadcastInDim_apply _ _ _ i _ fun a => a.elim0

def val_main_call3_v2 : (⟨S4096, .f32⟩ : BufTy).Contents (Elt F) :=
  maximumf (val_main_call3_v1 (F := F)) (val_main_call3_v0 (F := F) x0 x1 x2)

theorem val_main_call3_v2_apply (i : S4096.Idx) :
    val_main_call3_v2 (F := F) x0 x1 x2 i = FloatOps.maximumf (val_main_call3_v1 (F := F) i) (val_main_call3_v0 (F := F) x0 x1 x2 i) := rfl

def val_main_call3_v3 : (⟨S4096x1, .f32⟩ : BufTy).Contents (Elt F) :=
  broadcastInDim S4096x1 ![0] bcast_S4096_S4096x1_0 (val_main_call3_v2 (F := F) x0 x1 x2)

abbrev idx_main_call3_v3 := idx_main_call0_v2

theorem val_main_call3_v3_apply (i : S4096x1.Idx) :
    val_main_call3_v3 (F := F) x0 x1 x2 i = val_main_call3_v2 (F := F) x0 x1 x2 (idx_main_call3_v3 i) :=
  broadcastInDim_apply _ _ _ i _ fun a => match a with | ⟨0, _⟩ => rfl

def val_main_call3_v4 : (⟨S4096x20000, .f32⟩ : BufTy).Contents (Elt F) :=
  broadcastInDim S4096x20000 ![0, 1] bcast_S4096x1_S4096x20000_0_1 (val_main_call3_v3 (F := F) x0 x1 x2)

abbrev idx_main_call3_v4 := idx_main_call2_v2

theorem val_main_call3_v4_apply (i : S4096x20000.Idx) :
    val_main_call3_v4 (F := F) x0 x1 x2 i = val_main_call3_v3 (F := F) x0 x1 x2 (idx_main_call3_v4 i) :=
  broadcastInDim_apply _ _ _ i _ fun a => match a with | ⟨0, _⟩ => rfl | ⟨1, _⟩ => rfl

def val_main_call3_v5 : (⟨S4096x20000, .f32⟩ : BufTy).Contents (Elt F) :=
  subf (val_main_v13 (F := F) x0 x1 x2) (val_main_call3_v4 (F := F) x0 x1 x2)

theorem val_main_call3_v5_apply (i : S4096x20000.Idx) :
    val_main_call3_v5 (F := F) x0 x1 x2 i = FloatOps.subf (val_main_v13 (F := F) x0 x1 x2 i) (val_main_call3_v4 (F := F) x0 x1 x2 i) := rfl

def val_main_call3_v6 : (⟨S4096x20000, .f32⟩ : BufTy).Contents (Elt F) :=
  Host.exp (val_main_call3_v5 (F := F) x0 x1 x2)

theorem val_main_call3_v6_apply (i : S4096x20000.Idx) :
    val_main_call3_v6 (F := F) x0 x1 x2 i = FloatOps.hostUnary .exp (val_main_call3_v5 (F := F) x0 x1 x2 i) := rfl

def val_main_call3_cst_1 : (⟨S_, .f32⟩ : BufTy).Contents (Elt F) :=
  constant S_ .f32 0x00000000#32

theorem val_main_call3_cst_1_apply (i : S_.Idx) :
    val_main_call3_cst_1 (F := F) i = FloatOps.ofBits .f32 0x00000000#32 := rfl

def val_main_call3_v7 : (⟨S4096, .f32⟩ : BufTy).Contents (Elt F) :=
  Host.reduceAdd (val_main_call3_v6 (F := F) x0 x1 x2) (val_main_call3_cst_1 (F := F)) reducesTo_S4096x20000_S4096_d1 h_S_

abbrev idx_main_call3_v7 (i : S4096.Idx) (k : Fin 20000) : S4096x20000.Idx := fun a => match a with
  | ⟨0, _⟩ => ⟨(i 0).val, (i 0).isLt⟩
  | ⟨1, _⟩ => ⟨k.val, k.isLt⟩

theorem val_main_call3_v7_apply (x0 : (⟨S4096x256, .f32⟩ : BufTy).Contents (Elt Ideal)) (x1 : (⟨S4096, .i32⟩ : BufTy).Contents (Elt Ideal)) (x2 : (⟨S20000x256, .f32⟩ : BufTy).Contents (Elt Ideal)) (i : S4096.Idx) :
    val_main_call3_v7 (F := Ideal) x0 x1 x2 i = (val_main_call3_cst_1 (F := Ideal)) (Shape.Idx.first h_S_) + ∑ k : Fin 20000, (val_main_call3_v6 (F := Ideal) x0 x1 x2) (idx_main_call3_v7 i k) :=
  reduceAdd_row_apply _ (by decide) _ _ _ i _ fun k => funext fun a => Fin.ext (by match a with | ⟨0, _⟩ => rfl | ⟨1, _⟩ => rfl)

def val_main_call3_v8 : (⟨S4096x1, .f32⟩ : BufTy).Contents (Elt F) :=
  broadcastInDim S4096x1 ![0] bcast_S4096_S4096x1_0 (val_main_call3_v7 (F := F) x0 x1 x2)

abbrev idx_main_call3_v8 := idx_main_call0_v2

theorem val_main_call3_v8_apply (i : S4096x1.Idx) :
    val_main_call3_v8 (F := F) x0 x1 x2 i = val_main_call3_v7 (F := F) x0 x1 x2 (idx_main_call3_v8 i) :=
  broadcastInDim_apply _ _ _ i _ fun a => match a with | ⟨0, _⟩ => rfl

def val_main_call3_v9 : (⟨S4096x1, .f32⟩ : BufTy).Contents (Elt F) :=
  Host.log (val_main_call3_v8 (F := F) x0 x1 x2)

theorem val_main_call3_v9_apply (i : S4096x1.Idx) :
    val_main_call3_v9 (F := F) x0 x1 x2 i = FloatOps.hostUnary .log (val_main_call3_v8 (F := F) x0 x1 x2 i) := rfl

def val_main_call3_v10 : (⟨S4096x20000, .f32⟩ : BufTy).Contents (Elt F) :=
  broadcastInDim S4096x20000 ![0, 1] bcast_S4096x1_S4096x20000_0_1 (val_main_call3_v9 (F := F) x0 x1 x2)

abbrev idx_main_call3_v10 := idx_main_call2_v2

theorem val_main_call3_v10_apply (i : S4096x20000.Idx) :
    val_main_call3_v10 (F := F) x0 x1 x2 i = val_main_call3_v9 (F := F) x0 x1 x2 (idx_main_call3_v10 i) :=
  broadcastInDim_apply _ _ _ i _ fun a => match a with | ⟨0, _⟩ => rfl | ⟨1, _⟩ => rfl

def val_main_v14 : (⟨S4096x20000, .f32⟩ : BufTy).Contents (Elt F) :=
  subf (val_main_call3_v5 (F := F) x0 x1 x2) (val_main_call3_v10 (F := F) x0 x1 x2)

theorem val_main_v14_apply (i : S4096x20000.Idx) :
    val_main_v14 (F := F) x0 x1 x2 i = FloatOps.subf (val_main_call3_v5 (F := F) x0 x1 x2 i) (val_main_call3_v10 (F := F) x0 x1 x2 i) := rfl

def val_main_v15 : (⟨S4096, .i32⟩ : BufTy).Contents (Elt F) :=
  iotaInDim S4096 32 0

theorem val_main_v15_apply (i : S4096.Idx) :
    val_main_v15 (F := F) i = BitVec.ofNat 32 (i 0).val := rfl

def val_main_c : (⟨S_, .i32⟩ : BufTy).Contents (Elt F) :=
  constantI S_ 32 0#32

theorem val_main_c_apply (i : S_.Idx) :
    val_main_c (F := F) i = 0#32 := rfl

def val_main_v16 : (⟨S4096, .i32⟩ : BufTy).Contents (Elt F) :=
  broadcastInDim S4096 ![] bcast_S_S4096 (val_main_c (F := F))

abbrev idx_main_v16 := idx_main_call3_v1

theorem val_main_v16_apply (i : S4096.Idx) :
    val_main_v16 (F := F) i = val_main_c (F := F) (idx_main_v16 i) :=
  broadcastInDim_apply _ _ _ i _ fun a => a.elim0

def val_main_v17 : (⟨S4096, .i1⟩ : BufTy).Contents (Elt F) :=
  cmpi .slt (val_main_v15 (F := F)) (val_main_v16 (F := F))

theorem val_main_v17_apply (i : S4096.Idx) :
    val_main_v17 (F := F) i = IntOp.cmpi .slt (val_main_v15 (F := F) i) (val_main_v16 (F := F) i) := rfl

def val_main_c_1 : (⟨S_, .i32⟩ : BufTy).Contents (Elt F) :=
  constantI S_ 32 4096#32

def val_main_v18 : (⟨S4096, .i32⟩ : BufTy).Contents (Elt F) :=
  broadcastInDim S4096 ![] bcast_S_S4096 (val_main_c_1 (F := F))

def val_main_v19 : (⟨S4096, .i32⟩ : BufTy).Contents (Elt F) :=
  addi (val_main_v15 (F := F)) (val_main_v18 (F := F))

def val_main_v20 : (⟨S4096, .i32⟩ : BufTy).Contents (Elt F) :=
  select (val_main_v17 (F := F)) (val_main_v19 (F := F)) (val_main_v15 (F := F))

theorem val_main_v20_apply (i : S4096.Idx) :
    val_main_v20 (F := F) i = Scalar.select (val_main_v17 (F := F) i) (val_main_v19 (F := F) i) (val_main_v15 (F := F) i) := rfl

def val_main_c_2 : (⟨S_, .i32⟩ : BufTy).Contents (Elt F) :=
  constantI S_ 32 0#32

theorem val_main_c_2_apply (i : S_.Idx) :
    val_main_c_2 (F := F) i = 0#32 := rfl

def val_main_v21 : (⟨S4096, .i32⟩ : BufTy).Contents (Elt F) :=
  broadcastInDim S4096 ![] bcast_S_S4096 (val_main_c_2 (F := F))

abbrev idx_main_v21 := idx_main_call3_v1

theorem val_main_v21_apply (i : S4096.Idx) :
    val_main_v21 (F := F) i = val_main_c_2 (F := F) (idx_main_v21 i) :=
  broadcastInDim_apply _ _ _ i _ fun a => a.elim0

def val_main_v22 : (⟨S4096, .i1⟩ : BufTy).Contents (Elt F) :=
  cmpi .slt (x1) (val_main_v21 (F := F))

theorem val_main_v22_apply (i : S4096.Idx) :
    val_main_v22 (F := F) x1 i = IntOp.cmpi .slt (x1 i) (val_main_v21 (F := F) i) := rfl

def val_main_c_3 : (⟨S_, .i32⟩ : BufTy).Contents (Elt F) :=
  constantI S_ 32 20000#32

def val_main_v23 : (⟨S4096, .i32⟩ : BufTy).Contents (Elt F) :=
  broadcastInDim S4096 ![] bcast_S_S4096 (val_main_c_3 (F := F))

def val_main_v24 : (⟨S4096, .i32⟩ : BufTy).Contents (Elt F) :=
  addi (x1) (val_main_v23 (F := F))

def val_main_v25 : (⟨S4096, .i32⟩ : BufTy).Contents (Elt F) :=
  select (val_main_v22 (F := F) x1) (val_main_v24 (F := F) x1) (x1)

theorem val_main_v25_apply (i : S4096.Idx) :
    val_main_v25 (F := F) x1 i = Scalar.select (val_main_v22 (F := F) x1 i) (val_main_v24 (F := F) x1 i) (x1 i) := rfl

def val_main_v26 : (⟨S4096x1, .i32⟩ : BufTy).Contents (Elt F) :=
  broadcastInDim S4096x1 ![0] bcast_S4096_S4096x1_0 (val_main_v20 (F := F))

abbrev idx_main_v26 := idx_main_call0_v2

theorem val_main_v26_apply (i : S4096x1.Idx) :
    val_main_v26 (F := F) i = val_main_v20 (F := F) (idx_main_v26 i) :=
  broadcastInDim_apply _ _ _ i _ fun a => match a with | ⟨0, _⟩ => rfl

def val_main_v27 : (⟨S4096x1, .i32⟩ : BufTy).Contents (Elt F) :=
  broadcastInDim S4096x1 ![0] bcast_S4096_S4096x1_0 (val_main_v25 (F := F) x1)

abbrev idx_main_v27 := idx_main_call0_v2

theorem val_main_v27_apply (i : S4096x1.Idx) :
    val_main_v27 (F := F) x1 i = val_main_v25 (F := F) x1 (idx_main_v27 i) :=
  broadcastInDim_apply _ _ _ i _ fun a => match a with | ⟨0, _⟩ => rfl

def val_main_v28 : (⟨S4096x2, .i32⟩ : BufTy).Contents (Elt F) :=
  concatenate S4096x2 1 [⟨S4096x1, (val_main_v26 (F := F))⟩, ⟨S4096x1, (val_main_v27 (F := F) x1)⟩] concatenates_S4096x1_S4096x1_S4096x2_d1

def val_main_v29 : (⟨S4096, .f32⟩ : BufTy).Contents (Elt F) :=
  Host.gather gather_S4096x20000_S4096x2_S4096_n_01_n_n_01_1_11 (val_main_v14 (F := F) x0 x1 x2) (val_main_v28 (F := F) x1)

def val_main_cst_4 : (⟨S_, .f32⟩ : BufTy).Contents (Elt F) :=
  constant S_ .f32 0x00000000#32

theorem val_main_cst_4_apply (i : S_.Idx) :
    val_main_cst_4 (F := F) i = FloatOps.ofBits .f32 0x00000000#32 := rfl

def val_main_v30 : (⟨S_, .f32⟩ : BufTy).Contents (Elt F) :=
  Host.reduceAdd (val_main_v29 (F := F) x0 x1 x2) (val_main_cst_4 (F := F)) reducesTo_S4096_S_d0 h_S_

theorem val_main_v30_apply (x0 : (⟨S4096x256, .f32⟩ : BufTy).Contents (Elt Ideal)) (x1 : (⟨S4096, .i32⟩ : BufTy).Contents (Elt Ideal)) (x2 : (⟨S20000x256, .f32⟩ : BufTy).Contents (Elt Ideal)) (i : S_.Idx) :
    val_main_v30 (F := Ideal) x0 x1 x2 i = (val_main_cst_4 (F := Ideal)) (Shape.Idx.first h_S_) + ∑ j : S4096.Idx, (val_main_v29 (F := Ideal) x0 x1 x2) j := by
  unfold val_main_v30
  generalize val_main_v29 (F := Ideal) x0 x1 x2 = y0
  simp only [Host.reduceAdd, Ideal.hostReduceAdd_def]
  exact Ideal.hostReduceAdd_total reducesTo_S4096_S_d0 (fun b => b.elim0) y0 _ i

def val_main_cst_5 : (⟨S_, .f32⟩ : BufTy).Contents (Elt F) :=
  constant S_ .f32 0x45800000#32

theorem val_main_cst_5_apply (i : S_.Idx) :
    val_main_cst_5 (F := F) i = FloatOps.ofBits .f32 0x45800000#32 := rfl

def val_main_v31 : (⟨S_, .f32⟩ : BufTy).Contents (Elt F) :=
  Host.divf (val_main_v30 (F := F) x0 x1 x2) (val_main_cst_5 (F := F))

theorem val_main_v31_apply (i : S_.Idx) :
    val_main_v31 (F := F) x0 x1 x2 i = FloatOps.hostDivf (val_main_v30 (F := F) x0 x1 x2 i) (val_main_cst_5 (F := F) i) := rfl

def val_main_v32 : (⟨S_, .f32⟩ : BufTy).Contents (Elt F) :=
  Host.negf (val_main_v31 (F := F) x0 x1 x2)

theorem val_main_v32_apply (i : S_.Idx) :
    val_main_v32 (F := F) x0 x1 x2 i = FloatOps.hostNegf (val_main_v31 (F := F) x0 x1 x2 i) := rfl

def val_main_v33 : (⟨S256x4096, .f32⟩ : BufTy).Contents (Elt F) :=
  transpose S256x4096 [1, 0] (val_main_v2 (F := F) x0) transposes_S4096x256_S256x4096_1_0

abbrev idx_main_v33 (i : S256x4096.Idx) : S4096x256.Idx := fun a => match a with
  | ⟨0, _⟩ => ⟨(i 1).val, (i 1).isLt⟩
  | ⟨1, _⟩ => ⟨(i 0).val, (i 0).isLt⟩

theorem val_main_v33_apply (i : S256x4096.Idx) :
    val_main_v33 (F := F) x0 i = val_main_v2 (F := F) x0 (idx_main_v33 i) :=
  transpose_apply _ _ _ i _ fun a => match a with | ⟨0, _⟩ => rfl | ⟨1, _⟩ => rfl

def val_main_v34 : (⟨S4096x4096, .f32⟩ : BufTy).Contents (Elt F) :=
  Host.dotGeneral dot_S4096x256_S256x4096_S4096x4096_1_0_0_1_n_n none (val_main_v2 (F := F) x0) (val_main_v33 (F := F) x0)

theorem lhs_main_v34_0 (i : S4096x4096.Idx) (q : dot_S4096x256_S256x4096_S4096x4096_1_0_0_1_n_n.contr.Idx) :
    (dot_S4096x256_S256x4096_S4096x4096_1_0_0_1_n_n.lhsIdx i q 0).val = (i 0).val := by
  unfold DotDims.lhsIdx
  rw [dif_neg (show ¬(0 : Fin S4096x256.rank) ∈ dot_S4096x256_S256x4096_S4096x4096_1_0_0_1_n_n.lhsBatch by decide), dif_pos (show (0 : Fin S4096x256.rank) ∈ dot_S4096x256_S256x4096_S4096x4096_1_0_0_1_n_n.lhsNonContracting by decide)]
  rfl

theorem lhs_main_v34_1 (i : S4096x4096.Idx) (q : dot_S4096x256_S256x4096_S4096x4096_1_0_0_1_n_n.contr.Idx) :
    (dot_S4096x256_S256x4096_S4096x4096_1_0_0_1_n_n.lhsIdx i q 1).val = (q ⟨0, by decide⟩).val :=
  dot_S4096x256_S256x4096_S4096x4096_1_0_0_1_n_n.lhsIdx_val_of_single rfl i q

theorem rhs_main_v34_0 (i : S4096x4096.Idx) (q : dot_S4096x256_S256x4096_S4096x4096_1_0_0_1_n_n.contr.Idx) :
    (dot_S4096x256_S256x4096_S4096x4096_1_0_0_1_n_n.rhsIdx i q 0).val = (q ⟨0, by decide⟩).val :=
  dot_S4096x256_S256x4096_S4096x4096_1_0_0_1_n_n.rhsIdx_val_of_single rfl i q

theorem rhs_main_v34_1 (i : S4096x4096.Idx) (q : dot_S4096x256_S256x4096_S4096x4096_1_0_0_1_n_n.contr.Idx) :
    (dot_S4096x256_S256x4096_S4096x4096_1_0_0_1_n_n.rhsIdx i q 1).val = (i 1).val := by
  unfold DotDims.rhsIdx
  rw [dif_neg (show ¬(1 : Fin S256x4096.rank) ∈ dot_S4096x256_S256x4096_S4096x4096_1_0_0_1_n_n.rhsBatch by decide), dif_pos (show (1 : Fin S256x4096.rank) ∈ dot_S4096x256_S256x4096_S4096x4096_1_0_0_1_n_n.rhsNonContracting by decide)]
  rfl

abbrev lidx_main_v34 (i : S4096x4096.Idx) (k : Fin 256) : S4096x256.Idx := fun a => match a with
  | ⟨0, _⟩ => ⟨(i 0).val, (i 0).isLt⟩
  | ⟨1, _⟩ => ⟨k.val, k.isLt⟩

abbrev ridx_main_v34 (i : S4096x4096.Idx) (k : Fin 256) : S256x4096.Idx := fun a => match a with
  | ⟨0, _⟩ => ⟨k.val, k.isLt⟩
  | ⟨1, _⟩ => ⟨(i 1).val, (i 1).isLt⟩

theorem val_main_v34_apply (x0 : (⟨S4096x256, .f32⟩ : BufTy).Contents (Elt Ideal)) (i : S4096x4096.Idx) :
    val_main_v34 (F := Ideal) x0 i = ∑ k : Fin 256, (val_main_v2 (F := Ideal) x0) (lidx_main_v34 i k) * (val_main_v33 (F := Ideal) x0) (ridx_main_v34 i k) :=
  dot_apply _ 256 rfl rfl _ _ i _ _
    (fun k => funext fun a => Fin.ext (by match a with
      | ⟨0, _⟩ => exact lhs_main_v34_0 _ _
      | ⟨1, _⟩ => exact (lhs_main_v34_1 _ _).trans (ValueIdx.contrEquiv1_symm_val _ 256 rfl rfl k)))
    (fun k => funext fun a => Fin.ext (by match a with
      | ⟨0, _⟩ => exact (rhs_main_v34_0 _ _).trans (ValueIdx.contrEquiv1_symm_val _ 256 rfl rfl k)
      | ⟨1, _⟩ => exact rhs_main_v34_1 _ _))

def val_main_cst_6 : (⟨S_, .f32⟩ : BufTy).Contents (Elt F) :=
  constant S_ .f32 0x3F800000#32

theorem val_main_cst_6_apply (i : S_.Idx) :
    val_main_cst_6 (F := F) i = FloatOps.ofBits .f32 0x3F800000#32 := rfl

def val_main_v35 : (⟨S4096x4096, .f32⟩ : BufTy).Contents (Elt F) :=
  broadcastInDim S4096x4096 ![] bcast_S_S4096x4096 (val_main_cst_6 (F := F))

abbrev idx_main_v35 (i : S4096x4096.Idx) : S_.Idx := fun a => a.elim0

theorem val_main_v35_apply (i : S4096x4096.Idx) :
    val_main_v35 (F := F) i = val_main_cst_6 (F := F) (idx_main_v35 i) :=
  broadcastInDim_apply _ _ _ i _ fun a => a.elim0

def val_main_v36 : (⟨S4096x4096, .f32⟩ : BufTy).Contents (Elt F) :=
  subf (val_main_v35 (F := F)) (val_main_v34 (F := F) x0)

theorem val_main_v36_apply (i : S4096x4096.Idx) :
    val_main_v36 (F := F) x0 i = FloatOps.subf (val_main_v35 (F := F) i) (val_main_v34 (F := F) x0 i) := rfl

def val_main_v37 : (⟨S4096, .i32⟩ : BufTy).Contents (Elt F) :=
  iotaInDim S4096 32 0

theorem val_main_v37_apply (i : S4096.Idx) :
    val_main_v37 (F := F) i = BitVec.ofNat 32 (i 0).val := rfl

def val_main_v38 : (⟨S4096x1, .i32⟩ : BufTy).Contents (Elt F) :=
  broadcastInDim S4096x1 ![0] bcast_S4096_S4096x1_0 (x1)

abbrev idx_main_v38 := idx_main_call0_v2

theorem val_main_v38_apply (i : S4096x1.Idx) :
    val_main_v38 (F := F) x1 i = x1 (idx_main_v38 i) :=
  broadcastInDim_apply _ _ _ i _ fun a => match a with | ⟨0, _⟩ => rfl

def val_main_v39 : (⟨S1x4096, .i32⟩ : BufTy).Contents (Elt F) :=
  broadcastInDim S1x4096 ![1] bcast_S4096_S1x4096_1 (x1)

abbrev idx_main_v39 (i : S1x4096.Idx) : S4096.Idx := fun a => match a with
  | ⟨0, _⟩ => ⟨(i 1).val, (i 1).isLt⟩

theorem val_main_v39_apply (i : S1x4096.Idx) :
    val_main_v39 (F := F) x1 i = x1 (idx_main_v39 i) :=
  broadcastInDim_apply _ _ _ i _ fun a => match a with | ⟨0, _⟩ => rfl

def val_main_v40 : (⟨S4096x4096, .i32⟩ : BufTy).Contents (Elt F) :=
  broadcastInDim S4096x4096 ![0, 1] bcast_S4096x1_S4096x4096_0_1 (val_main_v38 (F := F) x1)

abbrev idx_main_v40 (i : S4096x4096.Idx) : S4096x1.Idx := fun a => match a with
  | ⟨0, _⟩ => ⟨(i 0).val, (i 0).isLt⟩
  | ⟨1, _⟩ => ⟨0, Nat.one_pos⟩

theorem val_main_v40_apply (i : S4096x4096.Idx) :
    val_main_v40 (F := F) x1 i = val_main_v38 (F := F) x1 (idx_main_v40 i) :=
  broadcastInDim_apply _ _ _ i _ fun a => match a with | ⟨0, _⟩ => rfl | ⟨1, _⟩ => rfl

def val_main_v41 : (⟨S4096x4096, .i32⟩ : BufTy).Contents (Elt F) :=
  broadcastInDim S4096x4096 ![0, 1] bcast_S1x4096_S4096x4096_0_1 (val_main_v39 (F := F) x1)

abbrev idx_main_v41 (i : S4096x4096.Idx) : S1x4096.Idx := fun a => match a with
  | ⟨0, _⟩ => ⟨0, Nat.one_pos⟩
  | ⟨1, _⟩ => ⟨(i 1).val, (i 1).isLt⟩

theorem val_main_v41_apply (i : S4096x4096.Idx) :
    val_main_v41 (F := F) x1 i = val_main_v39 (F := F) x1 (idx_main_v41 i) :=
  broadcastInDim_apply _ _ _ i _ fun a => match a with | ⟨0, _⟩ => rfl | ⟨1, _⟩ => rfl

def val_main_v42 : (⟨S4096x4096, .i1⟩ : BufTy).Contents (Elt F) :=
  cmpi .eq (val_main_v40 (F := F) x1) (val_main_v41 (F := F) x1)

theorem val_main_v42_apply (i : S4096x4096.Idx) :
    val_main_v42 (F := F) x1 i = IntOp.cmpi .eq (val_main_v40 (F := F) x1 i) (val_main_v41 (F := F) x1 i) := rfl

def val_main_v43 : (⟨S4096x1, .i32⟩ : BufTy).Contents (Elt F) :=
  broadcastInDim S4096x1 ![0] bcast_S4096_S4096x1_0 (val_main_v37 (F := F))

abbrev idx_main_v43 := idx_main_call0_v2

theorem val_main_v43_apply (i : S4096x1.Idx) :
    val_main_v43 (F := F) i = val_main_v37 (F := F) (idx_main_v43 i) :=
  broadcastInDim_apply _ _ _ i _ fun a => match a with | ⟨0, _⟩ => rfl

def val_main_v44 : (⟨S1x4096, .i32⟩ : BufTy).Contents (Elt F) :=
  broadcastInDim S1x4096 ![1] bcast_S4096_S1x4096_1 (val_main_v37 (F := F))

abbrev idx_main_v44 := idx_main_v39

theorem val_main_v44_apply (i : S1x4096.Idx) :
    val_main_v44 (F := F) i = val_main_v37 (F := F) (idx_main_v44 i) :=
  broadcastInDim_apply _ _ _ i _ fun a => match a with | ⟨0, _⟩ => rfl

def val_main_v45 : (⟨S4096x4096, .i32⟩ : BufTy).Contents (Elt F) :=
  broadcastInDim S4096x4096 ![0, 1] bcast_S4096x1_S4096x4096_0_1 (val_main_v43 (F := F))

abbrev idx_main_v45 := idx_main_v40

theorem val_main_v45_apply (i : S4096x4096.Idx) :
    val_main_v45 (F := F) i = val_main_v43 (F := F) (idx_main_v45 i) :=
  broadcastInDim_apply _ _ _ i _ fun a => match a with | ⟨0, _⟩ => rfl | ⟨1, _⟩ => rfl

def val_main_v46 : (⟨S4096x4096, .i32⟩ : BufTy).Contents (Elt F) :=
  broadcastInDim S4096x4096 ![0, 1] bcast_S1x4096_S4096x4096_0_1 (val_main_v44 (F := F))

abbrev idx_main_v46 := idx_main_v41

theorem val_main_v46_apply (i : S4096x4096.Idx) :
    val_main_v46 (F := F) i = val_main_v44 (F := F) (idx_main_v46 i) :=
  broadcastInDim_apply _ _ _ i _ fun a => match a with | ⟨0, _⟩ => rfl | ⟨1, _⟩ => rfl

def val_main_v47 : (⟨S4096x4096, .i1⟩ : BufTy).Contents (Elt F) :=
  cmpi .slt (val_main_v45 (F := F)) (val_main_v46 (F := F))

theorem val_main_v47_apply (i : S4096x4096.Idx) :
    val_main_v47 (F := F) i = IntOp.cmpi .slt (val_main_v45 (F := F) i) (val_main_v46 (F := F) i) := rfl

def val_main_v48 : (⟨S4096x4096, .i1⟩ : BufTy).Contents (Elt F) :=
  andi (val_main_v42 (F := F) x1) (val_main_v47 (F := F))

theorem val_main_v48_apply (i : S4096x4096.Idx) :
    val_main_v48 (F := F) x1 i = IntOp.andi (val_main_v42 (F := F) x1 i) (val_main_v47 (F := F) i) := rfl

def val_main_v49 : (⟨S4096x4096, .f32⟩ : BufTy).Contents (Elt F) :=
  uitofp .f32 (val_main_v48 (F := F) x1)

theorem val_main_v49_apply (i : S4096x4096.Idx) :
    val_main_v49 (F := F) x1 i = FloatOps.uitofp .f32 (val_main_v48 (F := F) x1 i) := rfl

def val_main_v50 : (⟨S4096x4096, .f32⟩ : BufTy).Contents (Elt F) :=
  mulf (val_main_v36 (F := F) x0) (val_main_v49 (F := F) x1)

theorem val_main_v50_apply (i : S4096x4096.Idx) :
    val_main_v50 (F := F) x0 x1 i = FloatOps.mulf (val_main_v36 (F := F) x0 i) (val_main_v49 (F := F) x1 i) := rfl

def val_main_cst_7 : (⟨S_, .f32⟩ : BufTy).Contents (Elt F) :=
  constant S_ .f32 0x00000000#32

theorem val_main_cst_7_apply (i : S_.Idx) :
    val_main_cst_7 (F := F) i = FloatOps.ofBits .f32 0x00000000#32 := rfl

def val_main_v51 : (⟨S4096, .f32⟩ : BufTy).Contents (Elt F) :=
  Host.reduceAdd (val_main_v50 (F := F) x0 x1) (val_main_cst_7 (F := F)) reducesTo_S4096x4096_S4096_d1 h_S_

abbrev idx_main_v51 (i : S4096.Idx) (k : Fin 4096) : S4096x4096.Idx := fun a => match a with
  | ⟨0, _⟩ => ⟨(i 0).val, (i 0).isLt⟩
  | ⟨1, _⟩ => ⟨k.val, k.isLt⟩

theorem val_main_v51_apply (x0 : (⟨S4096x256, .f32⟩ : BufTy).Contents (Elt Ideal)) (x1 : (⟨S4096, .i32⟩ : BufTy).Contents (Elt Ideal)) (i : S4096.Idx) :
    val_main_v51 (F := Ideal) x0 x1 i = (val_main_cst_7 (F := Ideal)) (Shape.Idx.first h_S_) + ∑ k : Fin 4096, (val_main_v50 (F := Ideal) x0 x1) (idx_main_v51 i k) :=
  reduceAdd_row_apply _ (by decide) _ _ _ i _ fun k => funext fun a => Fin.ext (by match a with | ⟨0, _⟩ => rfl | ⟨1, _⟩ => rfl)

def val_main_v52 : (⟨S4096x4096, .i32⟩ : BufTy).Contents (Elt F) :=
  extui 32 (val_main_v48 (F := F) x1) natLt_1_32

def val_main_c_8 : (⟨S_, .i32⟩ : BufTy).Contents (Elt F) :=
  constantI S_ 32 0#32

def val_main_v53 : (⟨S4096, .i32⟩ : BufTy).Contents (Elt F) :=
  Host.reduce IntOp.addi (val_main_v52 (F := F) x1) (val_main_c_8 (F := F)) reducesTo_S4096x4096_S4096_d1 h_S_

def val_main_v54 : (⟨S4096, .f32⟩ : BufTy).Contents (Elt F) :=
  sitofp .f32 (val_main_v53 (F := F) x1)

theorem val_main_v54_apply (i : S4096.Idx) :
    val_main_v54 (F := F) x1 i = FloatOps.sitofp .f32 (val_main_v53 (F := F) x1 i) := rfl

def val_main_cst_9 : (⟨S_, .f32⟩ : BufTy).Contents (Elt F) :=
  constant S_ .f32 0x00000000#32

def val_main_v55 : (⟨S20000, .f32⟩ : BufTy).Contents (Elt F) :=
  broadcastInDim S20000 ![] bcast_S_S20000 (val_main_cst_9 (F := F))

def val_main_v56 : (⟨S4096x1, .i32⟩ : BufTy).Contents (Elt F) :=
  broadcastInDim S4096x1 ![0] bcast_S4096_S4096x1_0 (x1)

def val_main_v57 : (⟨S20000, .f32⟩ : BufTy).Contents (Elt F) :=
  Host.scatterAdd scatter_S20000_S4096x1_S4096_n_0_0_1 (val_main_v55 (F := F)) (val_main_v56 (F := F) x1) (val_main_v51 (F := F) x0 x1)

def val_main_cst_10 : (⟨S_, .f32⟩ : BufTy).Contents (Elt F) :=
  constant S_ .f32 0x00000000#32

def val_main_v58 : (⟨S20000, .f32⟩ : BufTy).Contents (Elt F) :=
  broadcastInDim S20000 ![] bcast_S_S20000 (val_main_cst_10 (F := F))

def val_main_v59 : (⟨S4096x1, .i32⟩ : BufTy).Contents (Elt F) :=
  broadcastInDim S4096x1 ![0] bcast_S4096_S4096x1_0 (x1)

def val_main_v60 : (⟨S20000, .f32⟩ : BufTy).Contents (Elt F) :=
  Host.scatterAdd scatter_S20000_S4096x1_S4096_n_0_0_1 (val_main_v58 (F := F)) (val_main_v59 (F := F) x1) (val_main_v54 (F := F) x1)

def val_main_cst_11 : (⟨S_, .f32⟩ : BufTy).Contents (Elt F) :=
  constant S_ .f32 0x00000000#32

def val_main_v61 : (⟨S20000, .f32⟩ : BufTy).Contents (Elt F) :=
  broadcastInDim S20000 ![] bcast_S_S20000 (val_main_cst_11 (F := F))

def val_main_v62 : (⟨S20000, .i1⟩ : BufTy).Contents (Elt F) :=
  cmpf .ogt (val_main_v60 (F := F) x1) (val_main_v61 (F := F))

def val_main_cst_12 : (⟨S_, .f32⟩ : BufTy).Contents (Elt F) :=
  constant S_ .f32 0x3F800000#32

def val_main_v63 : (⟨S20000, .f32⟩ : BufTy).Contents (Elt F) :=
  broadcastInDim S20000 ![] bcast_S_S20000 (val_main_cst_12 (F := F))

def val_main_v64 : (⟨S20000, .f32⟩ : BufTy).Contents (Elt F) :=
  maximumf (val_main_v60 (F := F) x1) (val_main_v63 (F := F))

def val_main_v65 : (⟨S20000, .f32⟩ : BufTy).Contents (Elt F) :=
  Host.divf (val_main_v57 (F := F) x0 x1) (val_main_v64 (F := F) x1)

def val_main_cst_13 : (⟨S_, .f32⟩ : BufTy).Contents (Elt F) :=
  constant S_ .f32 0x00000000#32

def val_main_call4_v0 : (⟨S_, .f32⟩ : BufTy).Contents (Elt F) :=
  id (val_main_cst_13 (F := F))

def val_main_call4_v1 : (⟨S20000, .f32⟩ : BufTy).Contents (Elt F) :=
  broadcastInDim S20000 ![] bcast_S_S20000 (val_main_call4_v0 (F := F))

def val_main_v66 : (⟨S20000, .f32⟩ : BufTy).Contents (Elt F) :=
  select (val_main_v62 (F := F) x1) (val_main_v65 (F := F) x0 x1) (val_main_call4_v1 (F := F))

def val_main_cst_14 : (⟨S_, .f32⟩ : BufTy).Contents (Elt F) :=
  constant S_ .f32 0x3F000000#32

def val_main_v67 : (⟨S20000, .f32⟩ : BufTy).Contents (Elt F) :=
  broadcastInDim S20000 ![] bcast_S_S20000 (val_main_cst_14 (F := F))

def val_main_v68 : (⟨S20000, .f32⟩ : BufTy).Contents (Elt F) :=
  subf (val_main_v66 (F := F) x0 x1) (val_main_v67 (F := F))

def val_main_call5_cst : (⟨S_, .f32⟩ : BufTy).Contents (Elt F) :=
  constant S_ .f32 0x00000000#32

def val_main_call5_v0 : (⟨S20000, .f32⟩ : BufTy).Contents (Elt F) :=
  broadcastInDim S20000 ![] bcast_S_S20000 (val_main_call5_cst (F := F))

def val_main_v69 : (⟨S20000, .f32⟩ : BufTy).Contents (Elt F) :=
  maximumf (val_main_v68 (F := F) x0 x1) (val_main_call5_v0 (F := F))

def val_main_cst_15 : (⟨S_, .f32⟩ : BufTy).Contents (Elt F) :=
  constant S_ .f32 0x00000000#32

def val_main_call6_v0 : (⟨S_, .f32⟩ : BufTy).Contents (Elt F) :=
  id (val_main_cst_15 (F := F))

def val_main_call6_v1 : (⟨S20000, .f32⟩ : BufTy).Contents (Elt F) :=
  broadcastInDim S20000 ![] bcast_S_S20000 (val_main_call6_v0 (F := F))

def val_main_v70 : (⟨S20000, .f32⟩ : BufTy).Contents (Elt F) :=
  select (val_main_v62 (F := F) x1) (val_main_v69 (F := F) x0 x1) (val_main_call6_v1 (F := F))

def val_main_v71 : (⟨S20000, .i32⟩ : BufTy).Contents (Elt F) :=
  extui 32 (val_main_v62 (F := F) x1) natLt_1_32

def val_main_c_16 : (⟨S_, .i32⟩ : BufTy).Contents (Elt F) :=
  constantI S_ 32 0#32

def val_main_v72 : (⟨S_, .i32⟩ : BufTy).Contents (Elt F) :=
  Host.reduce IntOp.addi (val_main_v71 (F := F) x1) (val_main_c_16 (F := F)) reducesTo_S20000_S_d0 h_S_

def val_main_v73 : (⟨S_, .f32⟩ : BufTy).Contents (Elt F) :=
  sitofp .f32 (val_main_v72 (F := F) x1)

def val_main_cst_17 : (⟨S_, .f32⟩ : BufTy).Contents (Elt F) :=
  constant S_ .f32 0x00000000#32

def val_main_v74 : (⟨S_, .i1⟩ : BufTy).Contents (Elt F) :=
  cmpf .ogt (val_main_v73 (F := F) x1) (val_main_cst_17 (F := F))

def val_main_cst_18 : (⟨S_, .f32⟩ : BufTy).Contents (Elt F) :=
  constant S_ .f32 0x00000000#32

def val_main_v75 : (⟨S_, .f32⟩ : BufTy).Contents (Elt F) :=
  Host.reduceAdd (val_main_v70 (F := F) x0 x1) (val_main_cst_18 (F := F)) reducesTo_S20000_S_d0 h_S_

def val_main_cst_19 : (⟨S_, .f32⟩ : BufTy).Contents (Elt F) :=
  constant S_ .f32 0x3F800000#32

def val_main_v76 : (⟨S_, .f32⟩ : BufTy).Contents (Elt F) :=
  maximumf (val_main_v73 (F := F) x1) (val_main_cst_19 (F := F))

def val_main_v77 : (⟨S_, .f32⟩ : BufTy).Contents (Elt F) :=
  Host.divf (val_main_v75 (F := F) x0 x1) (val_main_v76 (F := F) x1)

def val_main_cst_20 : (⟨S_, .f32⟩ : BufTy).Contents (Elt F) :=
  constant S_ .f32 0x00000000#32

def val_main_call7_v0 : (⟨S_, .f32⟩ : BufTy).Contents (Elt F) :=
  id (val_main_cst_20 (F := F))

def val_main_v78 : (⟨S_, .f32⟩ : BufTy).Contents (Elt F) :=
  select (val_main_v74 (F := F) x1) (val_main_v77 (F := F) x0 x1) (val_main_call7_v0 (F := F))

def val_main_cst_21 : (⟨S_, .f32⟩ : BufTy).Contents (Elt F) :=
  constant S_ .f32 0x3DCCCCCD#32

def val_main_v79 : (⟨S_, .f32⟩ : BufTy).Contents (Elt F) :=
  mulf (val_main_cst_21 (F := F)) (val_main_v78 (F := F) x0 x1)

def val_main_v80 : (⟨S_, .f32⟩ : BufTy).Contents (Elt F) :=
  addf (val_main_v32 (F := F) x0 x1 x2) (val_main_v79 (F := F) x0 x1)

end Cert.ReferenceIdeal.ReadP

end
-- ==== Proof.NormRow.lean ====
import Mathlib.Analysis.Real.Sqrt
import Mathlib.Algebra.BigOperators.Fin
import Mathlib.Data.EReal.Basic

noncomputable section

namespace Cert.Spec

def normRow {n : Nat} (xr : Fin n → Fin 256 → ℝ) (i : Fin n) (k : Fin 256) : ℝ :=
  xr i k / Real.sqrt (∑ k', xr i k' * xr i k')

theorem coe_sum {ι : Type} (s : Finset ι) (f : ι → ℝ) :
    ((∑ k ∈ s, f k : ℝ) : EReal) = ∑ k ∈ s, ((f k : ℝ) : EReal) := by
  induction s using Finset.cons_induction with
  | empty => simp
  | cons a s ha ih => rw [Finset.sum_cons, Finset.sum_cons, EReal.coe_add, ih]

end Cert.Spec

end
-- ==== Proof.KI.RefNorm.lean ====
import proofs.«410009_j62173946577734_1_alg».proof.Proof.RefRead
import proofs.«410009_j62173946577734_1_alg».proof.Proof.NormRow
import Idealize.ShloMosaic.Lib.ValueIdx
import Idealize.ShloMosaic.PureOps.Ideal.Laws

noncomputable section

namespace Cert.KernelIdeal.Val

open Idealize.ShloMosaic Idealize.ShloMosaic.ValueIdx
open Cert.ReferenceIdeal.ReadP
open Cert.Spec (normRow coe_sum)
open scoped BigOperators

theorem norm_scalar (xr : Fin 256 → ℝ) (hpos : 0 < ∑ k, xr k * xr k) (a : ℝ) :
    Ideal.div (a : EReal) (Ideal.sqrt (Ideal.ofBits .f32 0x00000000#32 + ∑ k : Fin 256, (xr k : EReal) * (xr k : EReal)))
      = ((a / Real.sqrt (∑ k, xr k * xr k) : ℝ) : EReal) := by
  have hs : (Ideal.ofBits .f32 0x00000000#32 + ∑ k : Fin 256, (xr k : EReal) * (xr k : EReal))
      = ((∑ k, xr k * xr k : ℝ) : EReal) := by
    rw [Ideal.ofBits_zero_f32, zero_add, coe_sum]
    exact Finset.sum_congr rfl fun k _ => (EReal.coe_mul _ _).symm
  rw [hs, Ideal.sqrt_coe, if_neg (not_lt.mpr hpos.le)]
  have hne : Real.sqrt (∑ k, xr k * xr k) ≠ 0 := (Real.sqrt_pos.mpr hpos).ne'
  rw [Ideal.div_coe hne, ← EReal.coe_mul, mul_one_div]

theorem ref_norm_E (x : Cert.ReferenceIdeal.S4096x256.Idx → EReal) (xr : Fin 4096 → Fin 256 → ℝ)
    (hx : ∀ i k, x (ix2 i k) = ((xr i k : ℝ) : EReal)) (hxpos : ∀ i, 0 < ∑ k, xr i k * xr i k) (i : Fin 4096) (k : Fin 256) :
    val_main_v2 (F := Ideal) x (ix2 i k) = ((normRow xr i k : ℝ) : EReal) := by
  have e : ∀ k' : Fin 256, idx_main_call0_v1 (idx_main_call0_v2 (idx_main_v1 (ix2 i k))) k' = ix2 i k' := fun k' =>
    funext fun a => by match a with | ⟨0, _⟩ => rfl | ⟨1, _⟩ => rfl
  rw [val_main_v2_apply, val_main_v1_apply, val_main_v0_apply, val_main_call0_v2_apply, val_main_call0_v1_apply]
  simp only [val_main_call0_v0_apply, val_main_call0_cst_apply, e, hx]
  exact norm_scalar (xr i) (hxpos i) (xr i k)

theorem ref_norm_W (x : Cert.ReferenceIdeal.S20000x256.Idx → EReal) (wr : Fin 20000 → Fin 256 → ℝ)
    (hw : ∀ j k, x (ix2 j k) = ((wr j k : ℝ) : EReal)) (hwpos : ∀ j, 0 < ∑ k, wr j k * wr j k) (j : Fin 20000) (k : Fin 256) :
    val_main_v5 (F := Ideal) x (ix2 j k) = ((normRow wr j k : ℝ) : EReal) := by
  have e : ∀ k' : Fin 256, idx_main_call1_v1 (idx_main_call1_v2 (idx_main_v4 (ix2 j k))) k' = ix2 j k' := fun k' =>
    funext fun a => by match a with | ⟨0, _⟩ => rfl | ⟨1, _⟩ => rfl
  rw [val_main_v5_apply, val_main_v4_apply, val_main_v3_apply, val_main_call1_v2_apply, val_main_call1_v1_apply]
  simp only [val_main_call1_v0_apply, val_main_call1_cst_apply, e, hw]
  exact norm_scalar (wr j) (hwpos j) (wr j k)

end Cert.KernelIdeal.Val

end
-- ==== Proof.Spec.lean ====
import proofs.«410009_j62173946577734_1_alg».proof.Proof.NormRow
import Mathlib.Analysis.SpecialFunctions.Log.Basic
import Mathlib.Analysis.SpecialFunctions.Exp
import Mathlib.Algebra.BigOperators.Fin
import Mathlib.Order.Fin.Basic
import Mathlib.Data.Finset.Lattice.Fold

noncomputable section

namespace Cert.Spec

open Finset

def marginScale : ℝ := 75497475 / 8388608

variable (Er : Fin 4096 → Fin 256 → ℝ) (Wr : Fin 20000 → Fin 256 → ℝ) (lab : Fin 4096 → Fin 20000)

def cosR (i : Fin 4096) (j : Fin 20000) : ℝ := ∑ k : Fin 256, Er i k * Wr j k

def logitR (i : Fin 4096) (j : Fin 20000) : ℝ := cosR Er Wr i j * 30 - (if j = lab i then marginScale else 0)

def rowMaxR (i : Fin 4096) : ℝ := (univ : Finset (Fin 20000)).sup' ⟨0, mem_univ _⟩ (logitR Er Wr lab i)

def rowSumR (i : Fin 4096) : ℝ := ∑ j : Fin 20000, Real.exp (logitR Er Wr lab i j - rowMaxR Er Wr lab i)

def nllR (i : Fin 4096) : ℝ :=
  rowMaxR Er Wr lab i + Real.log (rowSumR Er Wr lab i) - logitR Er Wr lab i (lab i)

def amR : ℝ := (∑ i : Fin 4096, nllR Er Wr lab i) / 4096

theorem rowSumR_pos (i : Fin 4096) : 0 < rowSumR Er Wr lab i :=
  Finset.sum_pos (fun j _ => Real.exp_pos _) ⟨0, mem_univ _⟩

def simR (i j : Fin 4096) : ℝ := ∑ k : Fin 256, Er i k * Er j k

section Pairs
variable {α : Type} [DecidableEq α] (lbl : Fin 4096 → α)

def pairB (i j : Fin 4096) : Bool := decide (lbl i = lbl j) && decide (i < j)

def dsumR (i : Fin 4096) : ℝ := ∑ j : Fin 4096, if pairB lbl i j then 1 - simR Er i j else 0

def cntR (i : Fin 4096) : ℝ := ∑ j : Fin 4096, if pairB lbl i j then (1 : ℝ) else 0

end Pairs

end Cert.Spec

end
-- ==== Proof.RefValue.lean ====
import proofs.«410009_j62173946577734_1_alg».proof.Proof.RefRead
import proofs.«410009_j62173946577734_1_alg».proof.Proof.Spec
import Idealize.ShloMosaic.Lib.ValueIdx
import Idealize.ShloMosaic.Lib.ValueIdxRank1
import Idealize.ShloMosaic.Lib.StableHlo.Predicate
import Idealize.ShloMosaic.PureOps.Ideal.Laws
import Mathlib.Data.EReal.Inv
import Mathlib.Data.Finset.Fold
import Mathlib.Analysis.SpecialFunctions.Log.Basic
import Mathlib.Analysis.SpecialFunctions.Exp

noncomputable section

namespace Cert.ReferenceIdeal.RefValue

open Cert.ReferenceIdeal Cert.ReferenceIdeal.Gen Cert.ReferenceIdeal.ReadP Idealize.ShloMosaic Idealize.ShloMosaic.ValueIdx
open Idealize.ShloMosaic.StableHlo.Predicate (cmpi_eq_iff slt_iff_toNat toNat_reduce_count_cols toInt_eq_toNat_of_lt)
open Finset
open Cert.Spec (coe_sum)

theorem fold_max_coe {ι : Type} (s : Finset ι) (hs : s.Nonempty) (f : ι → ℝ) :
    s.fold max (⊥ : EReal) (fun k => ((f k : ℝ) : EReal)) = ((s.sup' hs f : ℝ) : EReal) := by
  apply le_antisymm
  · rw [Finset.fold_max_le]
    exact ⟨bot_le, fun k hk => EReal.coe_le_coe_iff.2 (Finset.le_sup' f hk)⟩
  · rw [Finset.le_fold_max]
    obtain ⟨k, hk, hk'⟩ := Finset.exists_mem_eq_sup' hs f
    exact Or.inr ⟨k, hk, by rw [hk']⟩

theorem uitofp_bit (b : BitVec 1) :
    (FloatOps.uitofp (F := Ideal) .f32 b : EReal) = (((if b = 1#1 then (1 : ℝ) else 0) : ℝ) : EReal) := by
  rcases BitVec.eq_zero_or_eq_one b with rfl | rfl
  · show (((0#1 : BitVec 1).toNat : ℝ) : EReal) = _
    simp
  · show (((1#1 : BitVec 1).toNat : ℝ) : EReal) = _
    simp

theorem ofBits_margin : Ideal.ofBits .f32 0x3E99999A#32 = (((10066330 : ℝ) / 33554432 : ℝ) : EReal) := by
  simp [Ideal.ofBits, Ideal.ieee, -EReal.coe_mul]; norm_num

theorem ofBits_thirty : Ideal.ofBits .f32 0x41F00000#32 = ((30 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_neg_inf : Ideal.ofBits .f32 0xFF800000#32 = ⊥ := by
  simp [Ideal.ofBits, Ideal.ieee]

variable (x : (⟨S4096x256, .f32⟩ : BufTy).Contents (Elt Ideal)) (l : (⟨S4096, .i32⟩ : BufTy).Contents (Elt Ideal))
  (w : (⟨S20000x256, .f32⟩ : BufTy).Contents (Elt Ideal))
  (Er : Fin 4096 → Fin 256 → ℝ) (Wr : Fin 20000 → Fin 256 → ℝ) (lab : Fin 4096 → Fin 20000)
  (hE : ∀ i k, val_main_v2 (F := Ideal) x (ix2 i k) = ((Er i k : ℝ) : EReal))
  (hW : ∀ j k, val_main_v5 (F := Ideal) w (ix2 j k) = ((Wr j k : ℝ) : EReal))
  (hL : ∀ i, l (ix1 i) = BitVec.ofNat 32 (lab i).val)

include hE hW in
theorem cos_apply (i : Fin 4096) (j : Fin 20000) :
    val_main_v7 (F := Ideal) x w (ix2 i j) = ((Spec.cosR Er Wr i j : ℝ) : EReal) := by
  rw [val_main_v7_apply, Spec.cosR, coe_sum]
  refine Finset.sum_congr rfl fun k _ => ?_
  rw [val_main_v6_apply, EReal.coe_mul, ← hE i k, ← hW j k]
  congr 2 <;> exact eq_ix2 _

theorem ofNat_class_inj (a b : Fin 20000) (h : BitVec.ofNat 32 a.val = BitVec.ofNat 32 b.val) : a = b := by
  have h' := congrArg BitVec.toNat h
  simp only [BitVec.toNat_ofNat] at h'
  have ha := a.isLt; have hb := b.isLt
  exact Fin.ext (by omega)

include hL in
theorem onehot_apply (i : Fin 4096) (j : Fin 20000) :
    val_main_v8 (F := Ideal) l (ix2 i j) = (((if j = lab i then (1 : ℝ) else 0) : ℝ) : EReal) := by
  rw [val_main_v8_apply, uitofp_bit, val_main_call2_v4_apply, val_main_call2_v2_apply, val_main_call2_v0_apply,
    val_main_call2_v3_apply, val_main_call2_v1_apply]
  have e1 : idx_main_call2_v0 (idx_main_call2_v2 (ix2 i j)) = ix1 i := eq_ix1 _
  have e2 : ((idx_main_call2_v3 (ix2 i j)) 1).val = j.val := rfl
  rw [e1, e2, hL i]
  congr 1
  by_cases h : j = lab i
  · rw [if_pos h, if_pos (cmpi_eq_iff.mpr (by rw [h]))]
  · rw [if_neg h, if_neg (fun hc => h (ofNat_class_inj _ _ (cmpi_eq_iff.mp hc)).symm)]

include hE hW hL in
theorem logit_apply (i : Fin 4096) (j : Fin 20000) :
    val_main_v13 (F := Ideal) x l w (ix2 i j) = ((Spec.logitR Er Wr lab i j : ℝ) : EReal) := by
  rw [val_main_v13_apply, val_main_v11_apply, val_main_v10_apply, val_main_v9_apply, val_main_v12_apply,
    val_main_cst_apply, val_main_cst_0_apply, cos_apply x w Er Wr hE hW, onehot_apply l lab hL]
  simp only [Ideal.mulf_def, Ideal.subf_def, Ideal.ofBits_def, ofBits_margin, ofBits_thirty]
  rw [← EReal.coe_mul, ← EReal.coe_sub, ← EReal.coe_mul]
  congr 1
  unfold Spec.logitR Spec.marginScale
  split_ifs <;> ring

theorem reduces_cls : S4096x20000.Reduces [1] S4096 := by decide

include hE hW hL in
theorem rowmax_apply (i : Fin 4096) :
    val_main_call3_v2 (F := Ideal) x l w (ix1 i) = ((Spec.rowMaxR Er Wr lab i : ℝ) : EReal) := by
  rw [val_main_call3_v2_apply, val_main_call3_v1_apply, val_main_call3_cst_0_apply]
  have h0 : val_main_call3_v0 (F := Ideal) x l w (ix1 i) = ((Spec.rowMaxR Er Wr lab i : ℝ) : EReal) := by
    unfold val_main_call3_v0
    rw [Host.reduce_eq_fold_single FloatOps.maximumf _ _ reducesTo_S4096x20000_S4096_d1 reduces_cls h_S_ (ix1 i)]
    have hf : (val_main_v13 (F := Ideal) x l w ∘ reduces_cls.lift (ix1 i))
        = fun k : Fin 20000 => ((Spec.logitR Er Wr lab i k : ℝ) : EReal) := by
      funext k
      rw [← logit_apply x l w Er Wr lab hE hW hL i k]
      exact congrArg (val_main_v13 (F := Ideal) x l w)
        (funext fun a => Fin.ext (by match a with | ⟨0, _⟩ => rfl | ⟨1, _⟩ => rfl))
    rw [hf, val_main_call3_cst_apply]
    show Finset.fold max (Ideal.ofBits .f32 0xFF800000#32) _ _ = _
    rw [ofBits_neg_inf]
    exact fold_max_coe _ _ _
  rw [h0]
  show max (Ideal.ofBits .f32 0xFF800000#32) _ = _
  rw [ofBits_neg_inf]
  exact max_eq_right bot_le

include hE hW hL in
theorem shifted_apply (i : Fin 4096) (j : Fin 20000) :
    val_main_call3_v5 (F := Ideal) x l w (ix2 i j)
      = ((Spec.logitR Er Wr lab i j - Spec.rowMaxR Er Wr lab i : ℝ) : EReal) := by
  rw [val_main_call3_v5_apply, val_main_call3_v4_apply, val_main_call3_v3_apply, logit_apply x l w Er Wr lab hE hW hL]
  have e : idx_main_call3_v3 (idx_main_call3_v4 (ix2 i j)) = ix1 i := eq_ix1 _
  rw [e, rowmax_apply x l w Er Wr lab hE hW hL, Ideal.subf_def, EReal.coe_sub]

include hE hW hL in
theorem rowsum_apply (i : Fin 4096) :
    val_main_call3_v7 (F := Ideal) x l w (ix1 i) = ((Spec.rowSumR Er Wr lab i : ℝ) : EReal) := by
  rw [val_main_call3_v7_apply, val_main_call3_cst_1_apply, Ideal.ofBits_def, Ideal.ofBits_zero_f32, zero_add,
    Spec.rowSumR, coe_sum]
  refine Finset.sum_congr rfl fun k _ => ?_
  have e : idx_main_call3_v7 (ix1 i) k = ix2 i k := eq_ix2 _
  rw [e, val_main_call3_v6_apply, shifted_apply x l w Er Wr lab hE hW hL, Ideal.hostUnary_exp_def, Ideal.exp_coe]

include hE hW hL in
theorem lsm_apply (i : Fin 4096) (j : Fin 20000) :
    val_main_v14 (F := Ideal) x l w (ix2 i j)
      = ((Spec.logitR Er Wr lab i j - Spec.rowMaxR Er Wr lab i - Real.log (Spec.rowSumR Er Wr lab i) : ℝ) : EReal) := by
  rw [val_main_v14_apply, val_main_call3_v10_apply, val_main_call3_v9_apply, val_main_call3_v8_apply,
    shifted_apply x l w Er Wr lab hE hW hL]
  have e : idx_main_call3_v8 (idx_main_call3_v10 (ix2 i j)) = ix1 i := eq_ix1 _
  rw [e, rowsum_apply x l w Er Wr lab hE hW hL, Ideal.hostUnary_log_def, Ideal.log_coe,
    if_neg (not_le.mpr (Spec.rowSumR_pos Er Wr lab i)), Ideal.subf_def, ← EReal.coe_sub]

theorem toInt_toNat_small (a : Nat) (ha : a < 2 ^ 31) : (BitVec.ofNat 32 a).toInt.toNat = a := by
  rw [Idealize.ShloMosaic.StableHlo.Predicate.toInt_ofNat_small a ha]; exact Int.toNat_natCast a

theorem slt_zero_small (a : Nat) (ha : a < 2 ^ 31) : IntOp.cmpi .slt (BitVec.ofNat 32 a) 0#32 = 0#1 := by
  refine eq_zero_of_ne_one fun h => ?_
  have h' := (slt_iff_toNat (a := BitVec.ofNat 32 a) (b := 0#32)
    (by rw [BitVec.toNat_ofNat]; exact lt_of_le_of_lt (Nat.mod_le _ _) ha) (by decide)).mp h
  simp at h'

theorem idx_col0 (i : Fin 4096) : val_main_v28 (F := Ideal) l (ix2 i (0 : Fin 2)) = BitVec.ofNat 32 i.val := by
  unfold val_main_v28
  rw [concatenate_pair_apply_left (1 : Fin S4096x2.rank) _ _ concatenates_S4096x1_S4096x1_S4096x2_d1
    (ix2 i (0 : Fin 2)) rfl (ix2 i (0 : Fin 1)) (fun b => by match b with | ⟨0, _⟩ => rfl | ⟨1, _⟩ => rfl)]
  rw [val_main_v26_apply, val_main_v20_apply, val_main_v17_apply, val_main_v15_apply, val_main_v16_apply,
    val_main_c_apply]
  have e : ((idx_main_v26 (ix2 i (0 : Fin 1))) 0).val = i.val := rfl
  rw [e, slt_zero_small i.val (by have := i.isLt; omega), select_zero]

include hL in
theorem idx_col1 (i : Fin 4096) :
    val_main_v28 (F := Ideal) l (ix2 i (1 : Fin 2)) = BitVec.ofNat 32 (lab i).val := by
  unfold val_main_v28
  rw [concatenate_pair_apply_right (1 : Fin S4096x2.rank) _ _ concatenates_S4096x1_S4096x1_S4096x2_d1
    (ix2 i (1 : Fin 2)) rfl rfl (ix2 i (0 : Fin 1))
    (fun b => by match b with | ⟨0, _⟩ => exact fun _ => rfl | ⟨1, _⟩ => exact fun h => absurd rfl h) rfl]
  rw [val_main_v27_apply, val_main_v25_apply, val_main_v22_apply, val_main_v21_apply, val_main_c_2_apply]
  have e : idx_main_v27 (ix2 i (0 : Fin 1)) = ix1 i := eq_ix1 _
  rw [e, hL i, slt_zero_small (lab i).val (by have := (lab i).isLt; omega), select_zero]

theorem gather_coord (idx : (⟨S4096x2, .i32⟩ : BufTy).Contents (Elt Ideal)) (i : Fin 4096) (a : Fin S4096x20000.rank) (b : Fin 2)
    (v : Nat) (hv : v < 2 ^ 31) (hle : v ≤ S4096x20000.size a - gather_S4096x20000_S4096x2_S4096_n_01_n_n_01_1_11.sliceSizes a) (hc : a ∈ gather_S4096x20000_S4096x2_S4096_n_01_n_n_01_1_11.collapsedSliceDims)
    (hm : a ∈ gather_S4096x20000_S4096x2_S4096_n_01_n_n_01_1_11.startIndexMap)
    (hsi : gather_S4096x20000_S4096x2_S4096_n_01_n_n_01_1_11.siIdx (ix1 i) ⟨List.idxOf a gather_S4096x20000_S4096x2_S4096_n_01_n_n_01_1_11.startIndexMap, List.idxOf_lt_length_iff.2 hm⟩ = ix2 i b)
    (h : idx (ix2 i b) = BitVec.ofNat 32 v) :
    (gather_S4096x20000_S4096x2_S4096_n_01_n_n_01_1_11.operandIdx (ix1 i) idx a).val = v := by
  show gather_S4096x20000_S4096x2_S4096_n_01_n_n_01_1_11.start (ix1 i) idx a + gather_S4096x20000_S4096x2_S4096_n_01_n_n_01_1_11.batchCoord (ix1 i) a + gather_S4096x20000_S4096x2_S4096_n_01_n_n_01_1_11.offCoord (ix1 i) a = _
  rw [GatherDims.batchCoord_eq_zero _ _ _ List.not_mem_nil,
    GatherDims.offCoord_eq_zero _ _ _ (fun h => ((GatherDims.mem_sKept _ _).mp h).1 hc)]
  simp only [Nat.add_zero]
  unfold GatherDims.start
  rw [dif_pos hm, hsi, h, toInt_toNat_small v hv]
  exact Nat.min_eq_left hle

theorem gather_idx (idx : (⟨S4096x2, .i32⟩ : BufTy).Contents (Elt Ideal)) (i : Fin 4096) (c : Fin 20000)
    (h0 : idx (ix2 i (0 : Fin 2)) = BitVec.ofNat 32 i.val) (h1 : idx (ix2 i (1 : Fin 2)) = BitVec.ofNat 32 c.val) :
    gather_S4096x20000_S4096x2_S4096_n_01_n_n_01_1_11.operandIdx (ix1 i) idx = ix2 i c := by
  funext a
  refine Fin.ext ?_
  have := i.isLt; have := c.isLt
  match a with
  | ⟨0, _⟩ => exact gather_coord idx i 0 0 i.val (by omega) (by show i.val ≤ 4096 - 1; omega) (by decide) (by decide) (eq_ix2 _) h0
  | ⟨1, _⟩ => exact gather_coord idx i 1 1 c.val (by omega) (by show c.val ≤ 20000 - 1; omega) (by decide) (by decide) (eq_ix2 _) h1

include hE hW hL in
theorem ref_nll (i : Fin 4096) :
    val_main_v29 (F := Ideal) x l w (ix1 i) = ((-(Spec.nllR Er Wr lab i) : ℝ) : EReal) := by
  unfold val_main_v29
  show val_main_v14 (F := Ideal) x l w
    (gather_S4096x20000_S4096x2_S4096_n_01_n_n_01_1_11.operandIdx (ix1 i) (val_main_v28 (F := Ideal) l)) = _
  rw [gather_idx (val_main_v28 (F := Ideal) l) i (lab i) (idx_col0 l i) (idx_col1 l lab hL i),
    lsm_apply x l w Er Wr lab hE hW hL]
  congr 1
  unfold Spec.nllR
  ring

include hE hW hL in
theorem ref_am :
    val_main_v32 (F := Ideal) x l w ix0 = ((Spec.amR Er Wr lab : ℝ) : EReal) := by
  rw [val_main_v32_apply, val_main_v31_apply, val_main_v30_apply, val_main_cst_4_apply, val_main_cst_5_apply]
  simp only [Ideal.hostNegf_def, Ideal.negf_def, Ideal.hostDivf_def, Ideal.ofBits_def, Ideal.ofBits_zero_f32, zero_add,
    ofBits_4096]
  rw [Ideal.div_coe (by norm_num : (4096 : ℝ) ≠ 0), ← Equiv.sum_comp (idxEquiv1 (n := 4096)).symm]
  have hs : ∀ i : Fin 4096, val_main_v29 (F := Ideal) x l w ((idxEquiv1 (n := 4096)).symm i)
      = (((fun i => -(Spec.nllR Er Wr lab i)) i : ℝ) : EReal) := fun i => ref_nll x l w Er Wr lab hE hW hL i
  rw [Finset.sum_congr rfl (fun i _ => hs i), ← coe_sum, ← EReal.coe_mul, ← EReal.coe_neg]
  congr 1
  unfold Spec.amR
  rw [Finset.sum_neg_distrib]
  ring

include hE in
theorem sim_apply (i j : Fin 4096) :
    val_main_v34 (F := Ideal) x (ix2 i j) = ((Spec.simR Er i j : ℝ) : EReal) := by
  rw [val_main_v34_apply, Spec.simR, coe_sum]
  refine Finset.sum_congr rfl fun k _ => ?_
  rw [val_main_v33_apply, EReal.coe_mul, ← hE i k, ← hE j k]
  congr 2 <;> exact eq_ix2 _

theorem andi_eq_one_iff (a b : BitVec 1) : IntOp.andi a b = 1#1 ↔ a = 1#1 ∧ b = 1#1 := by
  rcases BitVec.eq_zero_or_eq_one a with rfl | rfl <;> rcases BitVec.eq_zero_or_eq_one b with rfl | rfl <;> decide

theorem slt_row_iff (i j : Fin 4096) :
    IntOp.cmpi .slt (BitVec.ofNat 32 i.val) (BitVec.ofNat 32 j.val) = 1#1 ↔ i < j := by
  have hi := i.isLt; have hj := j.isLt
  have ei : (BitVec.ofNat 32 i.val).toNat = i.val := by rw [BitVec.toNat_ofNat]; omega
  have ej : (BitVec.ofNat 32 j.val).toNat = j.val := by rw [BitVec.toNat_ofNat]; omega
  rw [slt_iff_toNat (by omega) (by omega), ei, ej]
  exact Fin.lt_def.symm

theorem mask_apply (i j : Fin 4096) :
    val_main_v48 (F := Ideal) l (ix2 i j) = 1#1 ↔ Spec.pairB (fun i => l (ix1 i)) i j = true := by
  rw [val_main_v48_apply, val_main_v42_apply, val_main_v47_apply, val_main_v40_apply, val_main_v41_apply,
    val_main_v38_apply, val_main_v39_apply, val_main_v45_apply, val_main_v46_apply, val_main_v43_apply,
    val_main_v44_apply, val_main_v37_apply, val_main_v37_apply]
  have e1 : idx_main_v38 (idx_main_v40 (ix2 i j)) = ix1 i := eq_ix1 _
  have e2 : idx_main_v39 (idx_main_v41 (ix2 i j)) = ix1 j := eq_ix1 _
  have e3 : ((idx_main_v43 (idx_main_v45 (ix2 i j))) 0).val = i.val := rfl
  have e4 : ((idx_main_v44 (idx_main_v46 (ix2 i j))) 0).val = j.val := rfl
  rw [e1, e2, e3, e4, andi_eq_one_iff, cmpi_eq_iff, slt_row_iff]
  simp [Spec.pairB]

include hE in
theorem dterm_apply (i j : Fin 4096) :
    val_main_v50 (F := Ideal) x l (ix2 i j)
      = (((if Spec.pairB (fun i => l (ix1 i)) i j then 1 - Spec.simR Er i j else 0) : ℝ) : EReal) := by
  rw [val_main_v50_apply, val_main_v36_apply, val_main_v35_apply, val_main_cst_6_apply, val_main_v49_apply, uitofp_bit,
    sim_apply x Er hE]
  simp only [Ideal.mulf_def, Ideal.subf_def, Ideal.ofBits_def, ofBits_one]
  rw [← EReal.coe_sub, ← EReal.coe_mul]
  congr 1
  by_cases h : Spec.pairB (fun i => l (ix1 i)) i j = true
  · rw [if_pos ((mask_apply l i j).mpr h), if_pos h, mul_one]
  · rw [if_neg (fun hc => h ((mask_apply l i j).mp hc)), if_neg h, mul_zero]

include hE in
theorem ref_dsum (i : Fin 4096) :
    val_main_v51 (F := Ideal) x l (ix1 i) = ((Spec.dsumR Er (fun i => l (ix1 i)) i : ℝ) : EReal) := by
  rw [val_main_v51_apply, val_main_cst_7_apply, Ideal.ofBits_def, Ideal.ofBits_zero_f32, zero_add, Spec.dsumR, coe_sum]
  refine Finset.sum_congr rfl fun k _ => ?_
  have e : idx_main_v51 (ix1 i) k = ix2 i k := eq_ix2 _
  rw [e, dterm_apply x l Er hE]

theorem ref_cnt (i : Fin 4096) :
    val_main_v54 (F := Ideal) l (ix1 i) = ((Spec.cntR (fun i => l (ix1 i)) i : ℝ) : EReal) := by
  rw [val_main_v54_apply]
  show (((val_main_v53 (F := Ideal) l (ix1 i)).toInt : ℝ) : EReal) = _
  have hij : ∀ q : Fin 4096, Idealize.ShloMosaic.StableHlo.Predicate.ij ((ix1 i : S4096.Idx) 0) q = ix2 i q := fun q => eq_ix2 _
  have hc : (val_main_v53 (F := Ideal) l (ix1 i)).toNat
      = (Finset.univ.filter (fun q : Fin 4096 => Spec.pairB (fun i => l (ix1 i)) i q = true)).card := by
    unfold val_main_v53 val_main_v52 val_main_c_8
    rw [toNat_reduce_count_cols (by norm_num) (val_main_v48 (F := Ideal) l) natLt_1_32 reducesTo_S4096x4096_S4096_d1 h_S_
      (ix1 i)]
    simp only [hij]
    exact congrArg Finset.card (Finset.filter_congr (fun q _ => mask_apply l i q))
  have hlt : (val_main_v53 (F := Ideal) l (ix1 i)).toNat < 2 ^ 31 := by
    rw [hc]
    exact lt_of_le_of_lt (Finset.card_le_univ _) (by simp)
  rw [toInt_eq_toNat_of_lt hlt, hc, Int.cast_natCast, Spec.cntR, Finset.sum_boole]

def tailR (dsum cnt : (⟨S4096, .f32⟩ : BufTy).Contents (Elt Ideal)) (l : (⟨S4096, .i32⟩ : BufTy).Contents (Elt Ideal)) :
    (⟨S_, .f32⟩ : BufTy).Contents (Elt Ideal) :=
  let zeros : (⟨S20000, .f32⟩ : BufTy).Contents (Elt Ideal) := broadcastInDim S20000 ![] bcast_S_S20000 (constant (F := Ideal) S_ .f32 0x00000000#32)
  let lcol : (⟨S4096x1, .i32⟩ : BufTy).Contents (Elt Ideal) := broadcastInDim S4096x1 ![0] bcast_S4096_S4096x1_0 l
  let dcls := Host.scatterAdd (F := Ideal) scatter_S20000_S4096x1_S4096_n_0_0_1 zeros lcol dsum
  let ccls := Host.scatterAdd (F := Ideal) scatter_S20000_S4096x1_S4096_n_0_0_1 zeros lcol cnt
  let has : (⟨S20000, .i1⟩ : BufTy).Contents (Elt Ideal) := cmpf (F := Ideal) .ogt ccls zeros
  let ones : (⟨S20000, .f32⟩ : BufTy).Contents (Elt Ideal) := broadcastInDim S20000 ![] bcast_S_S20000 (constant (F := Ideal) S_ .f32 0x3F800000#32)
  let halves : (⟨S20000, .f32⟩ : BufTy).Contents (Elt Ideal) := broadcastInDim S20000 ![] bcast_S_S20000 (constant (F := Ideal) S_ .f32 0x3F000000#32)
  let mean := select has (Host.divf (F := Ideal) dcls (maximumf (F := Ideal) ccls ones)) (broadcastInDim S20000 ![] bcast_S_S20000 (id (constant (F := Ideal) S_ .f32 0x00000000#32)))
  let hinge := select has (maximumf (F := Ideal) (subf (F := Ideal) mean halves) zeros) (broadcastInDim S20000 ![] bcast_S_S20000 (id (constant (F := Ideal) S_ .f32 0x00000000#32)))
  let ncls : (⟨S_, .f32⟩ : BufTy).Contents (Elt Ideal) :=
    sitofp (F := Ideal) .f32 (Host.reduce IntOp.addi (extui 32 has natLt_1_32) (constantI S_ 32 0#32) reducesTo_S20000_S_d0 h_S_)
  select (cmpf (F := Ideal) .ogt ncls (constant (F := Ideal) S_ .f32 0x00000000#32))
    (Host.divf (F := Ideal) (Host.reduceAdd (F := Ideal) hinge (constant (F := Ideal) S_ .f32 0x00000000#32) reducesTo_S20000_S_d0 h_S_)
      (maximumf (F := Ideal) ncls (constant (F := Ideal) S_ .f32 0x3F800000#32)))
    (id (constant (F := Ideal) S_ .f32 0x00000000#32))

theorem ref_intra : val_main_v78 (F := Ideal) x l = tailR (val_main_v51 (F := Ideal) x l) (val_main_v54 (F := Ideal) l) l :=
  rfl

theorem ref_total : val_main_v80 (F := Ideal) x l w
    = addf (F := Ideal) (val_main_v32 (F := Ideal) x l w)
        (mulf (F := Ideal) (constant (F := Ideal) S_ .f32 0x3DCCCCCD#32) (val_main_v78 (F := Ideal) x l)) :=
  rfl

end Cert.ReferenceIdeal.RefValue

end
-- ==== Proof.KI.HostRead.lean ====
import proofs.«410009_j62173946577734_1_alg».proof.Proof.Gen.KernelIdeal.Regions
import proofs.«410009_j62173946577734_1_alg».proof.Proof.KI.RefNorm
import proofs.«410009_j62173946577734_1_alg».proof.Proof.RefValue
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.ShloMosaic.StableHlo
open Idealize.SL.Sem
open Cert.Spec (normRow coe_sum)
open scoped BigOperators

def meanK (nll : S4096x1.Idx → EReal) : S_.Idx → EReal :=
  Host.divf (F := Ideal) (φ := .f32)
    (Host.reduceAdd (F := Ideal) (φ := .f32) nll (constant (F := Ideal) S_ .f32 0x00000000#32) reducesTo_S4096x1_S_d0_1 h_S_)
    (constant (F := Ideal) S_ .f32 0x45800000#32)

variable (m : (ℓ : Loc nD τ sig) → Buf (Elt Ideal) ℓ) (outs : Gen.Outs (F := Ideal)) (c : Dev nD)

theorem V5_main_arg1 : Gen.V5 m c main_arg1 = m ((c : Thread nD τ).loc main_arg1) :=
  (Gen.V5_of m c main_arg1 (by decide)).trans <| (Gen.V4_of m c main_arg1 (by decide)).trans <|
  (Gen.V3_of m c main_arg1 (by decide)).trans <| (Gen.V2_of m c main_arg1 (by decide)).trans
  (Gen.V1_of m c main_arg1 (by decide))

theorem V7_main_arg1 : Gen.V7 m outs c main_arg1 = m ((c : Thread nD τ).loc main_arg1) :=
  (Gen.V7_of m outs c main_arg1 (by decide)).trans <| (Gen.V6_of m c main_arg1 (by decide)).trans (V5_main_arg1 m c)

theorem V9_main_arg1 : Gen.V9 m outs c main_arg1 = m ((c : Thread nD τ).loc main_arg1) :=
  (Gen.V9_of m outs c main_arg1 (by decide)).trans <| (Gen.V8_of m outs c main_arg1 (by decide)).trans
  (V7_main_arg1 m outs c)

theorem shapeCast_col_apply {α : Type} (x : S4096.Idx → α) (i : Fin 4096) :
    shapeCast S4096x1 x shapeCasts_S4096_S4096x1 (ix2 i 0) = x (ix1 i) :=
  shapeCast_apply x _ (ix2 i 0) (ix1 i) (by
    rw [Shape.rowMajor_val_one, Shape.rowMajor_val_two]; show i.val = i.val * 1 + 0; omega)

theorem shapeCast_row_apply {α : Type} (x : S4096.Idx → α) (j : Fin 4096) :
    shapeCast S1x4096 x shapeCasts_S4096_S1x4096 (ix2 0 j) = x (ix1 j) :=
  shapeCast_apply x _ (ix2 0 j) (ix1 j) (by
    rw [Shape.rowMajor_val_one, Shape.rowMajor_val_two]; show j.val = 0 * 4096 + j.val; omega)

theorem V6_main_v6_eq : (Gen.V6 m c main_v6 : S4096x256.Idx → EReal)
    = Cert.ReferenceIdeal.ReadP.val_main_v2 (F := Ideal) (m ((c : Thread nD τ).loc main_arg0)) := by
  refine ((Gen.V6_of m c main_v6 (by decide)).trans (Gen.V5_of m c main_v6 (by decide))).trans ?_
  show StableHlo.after Gen.hostOps0_3 (StableHlo.after Gen.hostOps0_2 (StableHlo.after Gen.hostOps0_1
    (StableHlo.after Gen.hostOps0 (Gen.V0 m c)))) (Proc.devRef .tc main_v6) = _
  after_results
  rfl

theorem V6_main_v6 (xr : Fin 4096 → Fin 256 → ℝ)
    (hx : ∀ i k, (m ((c : Thread nD τ).loc main_arg0) : S4096x256.Idx → EReal) (ix2 i k) = ((xr i k : ℝ) : EReal))
    (hxpos : ∀ i, 0 < ∑ k, xr i k * xr i k) (i : Fin 4096) (k : Fin 256) :
    (Gen.V6 m c main_v6 : S4096x256.Idx → EReal) (ix2 i k) = ((normRow xr i k : ℝ) : EReal) :=
  (congrFun (V6_main_v6_eq m c) (ix2 i k)).trans (ref_norm_E _ xr hx hxpos i k)

theorem V6_main_v8_eq : (Gen.V6 m c main_v8 : S20480x256.Idx → EReal)
    = pad S20480x256 ![0, 0] ![480, 0] ![0, 0]
        (Cert.ReferenceIdeal.ReadP.val_main_v5 (F := Ideal) (m ((c : Thread nD τ).loc main_arg2)))
        (sitofp (F := Ideal) .bf16 (constantI S_ 32 0#32)) pads_S20000x256_S20480x256_04800_000 h_S_ := by
  refine (Gen.V6_of m c main_v8 (by decide)).trans ?_
  have h7 : (Gen.V4 m c main_v7 : S20000x256.Idx → EReal)
      = Cert.ReferenceIdeal.ReadP.val_main_v5 (F := Ideal) (m ((c : Thread nD τ).loc main_arg2)) := by
    show StableHlo.after Gen.hostOps0_3 (StableHlo.after Gen.hostOps0_2 (StableHlo.after Gen.hostOps0_1
      (StableHlo.after Gen.hostOps0 (Gen.V0 m c)))) (Proc.devRef .tc main_v7) = _
    after_results
    rfl
  have hc : (Gen.V4 m c main_c : S_.Idx → BitVec 32) = constantI S_ 32 0#32 := by
    show StableHlo.after Gen.hostOps0_3 (Gen.V3 m c) (Proc.devRef .tc main_c) = _
    generalize Gen.V3 m c = W3
    after_results
  show StableHlo.after Gen.hostOps0_4 (Gen.V4 m c) (Proc.devRef .tc main_v8) = _
  generalize Gen.V4 m c = W at h7 hc ⊢
  after_results
  simp only [StableHlo.TRef.ofBuf, StableHlo.TRef.toBuf, cast_eq]
  rw [h7, hc]

theorem V6_main_v8 (wr : Fin 20000 → Fin 256 → ℝ)
    (hw : ∀ j k, (m ((c : Thread nD τ).loc main_arg2) : S20000x256.Idx → EReal) (ix2 j k) = ((wr j k : ℝ) : EReal))
    (hwpos : ∀ j, 0 < ∑ k, wr j k * wr j k) (j : Fin 20480) (k : Fin 256) :
    (Gen.V6 m c main_v8 : S20480x256.Idx → EReal) (ix2 j k)
      = if h : j.val < 20000 then ((normRow wr ⟨j.val, h⟩ k : ℝ) : EReal) else 0 := by
  refine (congrFun (V6_main_v8_eq m c) (ix2 j k)).trans ?_
  by_cases h : j.val < 20000
  · rw [dif_pos h]
    refine (pad_apply_of_inside (s := S20000x256) (t := S20480x256) ![0, 0] ![480, 0] ![0, 0] _ _ pads_S20000x256_S20480x256_04800_000 h_S_ (ix2 j k)
      (ix2 ⟨j.val, h⟩ k) (fun a => ?_)).trans (ref_norm_W _ wr hw hwpos ⟨j.val, h⟩ k)
    match a with
    | ⟨0, _⟩ => show j.val = 0 + j.val * (0 + 1); omega
    | ⟨1, _⟩ => show k.val = 0 + k.val * (0 + 1); omega
  · rw [dif_neg h]
    refine (pad_apply_of_not_inside (s := S20000x256) (t := S20480x256) ![0, 0] ![480, 0] ![0, 0] _ _
      pads_S20000x256_S20480x256_04800_000 h_S_ (ix2 j k) (0 : Fin 2) (fun hin => h ?_)).trans ?_
    · have h3 : (j.val - 0) / (0 + 1) < 20000 := hin.2.2
      omega
    · show (((((0#32 : BitVec 32).toInt : ℤ) : ℝ)) : EReal) = 0
      simp

theorem V6_main_v9 (i : Fin 4096) :
    (Gen.V6 m c main_v9 : S4096x1.Idx → BitVec 32) (ix2 i 0)
      = (m ((c : Thread nD τ).loc main_arg1) : S4096.Idx → BitVec 32) (ix1 i) := by
  have e : (Gen.V6 m c main_v9 : S4096x1.Idx → BitVec 32)
      = shapeCast S4096x1 (m ((c : Thread nD τ).loc main_arg1) : S4096.Idx → BitVec 32) shapeCasts_S4096_S4096x1 := by
    have hA := V5_main_arg1 m c
    show StableHlo.after Gen.hostOps0_5 (Gen.V5 m c) (Proc.devRef .tc main_v9) = _
    generalize Gen.V5 m c = W at hA ⊢
    after_results
    rw [hA]; rfl
  rw [e]; exact shapeCast_col_apply _ i

theorem V8_main_v6 : Gen.V8 m outs c main_v6 = Gen.V6 m c main_v6 :=
  (Gen.V8_of m outs c main_v6 (by decide)).trans (Gen.V7_of m outs c main_v6 (by decide))

theorem V8_main_v6_real (xr : Fin 4096 → Fin 256 → ℝ)
    (hx : ∀ i k, (m ((c : Thread nD τ).loc main_arg0) : S4096x256.Idx → EReal) (ix2 i k) = ((xr i k : ℝ) : EReal))
    (hxpos : ∀ i, 0 < ∑ k, xr i k * xr i k) (i : Fin 4096) (k : Fin 256) :
    (Gen.V8 m outs c main_v6 : S4096x256.Idx → EReal) (ix2 i k) = ((normRow xr i k : ℝ) : EReal) :=
  (congrFun (V8_main_v6 m outs c) (ix2 i k)).trans (V6_main_v6 m c xr hx hxpos i k)

theorem V8_main_v13 (i : Fin 4096) :
    (Gen.V8 m outs c main_v13 : S4096x1.Idx → BitVec 32) (ix2 i 0)
      = (m ((c : Thread nD τ).loc main_arg1) : S4096.Idx → BitVec 32) (ix1 i) := by
  have e : (Gen.V8 m outs c main_v13 : S4096x1.Idx → BitVec 32)
      = shapeCast S4096x1 (m ((c : Thread nD τ).loc main_arg1) : S4096.Idx → BitVec 32) shapeCasts_S4096_S4096x1 := by
    have hA := V7_main_arg1 m outs c
    show StableHlo.after Gen.hostOps1 (Gen.V7 m outs c) (Proc.devRef .tc main_v13) = _
    generalize Gen.V7 m outs c = W at hA ⊢
    after_results
    rw [hA]; rfl
  rw [e]; exact shapeCast_col_apply _ i

theorem V8_main_v14 (j : Fin 4096) :
    (Gen.V8 m outs c main_v14 : S1x4096.Idx → BitVec 32) (ix2 0 j)
      = (m ((c : Thread nD τ).loc main_arg1) : S4096.Idx → BitVec 32) (ix1 j) := by
  have e : (Gen.V8 m outs c main_v14 : S1x4096.Idx → BitVec 32)
      = shapeCast S1x4096 (m ((c : Thread nD τ).loc main_arg1) : S4096.Idx → BitVec 32) shapeCasts_S4096_S1x4096 := by
    have hA := V7_main_arg1 m outs c
    show StableHlo.after Gen.hostOps1 (Gen.V7 m outs c) (Proc.devRef .tc main_v14) = _
    generalize Gen.V7 m outs c = W at hA ⊢
    after_results
    rw [hA]; rfl
  rw [e]; exact shapeCast_row_apply _ j

theorem V18_main_v12 :
    (Gen.V18 m outs c main_v12 : S_.Idx → EReal) = meanK (outs 7 main_v10 c : S4096x1.Idx → EReal) := by
  refine ((Gen.V18_of m outs c main_v12 (by decide)).trans <| (Gen.V17_of m outs c main_v12 (by decide)).trans <|
    (Gen.V16_of m outs c main_v12 (by decide)).trans <| (Gen.V15_of m outs c main_v12 (by decide)).trans <|
    (Gen.V14_of m outs c main_v12 (by decide)).trans <| (Gen.V13_of m outs c main_v12 (by decide)).trans <|
    (Gen.V12_of m outs c main_v12 (by decide)).trans <| (Gen.V11_of m outs c main_v12 (by decide)).trans <|
    (Gen.V10_of m outs c main_v12 (by decide)).trans (Gen.V9_of m outs c main_v12 (by decide))).trans ?_
  have hA : Gen.V7 m outs c main_v10 = outs 7 main_v10 c := Function.update_self _ _ _
  show StableHlo.after Gen.hostOps1 (Gen.V7 m outs c) (Proc.devRef .tc main_v12) = _
  generalize Gen.V7 m outs c = W at hA ⊢
  after_results
  rw [hA]; rfl

theorem ofBits_4096_f32 : Ideal.ofBits .f32 0x45800000#32 = ((4096 : ℝ) : EReal) := by
  simp [Ideal.ofBits, Ideal.ieee, -EReal.coe_mul]; norm_num

theorem meanK_real (nll : S4096x1.Idx → EReal) (f : Fin 4096 → ℝ) (h : ∀ i, nll (ix2 i 0) = ((f i : ℝ) : EReal)) :
    meanK nll ix0 = (((∑ i, f i) / 4096 : ℝ) : EReal) := by
  have hsum : (∑ i : S4096x1.Idx, nll i) = ((∑ i, f i : ℝ) : EReal) := by
    rw [sum_idx2, coe_sum]
    refine Finset.sum_congr rfl fun a _ => ?_
    rw [Fin.sum_univ_one]; exact h a
  unfold meanK
  simp only [Host.divf, Host.reduceAdd, Ideal.hostReduceAdd_def, Ideal.hostDivf_def, constant_apply]
  rw [Ideal.hostReduceAdd_total reducesTo_S4096x1_S_d0_1 (fun b => b.elim0), hsum, Ideal.ofBits_zero_f32, zero_add,
    ofBits_4096_f32, Ideal.div_coe (by norm_num), ← EReal.coe_mul, mul_one_div]

theorem V18_main_v41 :
    (Gen.V18 m outs c main_v41 : S_.Idx → EReal)
      = Cert.ReferenceIdeal.RefValue.tailR (shapeCast S4096 (outs 9 main_v15_0 c : S4096x1.Idx → EReal) shapeCasts_S4096x1_S4096)
          (shapeCast S4096 (outs 9 main_v15_1 c : S4096x1.Idx → EReal) shapeCasts_S4096x1_S4096)
          (m ((c : Thread nD τ).loc main_arg1) : S4096.Idx → BitVec 32) := by
  refine (Gen.V18_of m outs c main_v41 (by decide)).trans ?_
  have hA0 : Gen.V9 m outs c main_v15_0 = outs 9 main_v15_0 c :=
    (Function.update_of_ne (StableHlo.devRef_ne_of_ne (by decide) :
      (Proc.devRef .tc main_v15_0 : DevRef τ sig) ≠ Proc.devRef .tc main_v15_1) _ _).trans (Function.update_self _ _ _)
  have hA1 : Gen.V9 m outs c main_v15_1 = outs 9 main_v15_1 c := Function.update_self _ _ _
  have hL := V9_main_arg1 m outs c
  show StableHlo.after Gen.hostOps2_7 (StableHlo.after Gen.hostOps2_6 (StableHlo.after Gen.hostOps2_5
    (StableHlo.after Gen.hostOps2_4 (StableHlo.after Gen.hostOps2_3 (StableHlo.after Gen.hostOps2_2
    (StableHlo.after Gen.hostOps2_1 (StableHlo.after Gen.hostOps2 (Gen.V9 m outs c))))))))
    (Proc.devRef .tc main_v41) = _
  generalize Gen.V9 m outs c = W at hA0 hA1 hL ⊢
  after_results_simp
  rw [hA0, hA1, hL]; rfl

theorem V18_main_v43 :
    (Gen.V18 m outs c main_v43 : S_.Idx → EReal)
      = addf (F := Ideal) (φ := .f32) (Gen.V18 m outs c main_v12 : S_.Idx → EReal)
          (mulf (F := Ideal) (φ := .f32) (constant (F := Ideal) S_ .f32 0x3DCCCCCD#32) (Gen.V18 m outs c main_v41 : S_.Idx → EReal)) := by
  show StableHlo.after Gen.hostOps2_8 (Gen.V17 m outs c) (Proc.devRef .tc main_v43)
    = addf (F := Ideal) (φ := .f32) (StableHlo.after Gen.hostOps2_8 (Gen.V17 m outs c) (Proc.devRef .tc main_v12))
        (mulf (F := Ideal) (φ := .f32) (constant (F := Ideal) S_ .f32 0x3DCCCCCD#32)
          (StableHlo.after Gen.hostOps2_8 (Gen.V17 m outs c) (Proc.devRef .tc main_v41)))
  generalize Gen.V17 m outs c = W
  after_results

end Cert.KernelIdeal.Val

end
-- ==== Proof.OnlineSoftmax.lean ====
import Idealize.ShloMosaic.PureOps.Ideal
import proofs.«410009_j62173946577734_1_alg».proof.Proof.Spec
import Mathlib.Algebra.BigOperators.Group.Finset.Piecewise
import Mathlib.Algebra.BigOperators.Fin

noncomputable section

namespace Cert.Spec

open Idealize.ShloMosaic Finset

def stepE {w : ℕ} (s : EReal × EReal × EReal) (z : Fin w → EReal) (tr : Fin w → Bool) : EReal × EReal × EReal :=
  (max s.1 (univ.sup z),
   Ideal.exp (s.1 - max s.1 (univ.sup z)) * s.2.1 + ∑ j : Fin w, Ideal.exp (z j - max s.1 (univ.sup z)),
   s.2.2 + ∑ j : Fin w, if tr j then z j else 0)

def runE {w : ℕ} (z : ℕ → Fin w → EReal) (tr : ℕ → Fin w → Bool) : ℕ → EReal × EReal × EReal
  | 0 => stepE (⊥, 0, 0) (z 0) (tr 0)
  | n + 1 => stepE (runE z tr n) (z (n + 1)) (tr (n + 1))

section Row
variable (zr : Fin 20000 → ℝ) (lab : Fin 20000)

def extZ (k : ℕ) : EReal := if h : k < 20000 then ((zr ⟨k, h⟩ : ℝ) : EReal) else ⊥

def expZ (M : ℝ) (k : ℕ) : ℝ := if h : k < 20000 then Real.exp (zr ⟨k, h⟩ - M) else 0

def labZ (k : ℕ) : ℝ := if k = lab.val then zr lab else 0

theorem extZ_val (j : Fin 20000) : extZ zr j.val = ((zr j : ℝ) : EReal) := by
  unfold extZ; rw [dif_pos j.isLt]

theorem expZ_val (M : ℝ) (j : Fin 20000) : expZ zr M j.val = Real.exp (zr j - M) := by
  unfold expZ; rw [dif_pos j.isLt]

theorem exp_extZ_sub (M : ℝ) (k : ℕ) :
    Ideal.exp (extZ zr k - (M : EReal)) = ((expZ zr M k : ℝ) : EReal) := by
  unfold extZ expZ
  by_cases h : k < 20000
  · rw [dif_pos h, dif_pos h, ← EReal.coe_sub, Ideal.exp_coe]
  · rw [dif_neg h, dif_neg h, EReal.bot_sub, Ideal.exp_bot, EReal.coe_zero]

theorem sup_extZ_le (b : ℕ) :
    (range b).sup (extZ zr) ≤ (((univ : Finset (Fin 20000)).sup' ⟨0, mem_univ _⟩ zr : ℝ) : EReal) := by
  apply Finset.sup_le; intro k _
  unfold extZ
  by_cases h : k < 20000
  · rw [dif_pos h, EReal.coe_le_coe_iff]; exact Finset.le_sup' zr (mem_univ _)
  · rw [dif_neg h]; exact bot_le

theorem sup_extZ_real (b : ℕ) (hb : 0 < b) : ∃ M : ℝ, (range b).sup (extZ zr) = (M : EReal) := by
  have h1 : (range b).sup (extZ zr) ≠ ⊥ := by
    have h0 : extZ zr (⟨0, by norm_num⟩ : Fin 20000).val ≤ (range b).sup (extZ zr) :=
      Finset.le_sup (f := extZ zr) (mem_range.2 hb)
    rw [extZ_val] at h0
    exact ne_of_gt (lt_of_lt_of_le (EReal.bot_lt_coe _) h0)
  have h2 : (range b).sup (extZ zr) ≠ ⊤ :=
    ne_of_lt (lt_of_le_of_lt (sup_extZ_le zr b) (EReal.coe_lt_top _))
  exact ⟨_, (EReal.coe_toReal h2 h1).symm⟩

theorem sup_extZ_all :
    (range 20480).sup (extZ zr) = (((univ : Finset (Fin 20000)).sup' ⟨0, mem_univ _⟩ zr : ℝ) : EReal) := by
  apply le_antisymm (sup_extZ_le zr _)
  obtain ⟨j, _, hj⟩ := Finset.exists_mem_eq_sup' (⟨0, mem_univ _⟩ : (univ : Finset (Fin 20000)).Nonempty) zr
  rw [hj, ← extZ_val]
  exact Finset.le_sup (f := extZ zr) (mem_range.2 (by have := j.isLt; omega))

theorem sup_extZ_add (a : ℕ) (zt : Fin 1024 → EReal) (hz : ∀ j : Fin 1024, zt j = extZ zr (a + j.val)) :
    max ((range a).sup (extZ zr)) (univ.sup zt) = (range (a + 1024)).sup (extZ zr) := by
  apply le_antisymm
  · apply max_le
    · exact Finset.sup_mono (Finset.range_mono (Nat.le_add_right _ _))
    · apply Finset.sup_le; intro j _; rw [hz]
      exact Finset.le_sup (f := extZ zr) (mem_range.2 (by have := j.isLt; omega))
  · apply Finset.sup_le; intro k hk
    rw [mem_range] at hk
    by_cases h : k < a
    · exact le_trans (Finset.le_sup (f := extZ zr) (mem_range.2 h)) (le_max_left _ _)
    · have hj : k - a < 1024 := by omega
      have e : extZ zr k = zt ⟨k - a, hj⟩ := by
        rw [hz]; congr 1; show k = a + (k - a); omega
      rw [e]
      exact le_trans (Finset.le_sup (f := zt) (mem_univ _)) (le_max_right _ _)

-- A tile's sum of extended reals that are the reals `g` at the tile's places is the real sum.
theorem tile_sum (a : ℕ) (f : Fin 1024 → EReal) (g : ℕ → ℝ) (h : ∀ j : Fin 1024, f j = ((g (a + j.val) : ℝ) : EReal)) :
    ∑ j : Fin 1024, f j = ((∑ x ∈ range 1024, g (a + x) : ℝ) : EReal) := by
  rw [coe_sum, ← Fin.sum_univ_eq_sum_range (fun x => ((g (a + x) : ℝ) : EReal)) 1024]
  exact Finset.sum_congr rfl fun j _ => h j

theorem tile_exp_sum (a : ℕ) (zt : Fin 1024 → EReal) (hz : ∀ j : Fin 1024, zt j = extZ zr (a + j.val)) (M : ℝ) :
    ∑ j : Fin 1024, Ideal.exp (zt j - (M : EReal)) = ((∑ x ∈ range 1024, expZ zr M (a + x) : ℝ) : EReal) :=
  tile_sum a _ (expZ zr M) fun j => by rw [hz, exp_extZ_sub]

theorem tile_lab_sum (a : ℕ) (zt : Fin 1024 → EReal) (trt : Fin 1024 → Bool)
    (hz : ∀ j : Fin 1024, zt j = extZ zr (a + j.val))
    (htr : ∀ j : Fin 1024, trt j = decide (a + j.val = lab.val)) :
    (∑ j : Fin 1024, if trt j then zt j else 0) = ((∑ x ∈ range 1024, labZ zr lab (a + x) : ℝ) : EReal) :=
  tile_sum a _ (labZ zr lab) fun j => by
    rw [htr, hz]; unfold labZ
    by_cases h : a + j.val = lab.val
    · rw [decide_eq_true h, if_pos rfl, if_pos h, h, extZ_val]
    · rw [decide_eq_false h, if_neg Bool.false_ne_true, if_neg h, EReal.coe_zero]

-- One tile's step from a state whose sum and true-label logit are real and whose maximum `m0` rescales by the real `e`.
theorem stepE_real (a : ℕ) (zt : Fin 1024 → EReal) (trt : Fin 1024 → Bool)
    (hz : ∀ j : Fin 1024, zt j = extZ zr (a + j.val))
    (htr : ∀ j : Fin 1024, trt j = decide (a + j.val = lab.val))
    (m0 : EReal) (e L0 T0 M1 : ℝ) (he : Ideal.exp (m0 - (M1 : EReal)) = (e : EReal)) (hM : max m0 (univ.sup zt) = (M1 : EReal)) :
    stepE (m0, (L0 : EReal), (T0 : EReal)) zt trt
      = ((M1 : EReal), ((e * L0 + ∑ x ∈ range 1024, expZ zr M1 (a + x) : ℝ) : EReal),
         ((T0 + ∑ x ∈ range 1024, labZ zr lab (a + x) : ℝ) : EReal)) := by
  dsimp only [stepE]
  rw [hM, he, tile_exp_sum zr a zt hz M1, tile_lab_sum zr lab a zt trt hz htr, ← EReal.coe_mul, ← EReal.coe_add, ← EReal.coe_add]

theorem expZ_rescale (M0 M1 : ℝ) (k : ℕ) : Real.exp (M0 - M1) * expZ zr M0 k = expZ zr M1 k := by
  unfold expZ
  by_cases h : k < 20000
  · rw [dif_pos h, dif_pos h, ← Real.exp_add]; congr 1; ring
  · rw [dif_neg h, dif_neg h, mul_zero]

theorem expZ_sum_step (M0 M1 : ℝ) (a : ℕ) :
    Real.exp (M0 - M1) * ∑ k ∈ range a, expZ zr M0 k + ∑ x ∈ range 1024, expZ zr M1 (a + x)
      = ∑ k ∈ range (a + 1024), expZ zr M1 k := by
  rw [Finset.sum_range_add, Finset.mul_sum]
  congr 1
  exact Finset.sum_congr rfl (fun k _ => expZ_rescale zr M0 M1 k)

theorem expZ_sum_all (M : ℝ) : ∑ k ∈ range 20480, expZ zr M k = ∑ j : Fin 20000, Real.exp (zr j - M) := by
  have h0 : ∑ x ∈ range 480, expZ zr M (20000 + x) = 0 :=
    Finset.sum_eq_zero (fun x _ => by unfold expZ; rw [dif_neg (by omega)])
  rw [show (20480 : ℕ) = 20000 + 480 from rfl, Finset.sum_range_add, h0, add_zero, Finset.sum_range]
  exact Finset.sum_congr rfl (fun j _ => expZ_val zr M j)

theorem labZ_sum_all : ∑ k ∈ range 20480, labZ zr lab k = zr lab := by
  simp only [labZ]
  rw [Finset.sum_ite_eq' (range 20480) lab.val (fun _ => zr lab),
    if_pos (mem_range.2 (by have := lab.isLt; omega))]

theorem runE_inv (z : ℕ → Fin 1024 → EReal) (tr : ℕ → Fin 1024 → Bool)
    (hz : ∀ c (j : Fin 1024), c < 20 → z c j = extZ zr (1024 * c + j.val))
    (htr : ∀ c (j : Fin 1024), c < 20 → tr c j = decide (1024 * c + j.val = lab.val))
    (n : ℕ) (hn : n < 20) :
    ∃ M : ℝ, (range (1024 * n + 1024)).sup (extZ zr) = (M : EReal) ∧
      runE z tr n = ((M : EReal), ((∑ k ∈ range (1024 * n + 1024), expZ zr M k : ℝ) : EReal),
        ((∑ k ∈ range (1024 * n + 1024), labZ zr lab k : ℝ) : EReal)) := by
  induction n with
  | zero =>
    obtain ⟨M, hM⟩ := sup_extZ_real zr (1024 * 0 + 1024) (by norm_num)
    have hmax : max (⊥ : EReal) (univ.sup (z 0)) = (M : EReal) := by
      rw [← hM, ← sup_extZ_add zr (1024 * 0) (z 0) (fun j => hz 0 j hn), Nat.mul_zero, range_zero, sup_empty]
    refine ⟨M, hM, ?_⟩
    rw [runE, ← EReal.coe_zero, stepE_real zr lab (1024 * 0) (z 0) (tr 0) (fun j => hz 0 j hn) (fun j => htr 0 j hn) ⊥ 0 0 0 M
        (by rw [EReal.bot_sub, Ideal.exp_bot, EReal.coe_zero]) hmax,
      Finset.sum_range_add, Finset.sum_range_add, Nat.mul_zero, range_zero, sum_empty, sum_empty, mul_zero, zero_add, zero_add]
  | succ n ih =>
    obtain ⟨M0, hM0, hrun⟩ := ih (by omega)
    have e : 1024 * (n + 1) = 1024 * n + 1024 := by ring
    obtain ⟨M1, hM1⟩ := sup_extZ_real zr (1024 * (n + 1) + 1024) (by omega)
    have hmax : max (M0 : EReal) (univ.sup (z (n + 1))) = (M1 : EReal) := by
      rw [← hM0, ← hM1, ← e]
      exact sup_extZ_add zr (1024 * (n + 1)) (z (n + 1)) (fun j => hz (n + 1) j hn)
    refine ⟨M1, hM1, ?_⟩
    rw [runE, hrun, ← e,
      stepE_real zr lab (1024 * (n + 1)) (z (n + 1)) (tr (n + 1)) (fun j => hz (n + 1) j hn)
        (fun j => htr (n + 1) j hn) M0 (Real.exp (M0 - M1)) _ _ M1 (by rw [← EReal.coe_sub, Ideal.exp_coe]) hmax,
      expZ_sum_step, Finset.sum_range_add (labZ zr lab)]

end Row

theorem online_softmax (zr : Fin 20000 → ℝ) (lab : Fin 20000)
    (z : ℕ → Fin 1024 → EReal) (tr : ℕ → Fin 1024 → Bool)
    (hz : ∀ c (j : Fin 1024), c < 20 → z c j = if h : 1024 * c + j.val < 20000 then ((zr ⟨1024 * c + j.val, h⟩ : ℝ) : EReal) else ⊥)
    (htr : ∀ c (j : Fin 1024), c < 20 → tr c j = decide (1024 * c + j.val = lab.val)) :
    ((runE z tr 19).1 + Ideal.log (runE z tr 19).2.1) - (runE z tr 19).2.2
      = (((univ : Finset (Fin 20000)).sup' ⟨0, mem_univ _⟩ zr
          + Real.log (∑ j : Fin 20000, Real.exp (zr j - (univ : Finset (Fin 20000)).sup' ⟨0, mem_univ _⟩ zr)) - zr lab : ℝ) : EReal) := by
  obtain ⟨M, hM, hrun⟩ := runE_inv zr lab z tr hz htr 19 (by norm_num)
  have e : 1024 * 19 + 1024 = 20480 := by norm_num
  rw [e] at hM hrun
  have hM' : M = (univ : Finset (Fin 20000)).sup' ⟨0, mem_univ _⟩ zr := by
    rw [sup_extZ_all] at hM
    exact (EReal.coe_eq_coe_iff.1 hM).symm
  rw [hrun, ← hM']
  dsimp only
  rw [expZ_sum_all, labZ_sum_all, Ideal.log_coe,
    if_neg (not_le.2 (Finset.sum_pos (fun j _ => Real.exp_pos _) ⟨0, mem_univ _⟩)),
    ← EReal.coe_add, ← EReal.coe_sub]

theorem online_softmax_nllR (Er : Fin 4096 → Fin 256 → ℝ) (Wr : Fin 20000 → Fin 256 → ℝ) (lab : Fin 4096 → Fin 20000) (i : Fin 4096)
    (z : ℕ → Fin 1024 → EReal) (tr : ℕ → Fin 1024 → Bool)
    (hz : ∀ c (j : Fin 1024), c < 20 → z c j = if h : 1024 * c + j.val < 20000 then ((logitR Er Wr lab i ⟨1024 * c + j.val, h⟩ : ℝ) : EReal) else ⊥)
    (htr : ∀ c (j : Fin 1024), c < 20 → tr c j = decide (1024 * c + j.val = (lab i).val)) :
    ((runE z tr 19).1 + Ideal.log (runE z tr 19).2.1) - (runE z tr 19).2.2 = ((nllR Er Wr lab i : ℝ) : EReal) := by
  unfold nllR rowSumR rowMaxR
  exact online_softmax (logitR Er Wr lab i) (lab i) z tr hz htr

end Cert.Spec

end
-- ==== Proof.KI.R0Pay.lean ====
import proofs.«410009_j62173946577734_1_alg».proof.Proof.Gen.KernelIdeal.Skeleton
import proofs.«410009_j62173946577734_1_alg».proof.Proof.OnlineSoftmax
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.Val

open Cert.KernelIdeal Cert.KernelIdeal.Gen Idealize.ShloMosaic Idealize.ShloMosaic.ValueIdx Finset
open Cert.Spec (coe_sum)

namespace R0Pay

theorem ofBits_neg_inf : Ideal.ofBits .f32 0xFF800000#32 = ⊥ := by simp [Ideal.ofBits, Ideal.ieee]

theorem fold_max_bot_eq_sup {ι : Type} (s : Finset ι) (f : ι → EReal) : s.fold max ⊥ f = s.sup f := by
  classical
  induction s using Finset.induction_on with
  | empty => rfl
  | insert a s ha ih => rw [Finset.fold_insert ha, Finset.sup_insert, ih]

theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem rowmax_apply (Z : FVec Ideal S512x1024 .f32) (r : Fin 512) :
    multiReduction .maximumf [1] S512 Z 0xFF800000#32 reduces_S512x1024_S512 (.inl rfl) rfl (ix1 r)
      = univ.sup fun j : Fin 1024 => Z (ix2 r j) := by
  refine (Ideal.multiReduction_maximumf_single Z 0xFF800000#32 reduces_S512x1024_S512 (.inl rfl) rfl (ix1 r)).trans ?_
  rw [show FloatOps.ofBits (F := Ideal) .f32 0xFF800000#32 = ⊥ from ofBits_neg_inf]
  refine (fold_max_bot_eq_sup _ _).trans ?_
  show (univ : Finset (Fin 1024)).sup (fun k => Z (reduces_S512x1024_S512.lift (ix1 r) k)) = _
  refine congrArg _ (funext fun k => congrArg Z (funext fun a => ?_))
  match a with
  | ⟨0, _⟩ => rfl
  | ⟨1, _⟩ => rfl

theorem rowsum_apply (Z : FVec Ideal S512x1024 .f32) (r : Fin 512) :
    multiReduction .add [1] S512 Z 0x00000000#32 reduces_S512x1024_S512 (.inl rfl) rfl (ix1 r)
      = ∑ j : Fin 1024, Z (ix2 r j) := by
  refine (Ideal.multiReduction_add_single Z 0x00000000#32 reduces_S512x1024_S512 (.inl rfl) rfl (ix1 r)).trans ?_
  show ∑ k : Fin 1024, Z (reduces_S512x1024_S512.lift (ix1 r) k) = _
  refine Finset.sum_congr rfl fun k _ => congrArg Z (funext fun a => ?_)
  match a with
  | ⟨0, _⟩ => rfl
  | ⟨1, _⟩ => rfl

theorem pay1_apply (v32 : FVec Ideal S512x1 .f32) (v35 : FVec Ideal S512x1024 .f32) (v36 : Vec Ideal S512x1 .f32) (r : Fin 512) :
    k0_pay1 v32 v35 v36 (ix2 r (0 : Fin 1))
      = v32 (ix2 r (0 : Fin 1)) * v36 (ix2 r (0 : Fin 1)) + ∑ j : Fin 1024, v35 (ix2 r j) := by
  unfold k0_pay1
  refine (congrFun (shapeCast_self _ shapeCasts_S512x1_S512x1) _).trans ?_
  show v32 (ix2 r (0 : Fin 1)) * v36 (ix2 r (0 : Fin 1))
      + shapeCast S512x1 (multiReduction .add [1] S512 v35 0x00000000#32 reduces_S512x1024_S512 (.inl rfl) rfl)
          shapeCasts_S512_S512x1 (ix2 r (0 : Fin 1)) = _
  refine congrArg (v32 (ix2 r (0 : Fin 1)) * v36 (ix2 r (0 : Fin 1)) + ·) ?_
  exact (shapeCast_a_a1_apply _ shapeCasts_S512_S512x1 r 0).trans (rowsum_apply v35 r)

theorem pay2_apply (v16 : IVec S512x1024 1) (v25 : FVec Ideal S512x1024 .f32) (v44 : Vec Ideal S512x1 .f32) (r : Fin 512) :
    k0_pay2 v16 v25 v44 (ix2 r (0 : Fin 1))
      = v44 (ix2 r (0 : Fin 1)) + ∑ j : Fin 1024, if v16 (ix2 r j) = 1#1 then v25 (ix2 r j) else 0 := by
  unfold k0_pay2
  refine (congrFun (shapeCast_self _ shapeCasts_S512x1_S512x1) _).trans ?_
  show v44 (ix2 r (0 : Fin 1))
      + shapeCast S512x1 (multiReduction .add [1] S512
          (select v16 v25 (broadcast S512x1024 (Scalar.ofBits (F := Ideal) .f32 0x00000000#32)))
          0x00000000#32 reduces_S512x1024_S512 (.inl rfl) rfl) shapeCasts_S512_S512x1 (ix2 r (0 : Fin 1)) = _
  refine congrArg (v44 (ix2 r (0 : Fin 1)) + ·) ?_
  refine ((shapeCast_a_a1_apply _ shapeCasts_S512_S512x1 r 0).trans (rowsum_apply _ r)).trans ?_
  refine Finset.sum_congr rfl fun j _ => ?_
  show (if v16 (ix2 r j) = 1#1 then v25 (ix2 r j) else Ideal.ofBits .f32 0x00000000#32) = _
  rw [Ideal.ofBits_zero_f32]

theorem pay3_apply (v29 : FVec Ideal S512x1 .f32) (y : S512x1.Idx) : k0_pay3 v29 y = v29 y :=
  congrFun (shapeCast_self v29 shapeCasts_S512x1_S512x1) y

theorem pay11_apply (i : grid0.Coords) (x1 : Vec Ideal S512x256 .bf16) (x2 : Vec Ideal S1024x256 .bf16)
    (x0 : Vec Ideal S512x1 .i32) (ms : Vec Ideal S512x1 .f32) (r : Fin 512) :
    k0_pay11 i x1 x2 x0 ms (ix2 r (0 : Fin 1))
      = max (ms (ix2 r (0 : Fin 1))) (univ.sup fun j : Fin 1024 => k0_pay10 i x1 x2 x0 (ix2 r j)) := by
  unfold k0_pay11
  show max (ms (ix2 r (0 : Fin 1)))
      (shapeCast S512x1 (multiReduction .maximumf [1] S512 (k0_pay10 i x1 x2 x0) 0xFF800000#32
        reduces_S512x1024_S512 (.inl rfl) rfl) shapeCasts_S512_S512x1 (ix2 r (0 : Fin 1))) = _
  refine congrArg (max (ms (ix2 r (0 : Fin 1)))) ?_
  exact (shapeCast_a_a1_apply _ shapeCasts_S512_S512x1 r 0).trans (rowmax_apply _ r)

theorem pay12_apply (i : grid0.Coords) (x1 : Vec Ideal S512x256 .bf16) (x2 : Vec Ideal S1024x256 .bf16)
    (x0 : Vec Ideal S512x1 .i32) (ms ms' : Vec Ideal S512x1 .f32) (y : S512x1.Idx) :
    k0_pay12 i x1 x2 x0 ms ms' y = Ideal.exp (ms' y - k0_pay11 i x1 x2 x0 ms y) := rfl

theorem pay13_apply (i : grid0.Coords) (x1 : Vec Ideal S512x256 .bf16) (x2 : Vec Ideal S1024x256 .bf16)
    (x0 : Vec Ideal S512x1 .i32) (ms : Vec Ideal S512x1 .f32) (r : Fin 512) (j : Fin 1024) :
    k0_pay13 i x1 x2 x0 ms (ix2 r j)
      = Ideal.exp (k0_pay10 i x1 x2 x0 (ix2 r j) - k0_pay11 i x1 x2 x0 ms (ix2 r (0 : Fin 1))) := by
  unfold k0_pay13
  show Ideal.exp (k0_pay10 i x1 x2 x0 (ix2 r j)
      - broadcastTo S512x1024 (k0_pay11 i x1 x2 x0 ms) broadcasts_S512x1_S512x1024 (ix2 r j)) = _
  rw [broadcastTo_a1_ab_apply]

end R0Pay

open R0Pay

theorem pay_step (i : grid0.Coords) (x0 : Vec Ideal S512x1 .i32) (x1 : Vec Ideal S512x256 .bf16) (x2 : Vec Ideal S1024x256 .bf16)
    (ms ls ts : Vec Ideal S512x1 .f32) (r : Fin 512) :
    (k0_pay3 (k0_pay11 i x1 x2 x0 ms) (ix2 r (0 : Fin 1)),
     k0_pay1 (k0_pay12 i x1 x2 x0 ms ms) (k0_pay13 i x1 x2 x0 ms) ls (ix2 r (0 : Fin 1)),
     k0_pay2 (k0_pay9 i x0) (k0_pay10 i x1 x2 x0) ts (ix2 r (0 : Fin 1)))
      = Cert.Spec.stepE (ms (ix2 r (0 : Fin 1)), ls (ix2 r (0 : Fin 1)), ts (ix2 r (0 : Fin 1)))
          (fun j : Fin 1024 => k0_pay10 i x1 x2 x0 (ix2 r j))
          (fun j => decide (k0_pay9 i x0 (ix2 r j) = 1#1)) := by
  unfold Cert.Spec.stepE
  refine Prod.ext ?_ (Prod.ext ?_ ?_)
  · exact (pay3_apply _ _).trans (pay11_apply i x1 x2 x0 ms r)
  · refine (pay1_apply _ _ ls r).trans ?_
    show k0_pay12 i x1 x2 x0 ms ms (ix2 r (0 : Fin 1)) * ls (ix2 r (0 : Fin 1))
        + ∑ j : Fin 1024, k0_pay13 i x1 x2 x0 ms (ix2 r j) = _
    rw [pay12_apply, Finset.sum_congr rfl fun j _ => pay13_apply i x1 x2 x0 ms r j, pay11_apply]
  · refine (pay2_apply _ _ ts r).trans ?_
    show _ = ts (ix2 r (0 : Fin 1)) + ∑ j : Fin 1024,
        if decide (k0_pay9 i x0 (ix2 r j) = 1#1) = true then k0_pay10 i x1 x2 x0 (ix2 r j) else 0
    simp only [decide_eq_true_eq]

theorem pay_reset (r : Fin 512) : k0_pay5 (F := Ideal) (ix2 r (0 : Fin 1)) = ⊥ ∧ k0_pay6 (F := Ideal) (ix2 r (0 : Fin 1)) = 0
    ∧ k0_pay7 (F := Ideal) (ix2 r (0 : Fin 1)) = 0 := by
  refine ⟨?_, ?_, ?_⟩
  · unfold k0_pay5
    refine (congrFun (shapeCast_self _ shapeCasts_S512x1_S512x1) _).trans ?_
    exact ofBits_neg_inf
  · unfold k0_pay6
    refine (congrFun (shapeCast_self _ shapeCasts_S512x1_S512x1) _).trans ?_
    exact Ideal.ofBits_zero_f32
  · unfold k0_pay7
    refine (congrFun (shapeCast_self _ shapeCasts_S512x1_S512x1) _).trans ?_
    exact Ideal.ofBits_zero_f32

theorem pay_out (r : Fin 512) (m l t : Vec Ideal S512x1 .f32) :
    k0_pay4 m l t (ix2 r (0 : Fin 1))
      = (m (ix2 r (0 : Fin 1)) + Ideal.log (l (ix2 r (0 : Fin 1)))) - t (ix2 r (0 : Fin 1)) := rfl

namespace R0Pay

theorem pay8_apply (i : grid0.Coords) (c : ℕ) (hc : (i 1).val = c) (hc20 : c < 20) (r : Fin 512) (j : Fin 1024) :
    k0_pay8 i (ix2 r j) = BitVec.ofNat 32 (1024 * c + j.val) := by
  unfold k0_pay8
  show IntOp.addi (IntOp.muli (BitVec.ofNat 32 (i 1).val) 1024#32)
      (iota .tc S512x1024 32 [1] iota_S512x1024_d1_w32 (ix2 r j)) = _
  rw [iota_single_apply, hc]
  show BitVec.ofNat 32 c * 1024#32 + BitVec.ofNat 32 j.val = _
  apply BitVec.eq_of_toNat_eq
  simp only [BitVec.toNat_add, BitVec.toNat_mul, BitVec.toNat_ofNat]
  have := j.isLt
  omega

theorem pay9_apply (i : grid0.Coords) (x0 : Vec Ideal S512x1 .i32) (r : Fin 512) (j : Fin 1024) :
    k0_pay9 i x0 (ix2 r j) = IntOp.cmpi .eq (k0_pay8 i (ix2 r j)) (x0 (ix2 r (0 : Fin 1))) := by
  unfold k0_pay9
  show IntOp.cmpi .eq (k0_pay8 i (ix2 r j))
      (broadcastTo S512x1024 (shapeCast S512x1 x0 shapeCasts_S512x1_S512x1) broadcasts_S512x1_S512x1024 (ix2 r j)) = _
  rw [broadcastTo_a1_ab_apply, shapeCast_self]

end R0Pay

theorem pay_true (i : grid0.Coords) (x0 : Vec Ideal S512x1 .i32) (r : Fin 512) (c : ℕ) (hc : (i 1).val = c) (hc20 : c < 20)
    (lb : Fin 512 → ℕ) (hlb : ∀ r, lb r < 20000) (hx0 : ∀ r, x0 (ix2 r (0 : Fin 1)) = BitVec.ofNat 32 (lb r)) (j : Fin 1024) :
    (k0_pay9 i x0 (ix2 r j) = 1#1) ↔ 1024 * c + j.val = lb r := by
  rw [pay9_apply, pay8_apply i c hc hc20, hx0, StableHlo.Predicate.cmpi_eq_iff]
  constructor
  · intro h
    have h' := congrArg BitVec.toNat h
    simp only [BitVec.toNat_ofNat] at h'
    have := hlb r
    have := j.isLt
    omega
  · intro h; rw [h]

namespace R0Pay

theorem lhs_cos_0 (y : S512x1024.Idx) (q : dot_S512x256_S256x1024_S512x1024_1_0_0_1_n_n.contr.Idx) :
    (dot_S512x256_S256x1024_S512x1024_1_0_0_1_n_n.lhsIdx y q 0).val = (y 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
theorem rhs_cos_1 (y : S512x1024.Idx) (q : dot_S512x256_S256x1024_S512x1024_1_0_0_1_n_n.contr.Idx) :
    (dot_S512x256_S256x1024_S512x1024_1_0_0_1_n_n.rhsIdx y q 1).val = (y 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

theorem matmul_cos_apply (L : FVec Ideal S512x256 .bf16) (R : FVec Ideal S256x1024 .bf16) (r : Fin 512) (j : Fin 1024) :
    matmul dot_S512x256_S256x1024_S512x1024_1_0_0_1_n_n none L R (constant (F := Ideal) S512x1024 .f32 0x00000000#32) (ix2 r j)
      = ∑ k : Fin 256, L (ix2 r k) * R (ix2 k j) := by
  simp only [matmul]
  rw [Ideal.matmul_constant_zero_apply, ← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 r j) ((contrEquiv1 dot_S512x256_S256x1024_S512x1024_1_0_0_1_n_n 256 rfl rfl).symm k) = ix2 r k := funext fun a => Fin.ext (by
    match a with
    | ⟨0, _⟩ => exact lhs_cos_0 _ _
    | ⟨1, _⟩ => exact (dot_S512x256_S256x1024_S512x1024_1_0_0_1_n_n.lhsIdx_val_of_single rfl _ _).trans hk)
  have er : dot_S512x256_S256x1024_S512x1024_1_0_0_1_n_n.rhsIdx (ix2 r j) ((contrEquiv1 dot_S512x256_S256x1024_S512x1024_1_0_0_1_n_n 256 rfl rfl).symm k) = ix2 k j := funext fun a => Fin.ext (by
    match a with
    | ⟨0, _⟩ => exact (dot_S512x256_S256x1024_S512x1024_1_0_0_1_n_n.rhsIdx_val_of_single rfl _ _).trans hk
    | ⟨1, _⟩ => exact rhs_cos_1 _ _)
  rw [el, er]

def cosTile (x1 : Vec Ideal S512x256 .bf16) (x2 : Vec Ideal S1024x256 .bf16) : FVec Ideal S512x1024 .f32 :=
  matmul (φ₁ := .bf16) (φ₂ := .bf16) dot_S512x256_S256x1024_S512x1024_1_0_0_1_n_n none (shapeCast S512x256 x1 shapeCasts_S512x256_S512x256)
    (transpose S256x1024 [1, 0] (shapeCast S1024x256 x2 shapeCasts_S1024x256_S1024x256) transposes_S1024x256_p1_0_S256x1024)
    (constant (F := Ideal) S512x1024 .f32 0x00000000#32)

theorem cosTile_apply (x1 : Vec Ideal S512x256 .bf16) (x2 : Vec Ideal S1024x256 .bf16) (r : Fin 512) (j : Fin 1024) :
    cosTile x1 x2 (ix2 r j) = ∑ k : Fin 256, x1 (ix2 r k) * x2 (ix2 j k) := by
  unfold cosTile
  rw [matmul_cos_apply]
  refine Finset.sum_congr rfl fun k _ => ?_
  rw [shapeCast_self, transpose_ix2_apply, shapeCast_self]

theorem pay10_apply (i : grid0.Coords) (x1 : Vec Ideal S512x256 .bf16) (x2 : Vec Ideal S1024x256 .bf16)
    (x0 : Vec Ideal S512x1 .i32) (y : S512x1024.Idx) :
    k0_pay10 i x1 x2 x0 y
      = Scalar.select (IntOp.cmpi .slt (k0_pay8 i y) 20000#32)
          (Scalar.select (k0_pay9 i x0 y)
            (cosTile x1 x2 y * Ideal.ofBits .f32 0x41F00000#32 - Named.named (F := Ideal) κ "margin_scale" (φ := .f32) 0x41100000#32)
            (cosTile x1 x2 y * Ideal.ofBits .f32 0x41F00000#32))
          (Named.named (F := Ideal) κ "neg_big" (φ := .f32) 0xCE6E6B28#32) := rfl

theorem ofBits_thirty : Ideal.ofBits .f32 0x41F00000#32 = ((30 : ℝ) : EReal) := by
  simp [Ideal.ofBits, Ideal.ieee, -EReal.coe_mul]; norm_num

theorem margin_scale_eq : Named.named (F := Ideal) κ "margin_scale" (φ := .f32) 0x41100000#32 = ((75497475 / 8388608 : ℝ) : EReal) :=
  IdealRules.named_const.ideal_named_scalar _ _ _ _ rfl

theorem neg_big_eq : Named.named (F := Ideal) κ "neg_big" (φ := .f32) 0xCE6E6B28#32 = ⊥ :=
  IdealRules.named_const.ideal_named_scalar _ _ _ _ rfl

end R0Pay

theorem pay_logit (i : grid0.Coords) (x0 : Vec Ideal S512x1 .i32) (x1 : Vec Ideal S512x256 .bf16) (x2 : Vec Ideal S1024x256 .bf16)
    (r : Fin 512) (c : ℕ) (hc : (i 1).val = c) (hc20 : c < 20) (er : Fin 512 → Fin 256 → ℝ)
    (hx1 : ∀ r k, x1 (ix2 r k) = ((er r k : ℝ) : EReal)) (wr : Fin 1024 → Fin 256 → ℝ)
    (hx2 : ∀ (j : Fin 1024) k, x2 (ix2 j k) = if 1024 * c + j.val < 20000 then ((wr j k : ℝ) : EReal) else 0)
    (lb : Fin 512 → ℕ) (hlb : ∀ r, lb r < 20000) (hx0 : ∀ r, x0 (ix2 r (0 : Fin 1)) = BitVec.ofNat 32 (lb r)) (j : Fin 1024) :
    k0_pay10 i x1 x2 x0 (ix2 r j)
      = if 1024 * c + j.val < 20000 then
          (((∑ k : Fin 256, er r k * wr j k) * 30 - (if 1024 * c + j.val = lb r then Cert.Spec.marginScale else 0) : ℝ) : EReal)
        else ⊥ := by
  have hj := j.isLt
  have hn : (BitVec.ofNat 32 (1024 * c + j.val)).toNat = 1024 * c + j.val := by
    rw [BitVec.toNat_ofNat]; exact Nat.mod_eq_of_lt (by omega)
  have h2 : (20000#32 : BitVec 32).toNat = 20000 := rfl
  have hslt : IntOp.cmpi .slt (BitVec.ofNat 32 (1024 * c + j.val)) 20000#32 = 1#1 ↔ 1024 * c + j.val < 20000 := by
    rw [StableHlo.Predicate.slt_iff_toNat (by rw [hn]; omega) (by rw [h2]; omega), hn, h2]
  rw [pay10_apply, pay8_apply i c hc hc20, cosTile_apply, ofBits_thirty, margin_scale_eq, neg_big_eq]
  by_cases hv : 1024 * c + j.val < 20000
  · rw [hslt.mpr hv, select_one, if_pos hv]
    have hsum : ∑ k : Fin 256, x1 (ix2 r k) * x2 (ix2 j k) = ((∑ k : Fin 256, er r k * wr j k : ℝ) : EReal) := by
      rw [coe_sum]
      refine Finset.sum_congr rfl fun k _ => ?_
      rw [hx1, hx2, if_pos hv, EReal.coe_mul]
    rw [hsum]
    by_cases ht : 1024 * c + j.val = lb r
    · rw [(pay_true i x0 r c hc hc20 lb hlb hx0 j).mpr ht, select_one, if_pos ht]
      unfold Cert.Spec.marginScale
      rw [← EReal.coe_mul, ← EReal.coe_sub]
    · have h0 : k0_pay9 i x0 (ix2 r j) = 0#1 :=
        eq_zero_of_ne_one fun h => ht ((pay_true i x0 r c hc hc20 lb hlb hx0 j).mp h)
      rw [h0, select_zero, if_neg ht, sub_zero, ← EReal.coe_mul]
  · have h0 : IntOp.cmpi .slt (BitVec.ofNat 32 (1024 * c + j.val)) 20000#32 = 0#1 :=
      eq_zero_of_ne_one fun h => hv (hslt.mp h)
    rw [h0, select_zero, if_neg hv]

end Cert.KernelIdeal.Val

end
-- ==== Proof.KI.R0Value.lean ====
import proofs.«410009_j62173946577734_1_alg».proof.Proof.KI.R0Frame
import proofs.«410009_j62173946577734_1_alg».proof.Proof.KI.R0Pay
import proofs.«410009_j62173946577734_1_alg».proof.Proof.OnlineSoftmax
import proofs.«410009_j62173946577734_1_alg».proof.Proof.Spec
import Idealize.ShloMosaic.Lib.Pipeline.Value
import Idealize.ShloMosaic.Lib.ValueIdx
import Idealize.ShloMosaic.Lib.Tactic
import Idealize.ShloMosaic.PureOps.Ideal

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat)

namespace R0

section Pieces
variable {F : FTy → Type} [FloatOps F] [Named F]
variable (V : (c : Dev nD) → (b : Ref sig .tc) → Buf (Elt F) ((c : Thread nD τ).loc b)) (c : Dev nD) (t : Fin cfg0.N)

theorem hz2 : (![0, 0] : Fin 2 → Nat) = fun _ => 0 := funext fun a => by fin_cases a <;> rfl

def upd0 (xs : Col0 F × Col0 F × Col0 F) : Col0 F × Col0 F × Col0 F :=
  (k0_pay3 (k0_pay11 (grid0.coords t) (iblk0 V c 1 t) (iblk0 V c 2 t) (iblk0 V c 0 t) xs.1),
    k0_pay1 (k0_pay12 (grid0.coords t) (iblk0 V c 1 t) (iblk0 V c 2 t) (iblk0 V c 0 t) xs.1 xs.1) (k0_pay13 (grid0.coords t) (iblk0 V c 1 t) (iblk0 V c 2 t) (iblk0 V c 0 t) xs.1) xs.2.1,
    k0_pay2 (k0_pay9 (grid0.coords t) (iblk0 V c 0 t)) (k0_pay10 (grid0.coords t) (iblk0 V c 1 t) (iblk0 V c 2 t) (iblk0 V c 0 t)) xs.2.2)

-- Each case leaves in the scratch columns the update of what it found (a first tile: of the reset state it stored first); the last tile also
-- stores the final maximum plus the logarithm of the final sum, less the final true-label logit.
theorem outs0_eq :
    (∀ h0 h1, (outs0 (runA0 V c t h0 h1)).2 = upd0 V c t (k0_pay5 (F := F), k0_pay6 (F := F), k0_pay7 (F := F)))
    ∧ (∀ h0 h1 xs, (outs0 (runB0 V c t h0 h1 xs)).2 = upd0 V c t xs)
    ∧ ∀ h0 h1 xs, outs0 (runC0 V c t h0 h1 xs) = (k0_pay4 (upd0 V c t xs).1 (upd0 V c t xs).2.1 (upd0 V c t xs).2.2, upd0 V c t xs) := by
  refine ⟨fun h0 h1 => ?_, fun h0 h1 xs => ?_, fun h0 h1 xs => ?_⟩
  all_goals
    unfold outs0 rd0 upd0
    first | unfold runA0 kernelRun0_A | unfold runB0 kernelRun0_B | unfold runC0 kernelRun0_C
    dsimp only
    sl_unfold_words
    simp only [View.read_writes_junk_eq_canon, View.canon_unit_zero (S := S512x1) hz2, View.canon_cons_unit_zero (S := S512x1) hz2, View.readAt_eq_ld, (hs0_0 t).read_unread, (hs0_1 t).read_unread, (hs0_2 t).read_unread,
      (Memref.isWhole_whole cc0_scratch0).read_unread, (Memref.isWhole_whole cc0_scratch1).read_unread, (Memref.isWhole_whole cc0_scratch2).read_unread,
      View.ld_unit_zero (S := S512x1) hz2, View.ld_unit_zero (S := S512x256) hz2, View.ld_unit_zero (S := S1024x256) hz2, View.readCov_unit_zero (S := S512x1) _ hz2]

end Pieces

theorem idx_facts0 : ∀ t : Fin cfg0.N,
    win0_0.index t (0 : Fin 2) = t.val / 20 ∧ win0_0.index t (1 : Fin 2) = 0
    ∧ win0_1.index t (0 : Fin 2) = t.val / 20 ∧ win0_1.index t (1 : Fin 2) = 0
    ∧ win0_2.index t (0 : Fin 2) = t.val % 20 ∧ win0_2.index t (1 : Fin 2) = 0
    ∧ win0_3.index t (0 : Fin 2) = t.val / 20 ∧ win0_3.index t (1 : Fin 2) = 0
    ∧ ((grid0.coords t) 1).val = t.val % 20 :=
  (by decide +kernel : ∀ t : Fin grid0.N, _)

def grow (t : Fin cfg0.N) (r : Fin 512) : Fin 4096 :=
  ⟨512 * (t.val / 20) + r.val, by have h := t.isLt; have hN : cfg0.N = 160 := N_0; have := r.isLt; omega⟩

def wrow (t : Fin cfg0.N) (j : Fin 1024) : Fin 20480 :=
  ⟨1024 * (t.val % 20) + j.val, by have := j.isLt; omega⟩

section Blk
variable {F : FTy → Type} [FloatOps F] [Named F]
variable (V : (c : Dev nD) → (b : Ref sig .tc) → Buf (Elt F) ((c : Thread nD τ).loc b)) (c : Dev nD)

theorem lblk_apply (t : Fin cfg0.N) (r : Fin 512) :
    (iblk0 V c 0 t : Vec F S512x1 .i32) (ix2 r (0 : Fin 1)) = (V c main_v9 : S4096x1.Idx → Elt F .i32) (ix2 (grow t r) (0 : Fin 1)) := by
  obtain ⟨e0, e1, -⟩ := idx_facts0 t
  refine congrArg (V c main_v9) (funext fun a => Fin.ext ?_)
  match a with
  | ⟨0, _⟩ => show win0_0.index t (0 : Fin 2) * 512 + 1 * r.val = 512 * (t.val / 20) + r.val; omega
  | ⟨1, _⟩ => show win0_0.index t (1 : Fin 2) * 1 + 1 * 0 = 0; omega

theorem eblk_apply (t : Fin cfg0.N) (r : Fin 512) (k : Fin 256) :
    (iblk0 V c 1 t : Vec F S512x256 .bf16) (ix2 r k) = (V c main_v6 : S4096x256.Idx → Elt F .bf16) (ix2 (grow t r) k) := by
  obtain ⟨-, -, e0, e1, -⟩ := idx_facts0 t
  refine congrArg (V c main_v6) (funext fun a => Fin.ext ?_)
  match a with
  | ⟨0, _⟩ => show win0_1.index t (0 : Fin 2) * 512 + 1 * r.val = 512 * (t.val / 20) + r.val; omega
  | ⟨1, _⟩ => show win0_1.index t (1 : Fin 2) * 256 + 1 * k.val = k.val; omega

theorem wblk_apply (t : Fin cfg0.N) (j : Fin 1024) (k : Fin 256) :
    (iblk0 V c 2 t : Vec F S1024x256 .bf16) (ix2 j k) = (V c main_v8 : S20480x256.Idx → Elt F .bf16) (ix2 (wrow t j) k) := by
  obtain ⟨-, -, -, -, e0, e1, -⟩ := idx_facts0 t
  refine congrArg (V c main_v8) (funext fun a => Fin.ext ?_)
  match a with
  | ⟨0, _⟩ => show win0_2.index t (0 : Fin 2) * 1024 + 1 * j.val = 1024 * (t.val % 20) + j.val; omega
  | ⟨1, _⟩ => show win0_2.index t (1 : Fin 2) * 256 + 1 * k.val = k.val; omega
end Blk

section Tile
open Cert.Spec
variable (V : (c : Dev nD) → (b : Ref sig .tc) → Buf (Elt Ideal) ((c : Thread nD τ).loc b)) (c : Dev nD)
  (Er : Fin 4096 → Fin 256 → ℝ) (Wr : Fin 20000 → Fin 256 → ℝ) (lab : Fin 4096 → Fin 20000)
  (hE : ∀ i k, (V c main_v6 : S4096x256.Idx → EReal) (ix2 i k) = ((Er i k : ℝ) : EReal))
  (hW : ∀ (j : Fin 20480) (k : Fin 256), (V c main_v8 : S20480x256.Idx → EReal) (ix2 j k) = if h : j.val < 20000 then ((Wr ⟨j.val, h⟩ k : ℝ) : EReal) else 0)
  (hL : ∀ i, (V c main_v9 : S4096x1.Idx → BitVec 32) (ix2 i (0 : Fin 1)) = BitVec.ofNat 32 (lab i).val)

def zrow (i : Fin 4096) (c' : ℕ) (j : Fin 1024) : EReal :=
  if h : 1024 * c' + j.val < 20000 then ((logitR Er Wr lab i ⟨1024 * c' + j.val, h⟩ : ℝ) : EReal) else ⊥

def trow (i : Fin 4096) (c' : ℕ) (j : Fin 1024) : Bool := decide (1024 * c' + j.val = (lab i).val)

def wreal (t : Fin cfg0.N) (j : Fin 1024) (k : Fin 256) : ℝ :=
  if h : 1024 * (t.val % 20) + j.val < 20000 then Wr ⟨1024 * (t.val % 20) + j.val, h⟩ k else 0

include hW in
theorem wblk_real (t : Fin cfg0.N) (j : Fin 1024) (k : Fin 256) :
    (iblk0 V c 2 t : Vec Ideal S1024x256 .bf16) (ix2 j k)
      = if 1024 * (t.val % 20) + j.val < 20000 then ((wreal Wr t j k : ℝ) : EReal) else 0 := by
  refine (wblk_apply V c t j k).trans ((hW (wrow t j) k).trans ?_)
  show (if h : 1024 * (t.val % 20) + j.val < 20000 then ((Wr ⟨1024 * (t.val % 20) + j.val, h⟩ k : ℝ) : EReal) else 0) = _
  unfold wreal
  by_cases h : 1024 * (t.val % 20) + j.val < 20000
  · rw [dif_pos h, if_pos h, dif_pos h]
  · rw [dif_neg h, if_neg h]

include hE hW hL in
theorem tile_z (t : Fin cfg0.N) (r : Fin 512) :
    (fun j : Fin 1024 => k0_pay10 (grid0.coords t) (iblk0 V c 1 t) (iblk0 V c 2 t) (iblk0 V c 0 t) (ix2 r j)) = zrow Er Wr lab (grow t r) (t.val % 20) := by
  funext j
  have hc : ((grid0.coords t) 1).val = t.val % 20 := (idx_facts0 t).2.2.2.2.2.2.2.2
  refine (pay_logit (i := grid0.coords t) (x0 := iblk0 V c 0 t) (x1 := iblk0 V c 1 t) (x2 := iblk0 V c 2 t) (r := r) (c := t.val % 20) (hc := hc)
    (hc20 := Nat.mod_lt _ (by norm_num)) (er := fun r k => Er (grow t r) k)
    (hx1 := fun r k => (eblk_apply V c t r k).trans (hE (grow t r) k))
    (wr := wreal Wr t) (hx2 := fun j k => wblk_real V c Wr hW t j k)
    (lb := fun r => (lab (grow t r)).val) (hlb := fun r => (lab (grow t r)).isLt)
    (hx0 := fun r => (lblk_apply V c t r).trans (hL (grow t r))) (j := j)).trans ?_
  unfold zrow
  by_cases h : 1024 * (t.val % 20) + j.val < 20000
  · rw [if_pos h, dif_pos h]
    refine congrArg (fun x : ℝ => (x : EReal)) ?_
    unfold logitR cosR wreal
    simp only [dif_pos h]
    have hiff : ((⟨1024 * (t.val % 20) + j.val, h⟩ : Fin 20000) = lab (grow t r)) ↔ (1024 * (t.val % 20) + j.val = (lab (grow t r)).val) := Fin.ext_iff
    by_cases hq : 1024 * (t.val % 20) + j.val = (lab (grow t r)).val
    · rw [if_pos hq, if_pos (hiff.mpr hq)]
    · rw [if_neg hq, if_neg (fun h' => hq (hiff.mp h'))]
  · rw [if_neg h, dif_neg h]

include hL in
theorem tile_tr (t : Fin cfg0.N) (r : Fin 512) :
    (fun j : Fin 1024 => decide (k0_pay9 (grid0.coords t) (iblk0 V c 0 t) (ix2 r j) = 1#1)) = trow lab (grow t r) (t.val % 20) := by
  funext j
  have hc : ((grid0.coords t) 1).val = t.val % 20 := (idx_facts0 t).2.2.2.2.2.2.2.2
  unfold trow
  exact decide_eq_decide.mpr (pay_true (i := grid0.coords t) (x0 := iblk0 V c 0 t) (r := r) (c := t.val % 20) (hc := hc)
    (hc20 := Nat.mod_lt _ (by norm_num)) (lb := fun r => (lab (grow t r)).val) (hlb := fun r => (lab (grow t r)).isLt)
    (hx0 := fun r => (lblk_apply V c t r).trans (hL (grow t r))) (j := j))

include hE hW hL in
theorem step_at (t : Fin cfg0.N) (r : Fin 512) (xs : Col0 Ideal × Col0 Ideal × Col0 Ideal) :
    ((upd0 V c t xs).1 (ix2 r (0 : Fin 1)), (upd0 V c t xs).2.1 (ix2 r (0 : Fin 1)), (upd0 V c t xs).2.2 (ix2 r (0 : Fin 1)))
      = stepE (xs.1 (ix2 r (0 : Fin 1)), xs.2.1 (ix2 r (0 : Fin 1)), xs.2.2 (ix2 r (0 : Fin 1))) (zrow Er Wr lab (grow t r) (t.val % 20)) (trow lab (grow t r) (t.val % 20)) := by
  rw [← tile_z V c Er Wr lab hE hW hL t r, ← tile_tr V c lab hL t r]
  exact pay_step (i := grid0.coords t) (x0 := iblk0 V c 0 t) (x1 := iblk0 V c 1 t) (x2 := iblk0 V c 2 t) (ms := xs.1) (ls := xs.2.1) (ts := xs.2.2) (r := r)

include hE hW hL in
theorem state_A (t : Fin cfg0.N) (h0 : t.val % 20 = 0) (h1 : ¬t.val % 20 = 19) (r : Fin 512) :
    ((outsAt0 V c t.val t.isLt).2.1 (ix2 r (0 : Fin 1)), (outsAt0 V c t.val t.isLt).2.2.1 (ix2 r (0 : Fin 1)), (outsAt0 V c t.val t.isLt).2.2.2 (ix2 r (0 : Fin 1))) = runE (zrow Er Wr lab (grow t r)) (trow lab (grow t r)) (t.val % 20) := by
  rw [outsAt0_A V c t h0 h1, (outs0_eq V c t).1]
  refine (step_at V c Er Wr lab hE hW hL t r _).trans ?_
  dsimp only
  rw [(pay_reset r).1, (pay_reset r).2.1, (pay_reset r).2.2, h0]
  rfl

include hE hW hL in
theorem state_BC (t : Fin cfg0.N) (h0 : ¬t.val % 20 = 0) (r : Fin 512) (s : EReal × EReal × EReal)
    (hs : ((prev0 V c t).1 (ix2 r (0 : Fin 1)), (prev0 V c t).2.1 (ix2 r (0 : Fin 1)), (prev0 V c t).2.2 (ix2 r (0 : Fin 1))) = s) :
    ((outsAt0 V c t.val t.isLt).2.1 (ix2 r (0 : Fin 1)), (outsAt0 V c t.val t.isLt).2.2.1 (ix2 r (0 : Fin 1)), (outsAt0 V c t.val t.isLt).2.2.2 (ix2 r (0 : Fin 1))) = stepE s (zrow Er Wr lab (grow t r) (t.val % 20)) (trow lab (grow t r) (t.val % 20)) := by
  subst hs
  by_cases h1 : t.val % 20 = 19
  · rw [outsAt0_C V c t h0 h1, (outs0_eq V c t).2.2]
    exact step_at V c Er Wr lab hE hW hL t r (prev0 V c t)
  · rw [outsAt0_B V c t h0 h1, (outs0_eq V c t).2.1]
    exact step_at V c Er Wr lab hE hW hL t r (prev0 V c t)

include hE hW hL in
theorem state_eq : ∀ (n : ℕ) (hn : n < cfg0.N) (r : Fin 512),
    ((outsAt0 V c n hn).2.1 (ix2 r (0 : Fin 1)), (outsAt0 V c n hn).2.2.1 (ix2 r (0 : Fin 1)), (outsAt0 V c n hn).2.2.2 (ix2 r (0 : Fin 1)))
      = runE (zrow Er Wr lab (grow ⟨n, hn⟩ r)) (trow lab (grow ⟨n, hn⟩ r)) (n % 20)
  | 0, hn, r => state_A V c Er Wr lab hE hW hL ⟨0, hn⟩ (Nat.zero_mod _) (by show ¬(0 % 20 = 19); omega) r
  | k + 1, hn, r => by
    by_cases h0 : (k + 1) % 20 = 0
    · exact state_A V c Er Wr lab hE hW hL ⟨k + 1, hn⟩ h0 (by show ¬((k + 1) % 20 = 19); omega) r
    · have hk : k < cfg0.N := Nat.lt_of_succ_lt hn
      have ih := state_eq k hk r
      have hg : grow ⟨k, hk⟩ r = grow ⟨k + 1, hn⟩ r := Fin.ext (by show 512 * (k / 20) + r.val = 512 * ((k + 1) / 20) + r.val; omega)
      have hm : (k + 1) % 20 = k % 20 + 1 := by omega
      rw [hg] at ih
      refine (state_BC V c Er Wr lab hE hW hL ⟨k + 1, hn⟩ h0 r _ ih).trans ?_
      show stepE (runE _ _ (k % 20)) (zrow Er Wr lab _ ((k + 1) % 20)) (trow lab _ ((k + 1) % 20)) = runE _ _ ((k + 1) % 20)
      rw [hm]
      rfl

theorem out_at_C (t : Fin cfg0.N) (h0 : ¬t.val % 20 = 0) (h1 : t.val % 20 = 19) :
    (outsAt0 V c t.val t.isLt).1 = k0_pay4 (outsAt0 V c t.val t.isLt).2.1 (outsAt0 V c t.val t.isLt).2.2.1 (outsAt0 V c t.val t.isLt).2.2.2 := by
  rw [outsAt0_C V c t h0 h1, (outs0_eq V c t).2.2]

def nllCol : S4096x1.Idx → EReal := fun idx => ((nllR Er Wr lab (idx 0) : ℝ) : EReal)

theorem mem_blk3 (t : Fin cfg0.N) (idx : S4096x1.Idx) :
    idx ∈ ((cfg0.win 3).blk t).view.set ↔ ∀ a : Fin 2, win0_3.index t a * S512x1.size a ≤ (idx a).val ∧ (idx a).val < win0_3.index t a * S512x1.size a + S512x1.size a := by
  show idx ∈ ((View.whole main_v10).slice (win0_3.rect t)).set ↔ _
  rw [View.set_slice_whole, Rect.mem_set_unit]
  exact Iff.rfl

include hE hW hL in
theorem flushed3_eq (t : Fin cfg0.N) (hf : (cfg0.win 3).flush t = true) :
    (dat0 V c).flushed 3 t = ((cfg0.win 3).blk t).view.read (Elt Ideal) (nllCol Er Wr lab) := by
  have h1 : t.val % 20 = 19 := (flush0_3 t).mp hf
  have h0 : ¬t.val % 20 = 0 := by omega
  obtain ⟨-, -, -, -, -, -, e0, e1, -⟩ := idx_facts0 t
  show (cfg0.win 3).cut (grid0.coords t) ((dat0 V c).after 3 t) = _
  rw [after0_3, out_at_C V c t h0 h1]
  funext y
  obtain ⟨r, q, rfl⟩ : ∃ (r : Fin 512) (q : Fin 1), y = ix2 r q := ⟨y 0, y 1, eq_ix2 y⟩
  obtain rfl : q = 0 := Subsingleton.elim _ _
  rw [View.read_apply]
  have hemb : ((cfg0.win 3).blk t).view.emb (ix2 r (0 : Fin 1)) = ix2 (grow t r) (0 : Fin 1) := by
    funext a; apply Fin.ext
    match a with
    | ⟨0, _⟩ => show win0_3.index t (0 : Fin 2) * 512 + 1 * r.val = 512 * (t.val / 20) + r.val; omega
    | ⟨1, _⟩ => show win0_3.index t (1 : Fin 2) * 1 + 1 * 0 = 0; omega
  rw [hemb]
  show k0_pay4 (outsAt0 V c t.val t.isLt).2.1 (outsAt0 V c t.val t.isLt).2.2.1 (outsAt0 V c t.val t.isLt).2.2.2 (ix2 r (0 : Fin 1)) = ((nllR Er Wr lab (grow t r) : ℝ) : EReal)
  rw [pay_out]
  have hst := state_eq V c Er Wr lab hE hW hL t.val t.isLt r
  rw [h1] at hst
  have e1' := congrArg Prod.fst hst
  have e2' := congrArg (fun s : EReal × EReal × EReal => s.2.1) hst
  have e3' := congrArg (fun s : EReal × EReal × EReal => s.2.2) hst
  dsimp only at e1' e2' e3'
  rw [e1', e2', e3']
  exact online_softmax_nllR Er Wr lab (grow t r) (zrow Er Wr lab (grow t r)) (trow lab (grow t r)) (fun _ _ _ => rfl) (fun _ _ _ => rfl)

theorem cover3 (idx : S4096x1.Idx) : ∃ t : Fin cfg0.N, (cfg0.win 3).flush t = true ∧ idx ∈ ((cfg0.win 3).blk t).view.set := by
  have hi0 : (idx 0).val < 4096 := idx2_lt0 idx
  have hi1 : (idx 1).val < 1 := (idx 1).isLt
  have hN : cfg0.N = 160 := N_0
  obtain ⟨t, ht⟩ : ∃ t : Fin cfg0.N, t.val = 20 * ((idx 0).val / 512) + 19 := ⟨⟨20 * ((idx 0).val / 512) + 19, by omega⟩, rfl⟩
  obtain ⟨-, -, -, -, -, -, e0, e1, -⟩ := idx_facts0 t
  refine ⟨t, (flush0_3 t).mpr (by omega), ?_⟩
  rw [mem_blk3]
  intro a
  match a with
  | ⟨0, _⟩ => show win0_3.index t (0 : Fin 2) * 512 ≤ (idx 0).val ∧ (idx 0).val < win0_3.index t (0 : Fin 2) * 512 + 512; omega
  | ⟨1, _⟩ => show win0_3.index t (1 : Fin 2) * 1 ≤ (idx 1).val ∧ (idx 1).val < win0_3.index t (1 : Fin 2) * 1 + 1; omega

include hE hW hL in
theorem arrAt_eq : (dat0 (F := Ideal) V c).arrAt 3 cfg0.N = nllCol Er Wr lab :=
  (dat0 V c).arrAt_eq_of_cover 3 (nllCol Er Wr lab) (flushed3_eq V c Er Wr lab hE hW hL) cover3

end Tile

end R0

theorem arrAt0_3 (V : (c : Dev nD) → (b : Ref sig .tc) → Buf (Elt Ideal) ((c : Thread nD τ).loc b)) (c : Dev nD)
    (Er : Fin 4096 → Fin 256 → ℝ) (Wr : Fin 20000 → Fin 256 → ℝ) (lab : Fin 4096 → Fin 20000)
    (hE : ∀ i k, (V c main_v6 : S4096x256.Idx → EReal) (ix2 i k) = ((Er i k : ℝ) : EReal))
    (hW : ∀ (j : Fin 20480) (k : Fin 256), (V c main_v8 : S20480x256.Idx → EReal) (ix2 j k) = if h : j.val < 20000 then ((Wr ⟨j.val, h⟩ k : ℝ) : EReal) else 0)
    (hL : ∀ i, (V c main_v9 : S4096x1.Idx → BitVec 32) (ix2 i (0 : Fin 1)) = BitVec.ofNat 32 (lab i).val) :
    ∀ i : Fin 4096, ((dat0 (F := Ideal) V c).arrAt 3 cfg0.N : S4096x1.Idx → EReal) (ix2 i (0 : Fin 1)) = ((Cert.Spec.nllR Er Wr lab i : ℝ) : EReal) :=
  fun i => congrFun (R0.arrAt_eq V c Er Wr lab hE hW hL) (ix2 i (0 : Fin 1))

end Cert.KernelIdeal.Val

end
-- ==== Proof.KI.R1Piece.lean ====
import proofs.«410009_j62173946577734_1_alg».proof.Proof.KI.R1RunA
import proofs.«410009_j62173946577734_1_alg».proof.Proof.KI.R1RunB
import Idealize.ShloMosaic.Lib.Pipeline.Value
import Idealize.ShloMosaic.Lib.Tactic

noncomputable section

namespace Cert.KernelIdeal.Val.R1

open Cert.KernelIdeal Cert.KernelIdeal.Gen Cert.KernelIdeal.Fr
open Idealize.ShloMosaic Idealize.ShloMosaic.TcCoe Idealize.ShloMosaic.Tactic
open Idealize.SL Idealize.SL.Sem
open Idealize.ShloMosaic.Pipeline (Dat Cfg Window)

variable {F : FTy → Type} [FloatOps F] [Named F]

theorem hz2 : (![0, 0] : Fin 2 → Nat) = fun _ => 0 := funext fun a => by fin_cases a <;> rfl

-- What either case leaves in the outputs is the body's arithmetic of the blocks: this tile's masked row sums and row counts,
-- added to the zero blocks where the second grid coordinate is 0 and to what the outputs held elsewhere.
theorem outs_eq (c : Dev nD) (i : grid1.Coords) (m : Mems1) (x : Ins1 F) :
    (∀ hc0, outA c i m hc0 x = (k1_pay5 i x.x2 x.x3 x.x0 x.x1 (k1_pay2 (F := F)), k1_pay1 (k1_pay4 i x.x0 x.x1) (k1_pay3 (F := F))))
    ∧ ∀ hc0 xo, outB c i m hc0 x xo = (k1_pay5 i x.x2 x.x3 x.x0 x.x1 xo.1, k1_pay1 (k1_pay4 i x.x0 x.x1) xo.2) := by
  refine ⟨fun hc0 => ?_, fun hc0 xo => ?_⟩
  all_goals
    first | unfold outA kernelRun1_A | unfold outB kernelRun1_B
    dsimp only
    sl_unfold_words
    simp only [View.canon_cons_unit_zero (S := S512x1) hz2, View.readAt_eq_ld, m.h2.read_unread, m.h3.read_unread, m.h4.read_unread, m.h5.read_unread,
      m.h6.read_unread, m.h7.read_unread, View.ld_unit_zero (S := S512x1) hz2, View.ld_unit_zero (S := S1x512) hz2, View.ld_unit_zero (S := S512x256) hz2,
      View.readCov_unit_zero (S := S512x1) _ hz2]

end Cert.KernelIdeal.Val.R1

end
-- ==== Proof.KI.R1Blocks.lean ====
import proofs.«410009_j62173946577734_1_alg».proof.Proof.KI.R1Frame
import Idealize.ShloMosaic.Lib.Pipeline.Value
import Idealize.ShloMosaic.Lib.ValueIdx
import Idealize.ShloMosaic.Lib.Tactic

noncomputable section

namespace Cert.KernelIdeal.Val.R1

open Cert.KernelIdeal Cert.KernelIdeal.Gen Cert.KernelIdeal.Fr
open Idealize.ShloMosaic Idealize.ShloMosaic.TcCoe Idealize.ShloMosaic.Tactic
open Idealize.SL Idealize.SL.Sem
open Idealize.ShloMosaic.Pipeline (Dat Cfg Window)

open Idealize.ShloMosaic.ValueIdx
open scoped BigOperators

variable {F : FTy → Type} [FloatOps F] [Named F]

-- Point `t` of the 8x8 grid is (row tile `t / 8`, column tile `t % 8`): windows 0, 2, 4, 5 move with the row tile, windows 1 and 3 with the column tile.
theorem idx_facts1 : ∀ t : Fin cfg1.N,
    win1_0.index t (0 : Fin 2) = t.val / 8 ∧ win1_0.index t (1 : Fin 2) = 0
    ∧ win1_1.index t (0 : Fin 2) = 0 ∧ win1_1.index t (1 : Fin 2) = t.val % 8
    ∧ win1_2.index t (0 : Fin 2) = t.val / 8 ∧ win1_2.index t (1 : Fin 2) = 0
    ∧ win1_3.index t (0 : Fin 2) = t.val % 8 ∧ win1_3.index t (1 : Fin 2) = 0
    ∧ win1_4.index t (0 : Fin 2) = t.val / 8 ∧ win1_4.index t (1 : Fin 2) = 0
    ∧ win1_5.index t (0 : Fin 2) = t.val / 8 ∧ win1_5.index t (1 : Fin 2) = 0
    ∧ (grid1.coords t 0).val = t.val / 8 ∧ (grid1.coords t 1).val = t.val % 8 :=
  (by decide +kernel : ∀ t : Fin grid1.N, _)

abbrev tRow (t : Fin cfg1.N) : Fin 8 := ⟨t.val / 8, by have := lt_of_lt_of_eq t.isLt N_1; omega⟩
abbrev tCol (t : Fin cfg1.N) : Fin 8 := ⟨t.val % 8, Nat.mod_lt _ (by decide)⟩

-- Row (or column) `r` of tile `it`, as one of the 4096 global rows.
abbrev grow (it : Fin 8) (r : Fin 512) : Fin 4096 := ⟨512 * it.val + r.val, by have := it.isLt; have := r.isLt; omega⟩

section
variable (V : (c : Dev nD) → (b : Ref sig .tc) → Buf (Elt F) ((c : Thread nD τ).loc b)) (c : Dev nD) (t : Fin cfg1.N)

abbrev lrow : Vec F S512x1 .i32 := iblk1 V c 0 t
abbrev lcol : Vec F S1x512 .i32 := iblk1 V c 1 t
abbrev erow : Vec F S512x256 .bf16 := iblk1 V c 2 t
abbrev ecol : Vec F S512x256 .bf16 := iblk1 V c 3 t
abbrev Lr : S4096x1.Idx → Elt F .i32 := V c main_v13
abbrev Lc : S1x4096.Idx → Elt F .i32 := V c main_v14
abbrev Ea : S4096x256.Idx → Elt F .bf16 := V c main_v6

-- Each block read at an index is its array at the tile's global index.
theorem lrow_apply (r : Fin 512) : lrow V c t (ix2 r (0 : Fin 1)) = Lr V c (ix2 (grow (tRow t) r) (0 : Fin 1)) := by
  obtain ⟨e0, e1, -⟩ := idx_facts1 t
  refine congrArg (V c main_v13) (funext fun a => Fin.ext ?_)
  match a with
  | ⟨0, _⟩ => show win1_0.index t (0 : Fin 2) * 512 + 1 * r.val = 512 * (t.val / 8) + r.val; rw [e0]; omega
  | ⟨1, _⟩ => show win1_0.index t (1 : Fin 2) * 1 + 1 * 0 = 0; rw [e1]

theorem lcol_apply (j : Fin 512) : lcol V c t (ix2 (0 : Fin 1) j) = Lc V c (ix2 (0 : Fin 1) (grow (tCol t) j)) := by
  obtain ⟨-, -, e0, e1, -⟩ := idx_facts1 t
  refine congrArg (V c main_v14) (funext fun a => Fin.ext ?_)
  match a with
  | ⟨0, _⟩ => show win1_1.index t (0 : Fin 2) * 1 + 1 * 0 = 0; rw [e0]
  | ⟨1, _⟩ => show win1_1.index t (1 : Fin 2) * 512 + 1 * j.val = 512 * (t.val % 8) + j.val; rw [e1]; omega

theorem erow_apply (r : Fin 512) (k : Fin 256) : erow V c t (ix2 r k) = Ea V c (ix2 (grow (tRow t) r) k) := by
  obtain ⟨-, -, -, -, e0, e1, -⟩ := idx_facts1 t
  refine congrArg (V c main_v6) (funext fun a => Fin.ext ?_)
  match a with
  | ⟨0, _⟩ => show win1_2.index t (0 : Fin 2) * 512 + 1 * r.val = 512 * (t.val / 8) + r.val; rw [e0]; omega
  | ⟨1, _⟩ => show win1_2.index t (1 : Fin 2) * 256 + 1 * k.val = k.val; rw [e1]; omega

theorem ecol_apply (j : Fin 512) (k : Fin 256) : ecol V c t (ix2 j k) = Ea V c (ix2 (grow (tCol t) j) k) := by
  obtain ⟨-, -, -, -, -, -, e0, e1, -⟩ := idx_facts1 t
  refine congrArg (V c main_v6) (funext fun a => Fin.ext ?_)
  match a with
  | ⟨0, _⟩ => show win1_3.index t (0 : Fin 2) * 512 + 1 * j.val = 512 * (t.val % 8) + j.val; rw [e0]; omega
  | ⟨1, _⟩ => show win1_3.index t (1 : Fin 2) * 256 + 1 * k.val = k.val; rw [e1]; omega

end

-- The last point of row tile `it`.
abbrev tLast (it : ℕ) (hit : it < 8) : Fin cfg1.N := ⟨8 * it + 7, by rw [show cfg1.N = 64 from N_1]; omega⟩

-- Every row of each output array lies in the block of its row tile's last point.
theorem cover1_4 (i : S4096x1.Idx) : ∃ t : Fin cfg1.N, (cfg1.win 4).flush t = true ∧ i ∈ ((cfg1.win 4).blk t).view.set := by
  have h0 : (i 0).val < 4096 := (i 0).isLt
  have h1 : (i 1).val < 1 := (i 1).isLt
  have hlt : (i 0).val / 512 < 8 := by omega
  refine ⟨tLast ((i 0).val / 512) hlt, (flush1_4 _).mpr (by show (8 * ((i 0).val / 512) + 7) % 8 = 7; omega), ?_⟩
  show i ∈ ((View.whole main_v15_0).slice (win1_4.rect (tLast ((i 0).val / 512) hlt))).set
  rw [View.set_slice_whole, Rect.mem_set_unit]
  obtain ⟨-, -, -, -, -, -, -, -, e0, e1, -⟩ := idx_facts1 (tLast ((i 0).val / 512) hlt)
  intro a
  match a with
  | ⟨0, _⟩ => show win1_4.index _ (0 : Fin 2) * 512 ≤ (i 0).val ∧ (i 0).val < win1_4.index _ (0 : Fin 2) * 512 + 512; rw [e0]; show (8 * ((i 0).val / 512) + 7) / 8 * 512 ≤ _ ∧ _ < (8 * ((i 0).val / 512) + 7) / 8 * 512 + 512; omega
  | ⟨1, _⟩ => show win1_4.index _ (1 : Fin 2) * 1 ≤ (i 1).val ∧ (i 1).val < win1_4.index _ (1 : Fin 2) * 1 + 1; rw [e1]; omega

theorem cover1_5 (i : S4096x1.Idx) : ∃ t : Fin cfg1.N, (cfg1.win 5).flush t = true ∧ i ∈ ((cfg1.win 5).blk t).view.set := by
  have h0 : (i 0).val < 4096 := (i 0).isLt
  have h1 : (i 1).val < 1 := (i 1).isLt
  have hlt : (i 0).val / 512 < 8 := by omega
  refine ⟨tLast ((i 0).val / 512) hlt, (flush1_5 _).mpr (by show (8 * ((i 0).val / 512) + 7) % 8 = 7; omega), ?_⟩
  show i ∈ ((View.whole main_v15_1).slice (win1_5.rect (tLast ((i 0).val / 512) hlt))).set
  rw [View.set_slice_whole, Rect.mem_set_unit]
  obtain ⟨-, -, -, -, -, -, -, -, -, -, e0, e1, -⟩ := idx_facts1 (tLast ((i 0).val / 512) hlt)
  intro a
  match a with
  | ⟨0, _⟩ => show win1_5.index _ (0 : Fin 2) * 512 ≤ (i 0).val ∧ (i 0).val < win1_5.index _ (0 : Fin 2) * 512 + 512; rw [e0]; show (8 * ((i 0).val / 512) + 7) / 8 * 512 ≤ _ ∧ _ < (8 * ((i 0).val / 512) + 7) / 8 * 512 + 512; omega
  | ⟨1, _⟩ => show win1_5.index _ (1 : Fin 2) * 1 ≤ (i 1).val ∧ (i 1).val < win1_5.index _ (1 : Fin 2) * 1 + 1; rw [e1]; omega

end Cert.KernelIdeal.Val.R1

end
-- ==== Proof.KI.R1Pay.lean ====
import proofs.«410009_j62173946577734_1_alg».proof.Proof.Gen.KernelIdeal.Skeleton
import proofs.«410009_j62173946577734_1_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.Affine
import Idealize.ShloMosaic.PureOps.Ideal.Laws
import Mathlib.Data.EReal.Basic
import Mathlib.Data.EReal.Operations
import Mathlib.Algebra.BigOperators.Fin
import Mathlib.Logic.Equiv.Fin.Basic

noncomputable section

namespace Cert.KernelIdeal.Val

open Cert.KernelIdeal Cert.KernelIdeal.Gen
open Idealize.ShloMosaic Idealize.ShloMosaic.ValueIdx Idealize.ShloMosaic.StableHlo
open scoped BigOperators

theorem pay_zero (r : Fin 512) :
    k1_pay2 (F := Ideal) (ix2 r (0 : Fin 1)) = 0 ∧ k1_pay3 (F := Ideal) (ix2 r (0 : Fin 1)) = 0 :=
  ⟨Ideal.ofBits_zero_f32, Ideal.ofBits_zero_f32⟩

theorem r1_lift_row (r : Fin 512) (k : Fin 512) :
    reduces_S512x512_S512.lift (ix1 r) k = ix2 r k := by
  funext a
  refine Fin.ext ?_
  show reduces_S512x512_S512.liftVal (ix1 r) k.val a = (ix2 r k a).val
  match a with
  | ⟨0, _⟩ => rfl
  | ⟨1, _⟩ => rfl

theorem r1_rowsum_apply (x : FVec Ideal S512x512 .f32) (r : Fin 512) :
    shapeCast S512x1 (multiReduction (F := Ideal) .add [1] S512 x 0x00000000#32 reduces_S512x512_S512 (.inl rfl) rfl) shapeCasts_S512_S512x1
      (ix2 r (0 : Fin 1)) = ∑ j : Fin 512, x (ix2 r j) := by
  refine (shapeCast_apply _ shapeCasts_S512_S512x1 (ix2 r (0 : Fin 1)) (ix1 r) ?_).trans ?_
  · rw [Shape.rowMajor_val_two, Shape.rowMajor_val_one]
    show r.val = r.val * 1 + 0
    omega
  · refine (Ideal.multiReduction_add_single x _ reduces_S512x512_S512 (.inl rfl) rfl (ix1 r)).trans ?_
    exact Finset.sum_congr rfl fun k _ => congrArg x (r1_lift_row r k)

theorem r1_sitofp_bit (b : BitVec 1) :
    (FloatOps.sitofp (F := Ideal) .f32 (b.setWidth 32) : EReal) = if b = 1#1 then 1 else 0 := by
  have hb : b = 0#1 ∨ b = 1#1 := by
    have := b.isLt
    rcases (show b.toNat = 0 ∨ b.toNat = 1 by omega) with h | h
    · exact .inl (BitVec.eq_of_toNat_eq h)
    · exact .inr (BitVec.eq_of_toNat_eq h)
  rcases hb with rfl | rfl
  · show (((BitVec.setWidth 32 0#1).toInt : ℝ) : EReal) = _
    simp
  · show (((BitVec.setWidth 32 1#1).toInt : ℝ) : EReal) = _
    simp

theorem pay_cnt (v27 : IVec S512x512 1) (acc : Vec Ideal S512x1 .f32) (r : Fin 512) :
    k1_pay1 v27 acc (ix2 r (0 : Fin 1)) = acc (ix2 r (0 : Fin 1)) + ∑ j : Fin 512, if v27 (ix2 r j) = 1#1 then 1 else 0 := by
  unfold k1_pay1
  show (shapeCast S512x1 acc shapeCasts_S512x1_S512x1) (ix2 r (0 : Fin 1)) + _ = _
  rw [shapeCast_self]
  refine congrArg (acc (ix2 r (0 : Fin 1)) + ·) ?_
  refine (r1_rowsum_apply _ r).trans ?_
  exact Finset.sum_congr rfl fun j _ => r1_sitofp_bit (v27 (ix2 r j))

theorem r1_bcast_col_apply {α : Type} (v : S512x1.Idx → α) (r j : Fin 512) :
    broadcastTo S512x512 v broadcasts_S512x1_S512x512 (ix2 r j) = v (ix2 r (0 : Fin 1)) := by
  exact broadcastTo_apply v _ _ _ fun ax => match ax with | ⟨0, _⟩ => rfl | ⟨1, _⟩ => rfl

theorem r1_bcast_row_apply {α : Type} (v : S1x512.Idx → α) (r j : Fin 512) :
    broadcastTo S512x512 v broadcasts_S1x512_S512x512 (ix2 r j) = v (ix2 (0 : Fin 1) j) := by
  exact broadcastTo_apply v _ _ _ fun ax => match ax with | ⟨0, _⟩ => rfl | ⟨1, _⟩ => rfl

theorem r1_gidx_toNat (c : ℕ) (hc : c < 8) (r : Fin 512) :
    (IntOp.addi (Scalar.muli (BitVec.ofNat 32 c) 512#32) (BitVec.ofNat 32 r.val)).toNat = 512 * c + r.val := by
  have := r.isLt
  show ((BitVec.ofNat 32 c * 512#32) + BitVec.ofNat 32 r.val).toNat = _
  simp only [BitVec.toNat_add, BitVec.toNat_mul, BitVec.toNat_ofNat]
  omega

theorem pay_mask (i : grid1.Coords) (v19 : Vec Ideal S512x1 .i32) (v21 : Vec Ideal S1x512 .i32) (r j : Fin 512) :
    (k1_pay4 i v19 v21 (ix2 r j) = 1#1) ↔
      (v19 (ix2 r (0 : Fin 1)) = v21 (ix2 (0 : Fin 1) j) ∧ 512 * (i 0).val + r.val < 512 * (i 1).val + j.val) := by
  have h0 : (i 0).val < 8 := (i 0).isLt
  have h1 : (i 1).val < 8 := (i 1).isLt
  have hr := r.isLt
  have hj := j.isLt
  unfold k1_pay4
  show IntOp.andi
      (IntOp.cmpi .eq
        (broadcastTo S512x512 (shapeCast S512x1 v19 shapeCasts_S512x1_S512x1) broadcasts_S512x1_S512x512 (ix2 r j))
        (broadcastTo S512x512 (shapeCast S1x512 v21 shapeCasts_S1x512_S1x512) broadcasts_S1x512_S512x512 (ix2 r j)))
      (IntOp.cmpi .slt
        (IntOp.addi (Scalar.muli (BitVec.ofNat 32 (i 0).val) 512#32) (iota .tc S512x512 32 [0] iota_S512x512_d0_w32 (ix2 r j)))
        (IntOp.addi (Scalar.muli (BitVec.ofNat 32 (i 1).val) 512#32) (iota .tc S512x512 32 [1] iota_S512x512_d1_w32 (ix2 r j))))
      = 1#1 ↔ _
  rw [IntOp.andi_eq_one, Predicate.cmpi_eq_iff, r1_bcast_col_apply, r1_bcast_row_apply, shapeCast_self, shapeCast_self,
    iota_single_apply, iota_single_apply]
  show _ ∧ IntOp.cmpi .slt (IntOp.addi (Scalar.muli (BitVec.ofNat 32 (i 0).val) 512#32) (BitVec.ofNat 32 r.val))
      (IntOp.addi (Scalar.muli (BitVec.ofNat 32 (i 1).val) 512#32) (BitVec.ofNat 32 j.val)) = 1#1 ↔ _
  rw [Predicate.slt_iff_toNat (by rw [r1_gidx_toNat _ h0]; omega) (by rw [r1_gidx_toNat _ h1]; omega), r1_gidx_toNat _ h0, r1_gidx_toNat _ h1]

theorem r1_ofBits_one : Ideal.ofBits .f32 0x3F800000#32 = 1 := by
  simp [Ideal.ofBits, Ideal.ieee, -EReal.coe_mul]; norm_num

theorem r1_mm_apply (x : FVec Ideal S512x256 .bf16) (y : FVec Ideal S256x512 .bf16) (r j : Fin 512) :
    matmul dot_S512x256_S256x512_S512x512_1_0_0_1_n_n none x y (constant (F := Ideal) S512x512 .f32 0x00000000#32) (ix2 r j)
      = ∑ k : Fin 256, x (ix2 r k) * y (ix2 k j) := by
  simp only [matmul]
  rw [Ideal.matmul_constant_zero_apply, ← Equiv.sum_comp (ValueIdx.contrEquiv1 dot_S512x256_S256x512_S512x512_1_0_0_1_n_n 256 rfl rfl).symm]
  refine Finset.sum_congr rfl fun k _ => ?_
  have hk := ValueIdx.contrEquiv1_symm_val dot_S512x256_S256x512_S512x512_1_0_0_1_n_n 256 rfl rfl k
  have el : dot_S512x256_S256x512_S512x512_1_0_0_1_n_n.lhsIdx (ix2 r j) ((ValueIdx.contrEquiv1 dot_S512x256_S256x512_S512x512_1_0_0_1_n_n 256 rfl rfl).symm k) = ix2 r k := funext fun a => Fin.ext (by
    match a with
    | ⟨0, _⟩ =>
      show (dot_S512x256_S256x512_S512x512_1_0_0_1_n_n.lhsIdx _ _ 0).val = _
      unfold DotDims.lhsIdx
      rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
      rfl
    | ⟨1, _⟩ => exact (dot_S512x256_S256x512_S512x512_1_0_0_1_n_n.lhsIdx_val_of_single rfl _ _).trans hk)
  have er : dot_S512x256_S256x512_S512x512_1_0_0_1_n_n.rhsIdx (ix2 r j) ((ValueIdx.contrEquiv1 dot_S512x256_S256x512_S512x512_1_0_0_1_n_n 256 rfl rfl).symm k) = ix2 k j := funext fun a => Fin.ext (by
    match a with
    | ⟨0, _⟩ => exact (dot_S512x256_S256x512_S512x512_1_0_0_1_n_n.rhsIdx_val_of_single rfl _ _).trans hk
    | ⟨1, _⟩ =>
      show (dot_S512x256_S256x512_S512x512_1_0_0_1_n_n.rhsIdx _ _ 1).val = _
      unfold DotDims.rhsIdx
      rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
      rfl)
  rw [el, er]

theorem r1_select_entry (m : IVec S512x512 1) (a b : FVec Ideal S512x512 .f32) (idx : S512x512.Idx) :
    select m a b idx = if m idx = 1#1 then a idx else b idx := rfl

theorem pay_dsum (i : grid1.Coords) (v3 v5 : Vec Ideal S512x256 .bf16) (v19 : Vec Ideal S512x1 .i32) (v21 : Vec Ideal S1x512 .i32)
    (acc : Vec Ideal S512x1 .f32) (r : Fin 512) :
    k1_pay5 i v3 v5 v19 v21 acc (ix2 r (0 : Fin 1)) = acc (ix2 r (0 : Fin 1)) + ∑ j : Fin 512,
      if k1_pay4 i v19 v21 (ix2 r j) = 1#1 then (1 - ∑ k : Fin 256, v3 (ix2 r k) * v5 (ix2 j k)) else 0 := by
  unfold k1_pay5
  show (shapeCast S512x1 acc shapeCasts_S512x1_S512x1) (ix2 r (0 : Fin 1)) + _ = _
  rw [shapeCast_self]
  refine congrArg (acc (ix2 r (0 : Fin 1)) + ·) ?_
  refine (r1_rowsum_apply _ r).trans ?_
  refine Finset.sum_congr rfl fun j _ => ?_
  refine (r1_select_entry _ _ _ _).trans ?_
  refine if_congr Iff.rfl ?_ Ideal.ofBits_zero_f32
  refine (subf_apply _ _ _).trans ?_
  show Ideal.ofBits .f32 0x3F800000#32 - _ = _
  rw [r1_ofBits_one]
  refine congrArg (1 - ·) ?_
  refine (r1_mm_apply _ _ r j).trans ?_
  refine Finset.sum_congr rfl fun k _ => ?_
  rw [shapeCast_self, transpose_ix2_apply, shapeCast_self]

abbrev gcol (jt : Fin 8) (j : Fin 512) : Fin 4096 := ⟨512 * jt.val + j.val, by have := jt.isLt; have := j.isLt; omega⟩

def r1_tileEquiv : Fin 8 × Fin 512 ≃ Fin 4096 where
  toFun p := gcol p.1 p.2
  invFun c := (⟨c.val / 512, by have := c.isLt; omega⟩, ⟨c.val % 512, Nat.mod_lt _ (by norm_num)⟩)
  left_inv p := by
    rcases p with ⟨jt, j⟩
    have := j.isLt
    refine Prod.ext (Fin.ext ?_) (Fin.ext ?_)
    · show (512 * jt.val + j.val) / 512 = jt.val
      omega
    · show (512 * jt.val + j.val) % 512 = j.val
      omega
  right_inv c := Fin.ext (by
    show 512 * (c.val / 512) + c.val % 512 = c.val
    omega)

theorem r1_sum_tiles {M : Type} [AddCommMonoid M] (f : Fin 4096 → M) :
    (∑ jt : Fin 8, ∑ j : Fin 512, f (gcol jt j)) = ∑ c : Fin 4096, f c :=
  (Fintype.sum_prod_type' (fun jt j => f (gcol jt j))).symm.trans
    (Fintype.sum_equiv r1_tileEquiv _ _ (fun _ => rfl))

theorem r1_pair_iff (lbl : Fin 4096 → BitVec 32) (g c : Fin 4096) :
    (lbl g = lbl c ∧ g.val < c.val) ↔ Cert.Spec.pairB lbl g c = true := by
  unfold Cert.Spec.pairB
  rw [Bool.and_eq_true, decide_eq_true_eq, decide_eq_true_eq, Fin.lt_def]

theorem tiles_sum {M : Type} [AddCommMonoid M] (lbl : Fin 4096 → BitVec 32) (g : Fin 4096) (f : Fin 4096 → M) :
    (∑ jt : Fin 8, ∑ j : Fin 512, if (lbl g = lbl (gcol jt j) ∧ g.val < 512 * jt.val + j.val) then f (gcol jt j) else 0)
      = ∑ c, if Cert.Spec.pairB lbl g c = true then f c else 0 :=
  (r1_sum_tiles fun c => if (lbl g = lbl c ∧ g.val < c.val) then f c else 0).trans
    (Finset.sum_congr rfl fun c _ => if_congr (r1_pair_iff lbl g c) rfl rfl)

end Cert.KernelIdeal.Val

end
-- ==== Proof.KI.R1Value.lean ====
import proofs.«410009_j62173946577734_1_alg».proof.Proof.KI.R1Piece
import proofs.«410009_j62173946577734_1_alg».proof.Proof.KI.R1Blocks
import proofs.«410009_j62173946577734_1_alg».proof.Proof.KI.R1Pay
import proofs.«410009_j62173946577734_1_alg».proof.Proof.Spec
import Idealize.ShloMosaic.Lib.Pipeline.Value
import Idealize.ShloMosaic.Lib.ValueIdx
import Idealize.ShloMosaic.Lib.Tactic
import Mathlib.Data.EReal.Basic
import Mathlib.Algebra.BigOperators.Fin

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.RA Idealize.SL.Sem
open Idealize.ShloMosaic.Pipeline (Dat Cfg Window)

open Idealize.ShloMosaic.ValueIdx
open scoped BigOperators

namespace R1

section
variable (V : (c : Dev nD) → (b : Ref sig .tc) → Buf (Elt Ideal) ((c : Thread nD τ).loc b)) (c : Dev nD)
  (Er : Fin 4096 → Fin 256 → ℝ) (lbl : Fin 4096 → BitVec 32)

-- Column tile `jt`'s share of row `g`'s sum of cosine distances over its pairs, and of its number of pairs.
def tileD (g : Fin 4096) (jt : Fin 8) : ℝ :=
  ∑ j : Fin 512, if (lbl g = lbl (grow jt j) ∧ g.val < 512 * jt.val + j.val) then (1 - ∑ k : Fin 256, Er g k * Er (grow jt j) k) else 0
def tileC (g : Fin 4096) (jt : Fin 8) : ℝ :=
  ∑ j : Fin 512, if (lbl g = lbl (grow jt j) ∧ g.val < 512 * jt.val + j.val) then (1 : ℝ) else 0

-- The shares of the first `k` column tiles, added.
def part (tile : Fin 4096 → Fin 8 → ℝ) (g : Fin 4096) (k : ℕ) : ℝ := ∑ m ∈ Finset.range k, if h : m < 8 then tile g ⟨m, h⟩ else 0

theorem part_eight (tile : Fin 4096 → Fin 8 → ℝ) (g : Fin 4096) : part tile g 8 = ∑ jt : Fin 8, tile g jt := by
  unfold part
  rw [Finset.sum_range]
  simp only [Fin.is_lt, dite_true, Fin.eta]
theorem part_succ (tile : Fin 4096 → Fin 8 → ℝ) (g : Fin 4096) (jt : Fin 8) : part tile g (jt.val + 1) = part tile g jt.val + tile g jt := by
  unfold part; rw [Finset.sum_range_succ, dif_pos jt.isLt]

variable (hE : ∀ i k, Ea V c (ix2 i k) = ((Er i k : ℝ) : EReal))
  (hLr : ∀ i, Lr V c (ix2 i (0 : Fin 1)) = lbl i) (hLc : ∀ j, Lc V c (ix2 (0 : Fin 1) j) = lbl j)

include hLr hLc in
-- The body's mask at point `t`, row `r`, column `j`: equal labels and the global row before the global column.
theorem mask_iff (t : Fin cfg1.N) (r j : Fin 512) :
    (k1_pay4 (grid1.coords t) (lrow V c t) (lcol V c t) (ix2 r j) = 1#1)
      ↔ (lbl (grow (tRow t) r) = lbl (grow (tCol t) j) ∧ (grow (tRow t) r).val < 512 * (tCol t).val + j.val) := by
  have hm := pay_mask (grid1.coords t) (lrow V c t) (lcol V c t) r j
  rw [lrow_apply, lcol_apply, hLr, hLc] at hm
  obtain ⟨-, -, -, -, -, -, -, -, -, -, -, -, g0, g1⟩ := idx_facts1 t
  rw [g0, g1] at hm
  exact hm

include hE hLr hLc in
-- One point adds the column tile's share to the sums,
theorem step_dsum (t : Fin cfg1.N) (acc : Vec Ideal S512x1 .f32) (r : Fin 512) :
    k1_pay5 (grid1.coords t) (erow V c t) (ecol V c t) (lrow V c t) (lcol V c t) acc (ix2 r (0 : Fin 1))
      = acc (ix2 r (0 : Fin 1)) + ((tileD Er lbl (grow (tRow t) r) (tCol t) : ℝ) : EReal) := by
  rw [pay_dsum]
  congr 1
  unfold tileD
  rw [Cert.Spec.coe_sum]
  refine Finset.sum_congr rfl fun j _ => ?_
  have hm := mask_iff V c lbl hLr hLc t r j
  by_cases hp : lbl (grow (tRow t) r) = lbl (grow (tCol t) j) ∧ (grow (tRow t) r).val < 512 * (tCol t).val + j.val
  · rw [if_pos hp, if_pos (hm.mpr hp), EReal.coe_sub, EReal.coe_one, Cert.Spec.coe_sum]
    congr 1
    refine Finset.sum_congr rfl fun k _ => ?_
    rw [erow_apply, ecol_apply, hE, hE, EReal.coe_mul]
  · rw [if_neg hp, if_neg (fun h => hp (hm.mp h)), EReal.coe_zero]

include hLr hLc in
-- and to the counts.
theorem step_cnt (t : Fin cfg1.N) (acc : Vec Ideal S512x1 .f32) (r : Fin 512) :
    k1_pay1 (k1_pay4 (grid1.coords t) (lrow V c t) (lcol V c t)) acc (ix2 r (0 : Fin 1))
      = acc (ix2 r (0 : Fin 1)) + ((tileC lbl (grow (tRow t) r) (tCol t) : ℝ) : EReal) := by
  rw [pay_cnt]
  congr 1
  unfold tileC
  rw [Cert.Spec.coe_sum]
  refine Finset.sum_congr rfl fun j _ => ?_
  have hm := mask_iff V c lbl hLr hLc t r j
  by_cases hp : lbl (grow (tRow t) r) = lbl (grow (tCol t) j) ∧ (grow (tRow t) r).val < 512 * (tCol t).val + j.val
  · rw [if_pos hp, if_pos (hm.mpr hp), EReal.coe_one]
  · rw [if_neg hp, if_neg (fun h => hp (hm.mp h)), EReal.coe_zero]

-- A RUNNING SUM. If one point's update `upd` adds a column tile's share to an output (`pr`), row `r` of it holds after point `n` the shares
-- of the column tiles up to the point's own: a row tile's first point starts from the zero block, every other from what the point before left.
theorem inv (pr : Outs1 Ideal → Vec Ideal S512x1 .f32) (upd : Fin cfg1.N → Vec Ideal S512x1 .f32 → Vec Ideal S512x1 .f32)
    (z : Vec Ideal S512x1 .f32) (tile : Fin 4096 → Fin 8 → ℝ) (hz : ∀ r, z (ix2 r (0 : Fin 1)) = 0)
    (hstep : ∀ t acc r, upd t acc (ix2 r (0 : Fin 1)) = acc (ix2 r (0 : Fin 1)) + ((tile (grow (tRow t) r) (tCol t) : ℝ) : EReal))
    (hout : ∀ (t : Fin cfg1.N) (x : Ins1 Ideal), x = ins1 V c t →
      (∀ hc0, pr (outA c (grid1.coords t) (mem1 t) hc0 x) = upd t z)
      ∧ ∀ hc0 xo, pr (outB c (grid1.coords t) (mem1 t) hc0 x xo) = upd t (pr xo)) :
    ∀ (n : ℕ) (hn : n < cfg1.N) (r : Fin 512),
      pr (outsAt1 V c n hn) (ix2 r (0 : Fin 1)) = ((part tile (grow (tRow ⟨n, hn⟩) r) ((tCol ⟨n, hn⟩).val + 1) : ℝ) : EReal) := by
  intro n
  induction n using Nat.strong_induction_on with
  | _ n ih =>
    intro hn r
    have hN : n < 64 := lt_of_lt_of_eq hn N_1
    rw [outsAt1]
    by_cases h0 : n % 8 = 0
    · rw [dif_pos h0, (hout ⟨n, hn⟩ _ rfl).1, hstep, hz, part_succ tile _ (tCol ⟨n, hn⟩), show (tCol ⟨n, hn⟩).val = 0 from h0]
      unfold part
      rw [Finset.sum_range_zero, zero_add, zero_add]
    · have hn' : n - 1 < cfg1.N := lt_of_le_of_lt (Nat.sub_le _ _) hn
      have e1 : tRow ⟨n - 1, hn'⟩ = tRow ⟨n, hn⟩ := Fin.ext (by show (n - 1) / 8 = n / 8; omega)
      have e2 : (tCol ⟨n - 1, hn'⟩).val + 1 = (tCol ⟨n, hn⟩).val := by show (n - 1) % 8 + 1 = n % 8; omega
      rw [dif_neg h0, (hout ⟨n, hn⟩ _ rfl).2, hstep, ih (n - 1) (by omega) hn' r, e1, e2, part_succ tile _ (tCol ⟨n, hn⟩), EReal.coe_add]

include hE hLr hLc in
theorem inv4 : ∀ (n : ℕ) (hn : n < cfg1.N) (r : Fin 512),
    (outsAt1 V c n hn).1 (ix2 r (0 : Fin 1)) = ((part (tileD Er lbl) (grow (tRow ⟨n, hn⟩) r) ((tCol ⟨n, hn⟩).val + 1) : ℝ) : EReal) :=
  inv V c Prod.fst (fun t => k1_pay5 (grid1.coords t) (erow V c t) (ecol V c t) (lrow V c t) (lcol V c t)) (k1_pay2 (F := Ideal)) (tileD Er lbl)
  (fun r => (pay_zero r).1) (step_dsum V c Er lbl hE hLr hLc)
  fun t x hx => by subst hx; exact ⟨fun h => congrArg Prod.fst ((outs_eq c _ _ _).1 h), fun h xo => congrArg Prod.fst ((outs_eq c _ _ _).2 h xo)⟩

include hLr hLc in
theorem inv5 : ∀ (n : ℕ) (hn : n < cfg1.N) (r : Fin 512),
    (outsAt1 V c n hn).2 (ix2 r (0 : Fin 1)) = ((part (tileC lbl) (grow (tRow ⟨n, hn⟩) r) ((tCol ⟨n, hn⟩).val + 1) : ℝ) : EReal) :=
  inv V c Prod.snd (fun t => k1_pay1 (k1_pay4 (grid1.coords t) (lrow V c t) (lcol V c t))) (k1_pay3 (F := Ideal)) (tileC lbl)
  (fun r => (pay_zero r).2) (step_cnt V c lbl hLr hLc)
  fun t x hx => by subst hx; exact ⟨fun h => congrArg Prod.snd ((outs_eq c _ _ _).1 h), fun h xo => congrArg Prod.snd ((outs_eq c _ _ _).2 h xo)⟩

-- At a row tile's last point all eight column tiles' shares are in: the outputs hold the whole sums `G`.
theorem flushed_key (pr : Outs1 Ideal → Vec Ideal S512x1 .f32) (tile : Fin 4096 → Fin 8 → ℝ) (G : Fin 4096 → ℝ) (hG : ∀ g, ∑ jt : Fin 8, tile g jt = G g)
    (hinv : ∀ (n : ℕ) (hn : n < cfg1.N) (r : Fin 512),
      pr (outsAt1 V c n hn) (ix2 r (0 : Fin 1)) = ((part tile (grow (tRow ⟨n, hn⟩) r) ((tCol ⟨n, hn⟩).val + 1) : ℝ) : EReal))
    (t : Fin cfg1.N) (h7 : t.val % 8 = 7) (emb : S512x1.Idx → S4096x1.Idx) (hemb : ∀ r, emb (ix2 r (0 : Fin 1)) 0 = grow (tRow t) r) (y : S512x1.Idx) :
    pr (outsAt1 V c t.val t.isLt) y = ((G (emb y 0) : ℝ) : EReal) := by
  obtain ⟨r, z, rfl⟩ : ∃ (r : Fin 512) (z : Fin 1), y = ix2 r z := ⟨y 0, y 1, eq_ix2 y⟩
  obtain rfl : z = 0 := Subsingleton.elim _ _
  rw [hinv t.val t.isLt r, hemb, ← hG, ← part_eight, show (tCol t).val + 1 = 8 from by show t.val % 8 + 1 = 8; omega]

abbrev G4 : S4096x1.Idx → EReal := fun i => ((Cert.Spec.dsumR Er lbl (i 0) : ℝ) : EReal)
abbrev G5 : S4096x1.Idx → EReal := fun i => ((Cert.Spec.cntR lbl (i 0) : ℝ) : EReal)

include hE hLr hLc in
theorem flushed4_eq (q : Fin cfg1.W → PosShare TreeShare) (t : Fin cfg1.N) (hf : (cfg1.win 4).flush t = true) :
    (dat1 (F := Ideal) V q c).flushed 4 t = ((cfg1.win 4).blk t).view.read (Elt Ideal) (G4 Er lbl) := by
  funext y
  obtain ⟨-, -, -, -, -, -, -, -, e40, -⟩ := idx_facts1 t
  exact flushed_key V c Prod.fst _ _ (fun g => tiles_sum lbl g fun c => 1 - ∑ k : Fin 256, Er g k * Er c k) (inv4 V c Er lbl hE hLr hLc) t ((flush1_4 t).mp hf) ((cfg1.win 4).blk t).view.emb
    (fun r => Fin.ext (by show win1_4.index t (0 : Fin 2) * 512 + 1 * r.val = 512 * (t.val / 8) + r.val; rw [e40]; omega)) y

include hLr hLc in
theorem flushed5_eq (q : Fin cfg1.W → PosShare TreeShare) (t : Fin cfg1.N) (hf : (cfg1.win 5).flush t = true) :
    (dat1 (F := Ideal) V q c).flushed 5 t = ((cfg1.win 5).blk t).view.read (Elt Ideal) (G5 lbl) := by
  funext y
  obtain ⟨-, -, -, -, -, -, -, -, -, -, e50, -⟩ := idx_facts1 t
  exact flushed_key V c Prod.snd _ _ (fun g => tiles_sum lbl g fun _ => (1 : ℝ)) (inv5 V c lbl hLr hLc) t ((flush1_5 t).mp hf) ((cfg1.win 5).blk t).view.emb
    (fun r => Fin.ext (by show win1_5.index t (0 : Fin 2) * 512 + 1 * r.val = 512 * (t.val / 8) + r.val; rw [e50]; omega)) y

end

end R1

open R1

-- The sums' array ends holding, at row `i`, the real sum of `1 - ⟨Er i, Er j⟩` over the later rows `j` of equal label.
theorem arrAt1_4 (V : (c : Dev nD) → (b : Ref sig .tc) → Buf (Elt Ideal) ((c : Thread nD τ).loc b)) (q : Fin cfg1.W → PosShare TreeShare) (c : Dev nD)
    (Er : Fin 4096 → Fin 256 → ℝ) (lbl : Fin 4096 → BitVec 32)
    (hE : ∀ i k, (V c main_v6 : S4096x256.Idx → EReal) (ix2 i k) = ((Er i k : ℝ) : EReal))
    (hLr : ∀ i, (V c main_v13 : S4096x1.Idx → BitVec 32) (ix2 i (0 : Fin 1)) = lbl i)
    (hLc : ∀ j, (V c main_v14 : S1x4096.Idx → BitVec 32) (ix2 (0 : Fin 1) j) = lbl j) :
    ∀ i : Fin 4096, ((dat1 (F := Ideal) V q c).arrAt 4 cfg1.N : S4096x1.Idx → EReal) (ix2 i (0 : Fin 1)) = ((Cert.Spec.dsumR Er lbl i : ℝ) : EReal) := by
  intro i
  rw [(dat1 (F := Ideal) V q c).arrAt_eq_of_cover 4 (G4 Er lbl) (flushed4_eq V c Er lbl hE hLr hLc q) cover1_4]

-- The counts' array ends holding, at row `i`, the number of later rows of equal label.
theorem arrAt1_5 (V : (c : Dev nD) → (b : Ref sig .tc) → Buf (Elt Ideal) ((c : Thread nD τ).loc b)) (q : Fin cfg1.W → PosShare TreeShare) (c : Dev nD)
    (lbl : Fin 4096 → BitVec 32)
    (hLr : ∀ i, (V c main_v13 : S4096x1.Idx → BitVec 32) (ix2 i (0 : Fin 1)) = lbl i)
    (hLc : ∀ j, (V c main_v14 : S1x4096.Idx → BitVec 32) (ix2 (0 : Fin 1) j) = lbl j) :
    ∀ i : Fin 4096, ((dat1 (F := Ideal) V q c).arrAt 5 cfg1.N : S4096x1.Idx → EReal) (ix2 i (0 : Fin 1)) = ((Cert.Spec.cntR lbl i : ℝ) : EReal) := by
  intro i
  rw [(dat1 (F := Ideal) V q c).arrAt_eq_of_cover 5 (G5 lbl) (flushed5_eq V c lbl hLr hLc q) cover1_5]

end Cert.KernelIdeal.Val

end
-- ==== Proof.RefRun.lean ====
import proofs.«410009_j62173946577734_1_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev s01 : List (HloOp τ sig (Elt F)) :=
  [ TRef.binary (TRef.of (T := ⟨S4096x256, .f32⟩) main_arg0) (TRef.of (T := ⟨S4096x256, .f32⟩) main_arg0) (TRef.of (T := ⟨S4096x256, .f32⟩) main_call0_v0) mulf,
    TRef.nullary (TRef.of (T := ⟨S_, .f32⟩) main_call0_cst) (constant S_ .f32 0x00000000#32),
    TRef.binary (TRef.of (T := ⟨S4096x256, .f32⟩) main_call0_v0) (TRef.of (T := ⟨S_, .f32⟩) main_call0_cst) (TRef.of (T := ⟨S4096, .f32⟩) main_call0_v1) (fun x v => Host.reduceAdd x v reducesTo_S4096x256_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    unary main_v0 main_v1 (broadcastInDim S4096x256 ![0, 1] bcast_S4096x1_S4096x256_0_1 : (⟨S4096x1, .f32⟩ : BufTy).Contents (Elt F) → (⟨S4096x256, .f32⟩ : BufTy).Contents (Elt F)),
    binary main_arg0 main_v1 main_v2 (Host.divf : (⟨S4096x256, .f32⟩ : BufTy).Contents (Elt F) → (⟨S4096x256, .f32⟩ : BufTy).Contents (Elt F) → (⟨S4096x256, .f32⟩ : BufTy).Contents (Elt F)) ]

abbrev s02 : List (HloOp τ sig (Elt F)) :=
  [ TRef.binary (TRef.of (T := ⟨S20000x256, .f32⟩) main_arg2) (TRef.of (T := ⟨S20000x256, .f32⟩) main_arg2) (TRef.of (T := ⟨S20000x256, .f32⟩) main_call1_v0) mulf,
    TRef.nullary (TRef.of (T := ⟨S_, .f32⟩) main_call1_cst) (constant S_ .f32 0x00000000#32),
    TRef.binary (TRef.of (T := ⟨S20000x256, .f32⟩) main_call1_v0) (TRef.of (T := ⟨S_, .f32⟩) main_call1_cst) (TRef.of (T := ⟨S20000, .f32⟩) main_call1_v1) (fun x v => Host.reduceAdd x v reducesTo_S20000x256_S20000_d1 h_S_),
    TRef.unary (TRef.of (T := ⟨S20000, .f32⟩) main_call1_v1) (TRef.of (T := ⟨S20000x1, .f32⟩) main_call1_v2) (broadcastInDim S20000x1 ![0] bcast_S20000_S20000x1_0),
    TRef.unary (TRef.of (T := ⟨S20000x1, .f32⟩) main_call1_v2) (TRef.of (T := ⟨S20000x1, .f32⟩) main_v3) Host.sqrt,
    unary main_v3 main_v4 (broadcastInDim S20000x256 ![0, 1] bcast_S20000x1_S20000x256_0_1 : (⟨S20000x1, .f32⟩ : BufTy).Contents (Elt F) → (⟨S20000x256, .f32⟩ : BufTy).Contents (Elt F)),
    binary main_arg2 main_v4 main_v5 (Host.divf : (⟨S20000x256, .f32⟩ : BufTy).Contents (Elt F) → (⟨S20000x256, .f32⟩ : BufTy).Contents (Elt F) → (⟨S20000x256, .f32⟩ : BufTy).Contents (Elt F)) ]

abbrev s03 : List (HloOp τ sig (Elt F)) :=
  [ unary main_v5 main_v6 ((transpose S256x20000 [1, 0] · transposes_S20000x256_S256x20000_1_0) : (⟨S20000x256, .f32⟩ : BufTy).Contents (Elt F) → (⟨S256x20000, .f32⟩ : BufTy).Contents (Elt F)),
    binary main_v2 main_v6 main_v7 ((fun l r => Host.dotGeneral dot_S4096x256_S256x20000_S4096x20000_1_0_0_1_n_n none l r) : (⟨S4096x256, .f32⟩ : BufTy).Contents (Elt F) → (⟨S256x20000, .f32⟩ : BufTy).Contents (Elt F) → (⟨S4096x20000, .f32⟩ : BufTy).Contents (Elt F)),
    TRef.unary (TRef.of (T := ⟨S4096, .i32⟩) main_arg1) (TRef.of (T := ⟨S4096x1, .i32⟩) main_call2_v0) (broadcastInDim S4096x1 ![0] bcast_S4096_S4096x1_0),
    TRef.nullary (TRef.of (T := ⟨S1x20000, .i32⟩) main_call2_v1) (iotaInDim S1x20000 32 1),
    TRef.unary (TRef.of (T := ⟨S4096x1, .i32⟩) main_call2_v0) (TRef.of (T := ⟨S4096x20000, .i32⟩) main_call2_v2) (broadcastInDim S4096x20000 ![0, 1] bcast_S4096x1_S4096x20000_0_1),
    TRef.unary (TRef.of (T := ⟨S1x20000, .i32⟩) main_call2_v1) (TRef.of (T := ⟨S4096x20000, .i32⟩) main_call2_v3) (broadcastInDim S4096x20000 ![0, 1] bcast_S1x20000_S4096x20000_0_1),
    TRef.binary (TRef.of (T := ⟨S4096x20000, .i32⟩) main_call2_v2) (TRef.of (T := ⟨S4096x20000, .i32⟩) main_call2_v3) (TRef.of (T := ⟨S4096x20000, .i1⟩) main_call2_v4) (cmpi .eq),
    TRef.unary (TRef.of (T := ⟨S4096x20000, .i1⟩) main_call2_v4) (TRef.of (T := ⟨S4096x20000, .f32⟩) main_v8) (uitofp (F := F) .f32) ]

abbrev s04 : List (HloOp τ sig (Elt F)) :=
  [ nullary main_cst (constant S_ .f32 0x3E99999A#32),
    unary main_cst main_v9 (broadcastInDim S4096x20000 ![] bcast_S_S4096x20000 : (⟨S_, .f32⟩ : BufTy).Contents (Elt F) → (⟨S4096x20000, .f32⟩ : BufTy).Contents (Elt F)),
    binary main_v9 main_v8 main_v10 (mulf : (⟨S4096x20000, .f32⟩ : BufTy).Contents (Elt F) → (⟨S4096x20000, .f32⟩ : BufTy).Contents (Elt F) → (⟨S4096x20000, .f32⟩ : BufTy).Contents (Elt F)),
    binary main_v7 main_v10 main_v11 (subf : (⟨S4096x20000, .f32⟩ : BufTy).Contents (Elt F) → (⟨S4096x20000, .f32⟩ : BufTy).Contents (Elt F) → (⟨S4096x20000, .f32⟩ : BufTy).Contents (Elt F)),
    nullary main_cst_0 (constant S_ .f32 0x41F00000#32),
    unary main_cst_0 main_v12 (broadcastInDim S4096x20000 ![] bcast_S_S4096x20000 : (⟨S_, .f32⟩ : BufTy).Contents (Elt F) → (⟨S4096x20000, .f32⟩ : BufTy).Contents (Elt F)),
    binary main_v11 main_v12 main_v13 (mulf : (⟨S4096x20000, .f32⟩ : BufTy).Contents (Elt F) → (⟨S4096x20000, .f32⟩ : BufTy).Contents (Elt F) → (⟨S4096x20000, .f32⟩ : BufTy).Contents (Elt F)) ]

abbrev s05 : List (HloOp τ sig (Elt F)) :=
  [ TRef.nullary (TRef.of (T := ⟨S_, .f32⟩) main_call3_cst) (constant S_ .f32 0xFF800000#32),
    TRef.binary (TRef.of (T := ⟨S4096x20000, .f32⟩) main_v13) (TRef.of (T := ⟨S_, .f32⟩) main_call3_cst) (TRef.of (T := ⟨S4096, .f32⟩) main_call3_v0) (fun x v => Host.reduce FloatOps.maximumf x v reducesTo_S4096x20000_S4096_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S4096, .f32⟩) main_call3_v1) (broadcastInDim S4096 ![] bcast_S_S4096),
    TRef.binary (TRef.of (T := ⟨S4096, .f32⟩) main_call3_v1) (TRef.of (T := ⟨S4096, .f32⟩) main_call3_v0) (TRef.of (T := ⟨S4096, .f32⟩) main_call3_v2) maximumf,
    TRef.unary (TRef.of (T := ⟨S4096, .f32⟩) main_call3_v2) (TRef.of (T := ⟨S4096x1, .f32⟩) main_call3_v3) (broadcastInDim S4096x1 ![0] bcast_S4096_S4096x1_0),
    TRef.unary (TRef.of (T := ⟨S4096x1, .f32⟩) main_call3_v3) (TRef.of (T := ⟨S4096x20000, .f32⟩) main_call3_v4) (broadcastInDim S4096x20000 ![0, 1] bcast_S4096x1_S4096x20000_0_1),
    TRef.binary (TRef.of (T := ⟨S4096x20000, .f32⟩) main_v13) (TRef.of (T := ⟨S4096x20000, .f32⟩) main_call3_v4) (TRef.of (T := ⟨S4096x20000, .f32⟩) main_call3_v5) subf ]

abbrev s06 : List (HloOp τ sig (Elt F)) :=
  [ TRef.unary (TRef.of (T := ⟨S4096x20000, .f32⟩) main_call3_v5) (TRef.of (T := ⟨S4096x20000, .f32⟩) main_call3_v6) Host.exp,
    TRef.nullary (TRef.of (T := ⟨S_, .f32⟩) main_call3_cst_1) (constant S_ .f32 0x00000000#32),
    TRef.binary (TRef.of (T := ⟨S4096x20000, .f32⟩) main_call3_v6) (TRef.of (T := ⟨S_, .f32⟩) main_call3_cst_1) (TRef.of (T := ⟨S4096, .f32⟩) main_call3_v7) (fun x v => Host.reduceAdd x v reducesTo_S4096x20000_S4096_d1 h_S_),
    TRef.unary (TRef.of (T := ⟨S4096, .f32⟩) main_call3_v7) (TRef.of (T := ⟨S4096x1, .f32⟩) main_call3_v8) (broadcastInDim S4096x1 ![0] bcast_S4096_S4096x1_0),
    TRef.unary (TRef.of (T := ⟨S4096x1, .f32⟩) main_call3_v8) (TRef.of (T := ⟨S4096x1, .f32⟩) main_call3_v9) Host.log,
    TRef.unary (TRef.of (T := ⟨S4096x1, .f32⟩) main_call3_v9) (TRef.of (T := ⟨S4096x20000, .f32⟩) main_call3_v10) (broadcastInDim S4096x20000 ![0, 1] bcast_S4096x1_S4096x20000_0_1),
    TRef.binary (TRef.of (T := ⟨S4096x20000, .f32⟩) main_call3_v5) (TRef.of (T := ⟨S4096x20000, .f32⟩) main_call3_v10) (TRef.of (T := ⟨S4096x20000, .f32⟩) main_v14) subf ]

abbrev s07 : List (HloOp τ sig (Elt F)) :=
  [ nullary main_v15 (iotaInDim S4096 32 0),
    nullary main_c (constantI S_ 32 0#32),
    unary main_c main_v16 (broadcastInDim S4096 ![] bcast_S_S4096 : (⟨S_, .i32⟩ : BufTy).Contents (Elt F) → (⟨S4096, .i32⟩ : BufTy).Contents (Elt F)),
    binary main_v15 main_v16 main_v17 (cmpi .slt : (⟨S4096, .i32⟩ : BufTy).Contents (Elt F) → (⟨S4096, .i32⟩ : BufTy).Contents (Elt F) → (⟨S4096, .i1⟩ : BufTy).Contents (Elt F)),
    nullary main_c_1 (constantI S_ 32 4096#32),
    unary main_c_1 main_v18 (broadcastInDim S4096 ![] bcast_S_S4096 : (⟨S_, .i32⟩ : BufTy).Contents (Elt F) → (⟨S4096, .i32⟩ : BufTy).Contents (Elt F)),
    binary main_v15 main_v18 main_v19 (addi : (⟨S4096, .i32⟩ : BufTy).Contents (Elt F) → (⟨S4096, .i32⟩ : BufTy).Contents (Elt F) → (⟨S4096, .i32⟩ : BufTy).Contents (Elt F)),
    ternary main_v17 main_v19 main_v15 main_v20 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]

abbrev s08 : List (HloOp τ sig (Elt F)) :=
  [ nullary main_c_2 (constantI S_ 32 0#32),
    unary main_c_2 main_v21 (broadcastInDim S4096 ![] bcast_S_S4096 : (⟨S_, .i32⟩ : BufTy).Contents (Elt F) → (⟨S4096, .i32⟩ : BufTy).Contents (Elt F)),
    binary main_arg1 main_v21 main_v22 (cmpi .slt : (⟨S4096, .i32⟩ : BufTy).Contents (Elt F) → (⟨S4096, .i32⟩ : BufTy).Contents (Elt F) → (⟨S4096, .i1⟩ : BufTy).Contents (Elt F)),
    nullary main_c_3 (constantI S_ 32 20000#32),
    unary main_c_3 main_v23 (broadcastInDim S4096 ![] bcast_S_S4096 : (⟨S_, .i32⟩ : BufTy).Contents (Elt F) → (⟨S4096, .i32⟩ : BufTy).Contents (Elt F)),
    binary main_arg1 main_v23 main_v24 (addi : (⟨S4096, .i32⟩ : BufTy).Contents (Elt F) → (⟨S4096, .i32⟩ : BufTy).Contents (Elt F) → (⟨S4096, .i32⟩ : BufTy).Contents (Elt F)),
    ternary main_v22 main_v24 main_arg1 main_v25 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]

abbrev s09 : List (HloOp τ sig (Elt F)) :=
  [ unary main_v20 main_v26 (broadcastInDim S4096x1 ![0] bcast_S4096_S4096x1_0 : (⟨S4096, .i32⟩ : BufTy).Contents (Elt F) → (⟨S4096x1, .i32⟩ : BufTy).Contents (Elt F)),
    unary main_v25 main_v27 (broadcastInDim S4096x1 ![0] bcast_S4096_S4096x1_0 : (⟨S4096, .i32⟩ : BufTy).Contents (Elt F) → (⟨S4096x1, .i32⟩ : BufTy).Contents (Elt F)),
    binary main_v26 main_v27 main_v28 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v14 main_v28 main_v29 ((fun x i => Host.gather gather_S4096x20000_S4096x2_S4096_n_01_n_n_01_1_11 x i) : (⟨S4096x20000, .f32⟩ : BufTy).Contents (Elt F) → (⟨S4096x2, .i32⟩ : BufTy).Contents (Elt F) → (⟨S4096, .f32⟩ : BufTy).Contents (Elt F)) ]

abbrev s10 : List (HloOp τ sig (Elt F)) :=
  [ nullary main_cst_4 (constant S_ .f32 0x00000000#32),
    binary main_v29 main_cst_4 main_v30 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_5 (constant S_ .f32 0x45800000#32),
    binary main_v30 main_cst_5 main_v31 (Host.divf : (⟨S_, .f32⟩ : BufTy).Contents (Elt F) → (⟨S_, .f32⟩ : BufTy).Contents (Elt F) → (⟨S_, .f32⟩ : BufTy).Contents (Elt F)),
    unary main_v31 main_v32 (Host.negf : (⟨S_, .f32⟩ : BufTy).Contents (Elt F) → (⟨S_, .f32⟩ : BufTy).Contents (Elt F)) ]

abbrev s11 : List (HloOp τ sig (Elt F)) :=
  [ unary main_v2 main_v33 ((transpose S256x4096 [1, 0] · transposes_S4096x256_S256x4096_1_0) : (⟨S4096x256, .f32⟩ : BufTy).Contents (Elt F) → (⟨S256x4096, .f32⟩ : BufTy).Contents (Elt F)),
    binary main_v2 main_v33 main_v34 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_6 (constant S_ .f32 0x3F800000#32),
    unary main_cst_6 main_v35 (broadcastInDim S4096x4096 ![] bcast_S_S4096x4096 : (⟨S_, .f32⟩ : BufTy).Contents (Elt F) → (⟨S4096x4096, .f32⟩ : BufTy).Contents (Elt F)),
    binary main_v35 main_v34 main_v36 (subf : (⟨S4096x4096, .f32⟩ : BufTy).Contents (Elt F) → (⟨S4096x4096, .f32⟩ : BufTy).Contents (Elt F) → (⟨S4096x4096, .f32⟩ : BufTy).Contents (Elt F)) ]

abbrev s12 : List (HloOp τ sig (Elt F)) :=
  [ nullary main_v37 (iotaInDim S4096 32 0),
    unary main_arg1 main_v38 (broadcastInDim S4096x1 ![0] bcast_S4096_S4096x1_0 : (⟨S4096, .i32⟩ : BufTy).Contents (Elt F) → (⟨S4096x1, .i32⟩ : BufTy).Contents (Elt F)),
    unary main_arg1 main_v39 (broadcastInDim S1x4096 ![1] bcast_S4096_S1x4096_1 : (⟨S4096, .i32⟩ : BufTy).Contents (Elt F) → (⟨S1x4096, .i32⟩ : BufTy).Contents (Elt F)),
    unary main_v38 main_v40 (broadcastInDim S4096x4096 ![0, 1] bcast_S4096x1_S4096x4096_0_1 : (⟨S4096x1, .i32⟩ : BufTy).Contents (Elt F) → (⟨S4096x4096, .i32⟩ : BufTy).Contents (Elt F)),
    unary main_v39 main_v41 (broadcastInDim S4096x4096 ![0, 1] bcast_S1x4096_S4096x4096_0_1 : (⟨S1x4096, .i32⟩ : BufTy).Contents (Elt F) → (⟨S4096x4096, .i32⟩ : BufTy).Contents (Elt F)),
    binary main_v40 main_v41 main_v42 (cmpi .eq : (⟨S4096x4096, .i32⟩ : BufTy).Contents (Elt F) → (⟨S4096x4096, .i32⟩ : BufTy).Contents (Elt F) → (⟨S4096x4096, .i1⟩ : BufTy).Contents (Elt F)) ]

abbrev s13 : List (HloOp τ sig (Elt F)) :=
  [ unary main_v37 main_v43 (broadcastInDim S4096x1 ![0] bcast_S4096_S4096x1_0 : (⟨S4096, .i32⟩ : BufTy).Contents (Elt F) → (⟨S4096x1, .i32⟩ : BufTy).Contents (Elt F)),
    unary main_v37 main_v44 (broadcastInDim S1x4096 ![1] bcast_S4096_S1x4096_1 : (⟨S4096, .i32⟩ : BufTy).Contents (Elt F) → (⟨S1x4096, .i32⟩ : BufTy).Contents (Elt F)),
    unary main_v43 main_v45 (broadcastInDim S4096x4096 ![0, 1] bcast_S4096x1_S4096x4096_0_1 : (⟨S4096x1, .i32⟩ : BufTy).Contents (Elt F) → (⟨S4096x4096, .i32⟩ : BufTy).Contents (Elt F)),
    unary main_v44 main_v46 (broadcastInDim S4096x4096 ![0, 1] bcast_S1x4096_S4096x4096_0_1 : (⟨S1x4096, .i32⟩ : BufTy).Contents (Elt F) → (⟨S4096x4096, .i32⟩ : BufTy).Contents (Elt F)),
    binary main_v45 main_v46 main_v47 (cmpi .slt : (⟨S4096x4096, .i32⟩ : BufTy).Contents (Elt F) → (⟨S4096x4096, .i32⟩ : BufTy).Contents (Elt F) → (⟨S4096x4096, .i1⟩ : BufTy).Contents (Elt F)),
    binary main_v42 main_v47 main_v48 (andi : (⟨S4096x4096, .i1⟩ : BufTy).Contents (Elt F) → (⟨S4096x4096, .i1⟩ : BufTy).Contents (Elt F) → (⟨S4096x4096, .i1⟩ : BufTy).Contents (Elt F)) ]

abbrev s14 : List (HloOp τ sig (Elt F)) :=
  [ unary main_v48 main_v49 (uitofp (F := F) .f32 : (⟨S4096x4096, .i1⟩ : BufTy).Contents (Elt F) → (⟨S4096x4096, .f32⟩ : BufTy).Contents (Elt F)),
    binary main_v36 main_v49 main_v50 (mulf : (⟨S4096x4096, .f32⟩ : BufTy).Contents (Elt F) → (⟨S4096x4096, .f32⟩ : BufTy).Contents (Elt F) → (⟨S4096x4096, .f32⟩ : BufTy).Contents (Elt F)),
    nullary main_cst_7 (constant S_ .f32 0x00000000#32),
    binary main_v50 main_cst_7 main_v51 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v48 main_v52 ((extui 32 · natLt_1_32) : (⟨S4096x4096, .i1⟩ : BufTy).Contents (Elt F) → (⟨S4096x4096, .i32⟩ : BufTy).Contents (Elt F)),
    nullary main_c_8 (constantI S_ 32 0#32),
    binary main_v52 main_c_8 main_v53 ((fun x v => Host.reduce IntOp.addi x v reducesTo_S4096x4096_S4096_d1 h_S_) : (⟨S4096x4096, .i32⟩ : BufTy).Contents (Elt F) → (⟨S_, .i32⟩ : BufTy).Contents (Elt F) → (⟨S4096, .i32⟩ : BufTy).Contents (Elt F)),
    unary main_v53 main_v54 (sitofp (F := F) .f32 : (⟨S4096, .i32⟩ : BufTy).Contents (Elt F) → (⟨S4096, .f32⟩ : BufTy).Contents (Elt F)) ]

abbrev s15 : List (HloOp τ sig (Elt F)) :=
  [ nullary main_cst_9 (constant S_ .f32 0x00000000#32),
    unary main_cst_9 main_v55 (broadcastInDim S20000 ![] bcast_S_S20000 : (⟨S_, .f32⟩ : BufTy).Contents (Elt F) → (⟨S20000, .f32⟩ : BufTy).Contents (Elt F)),
    unary main_arg1 main_v56 (broadcastInDim S4096x1 ![0] bcast_S4096_S4096x1_0 : (⟨S4096, .i32⟩ : BufTy).Contents (Elt F) → (⟨S4096x1, .i32⟩ : BufTy).Contents (Elt F)),
    ternary main_v55 main_v56 main_v51 main_v57 ((fun x i u => Host.scatterAdd scatter_S20000_S4096x1_S4096_n_0_0_1 x i u) : (⟨S20000, .f32⟩ : BufTy).Contents (Elt F) → (⟨S4096x1, .i32⟩ : BufTy).Contents (Elt F) → (⟨S4096, .f32⟩ : BufTy).Contents (Elt F) → (⟨S20000, .f32⟩ : BufTy).Contents (Elt F)),
    nullary main_cst_10 (constant S_ .f32 0x00000000#32),
    unary main_cst_10 main_v58 (broadcastInDim S20000 ![] bcast_S_S20000 : (⟨S_, .f32⟩ : BufTy).Contents (Elt F) → (⟨S20000, .f32⟩ : BufTy).Contents (Elt F)),
    unary main_arg1 main_v59 (broadcastInDim S4096x1 ![0] bcast_S4096_S4096x1_0 : (⟨S4096, .i32⟩ : BufTy).Contents (Elt F) → (⟨S4096x1, .i32⟩ : BufTy).Contents (Elt F)),
    ternary main_v58 main_v59 main_v54 main_v60 ((fun x i u => Host.scatterAdd scatter_S20000_S4096x1_S4096_n_0_0_1 x i u) : (⟨S20000, .f32⟩ : BufTy).Contents (Elt F) → (⟨S4096x1, .i32⟩ : BufTy).Contents (Elt F) → (⟨S4096, .f32⟩ : BufTy).Contents (Elt F) → (⟨S20000, .f32⟩ : BufTy).Contents (Elt F)) ]

abbrev s16 : List (HloOp τ sig (Elt F)) :=
  [ nullary main_cst_11 (constant S_ .f32 0x00000000#32),
    unary main_cst_11 main_v61 (broadcastInDim S20000 ![] bcast_S_S20000 : (⟨S_, .f32⟩ : BufTy).Contents (Elt F) → (⟨S20000, .f32⟩ : BufTy).Contents (Elt F)),
    binary main_v60 main_v61 main_v62 (cmpf (F := F) .ogt : (⟨S20000, .f32⟩ : BufTy).Contents (Elt F) → (⟨S20000, .f32⟩ : BufTy).Contents (Elt F) → (⟨S20000, .i1⟩ : BufTy).Contents (Elt F)),
    nullary main_cst_12 (constant S_ .f32 0x3F800000#32),
    unary main_cst_12 main_v63 (broadcastInDim S20000 ![] bcast_S_S20000 : (⟨S_, .f32⟩ : BufTy).Contents (Elt F) → (⟨S20000, .f32⟩ : BufTy).Contents (Elt F)),
    binary main_v60 main_v63 main_v64 (maximumf : (⟨S20000, .f32⟩ : BufTy).Contents (Elt F) → (⟨S20000, .f32⟩ : BufTy).Contents (Elt F) → (⟨S20000, .f32⟩ : BufTy).Contents (Elt F)),
    binary main_v57 main_v64 main_v65 (Host.divf : (⟨S20000, .f32⟩ : BufTy).Contents (Elt F) → (⟨S20000, .f32⟩ : BufTy).Contents (Elt F) → (⟨S20000, .f32⟩ : BufTy).Contents (Elt F)) ]

abbrev s17 : List (HloOp τ sig (Elt F)) :=
  [ nullary main_cst_13 (constant S_ .f32 0x00000000#32),
    TRef.unary (TRef.of (T := ⟨S_, .f32⟩) main_cst_13) (TRef.of (T := ⟨S_, .f32⟩) main_call4_v0) id,
    TRef.unary (TRef.of (T := ⟨S_, .f32⟩) main_call4_v0) (TRef.of (T := ⟨S20000, .f32⟩) main_call4_v1) (broadcastInDim S20000 ![] bcast_S_S20000),
    TRef.ternary (TRef.of (T := ⟨S20000, .i1⟩) main_v62) (TRef.of (T := ⟨S20000, .f32⟩) main_v65) (TRef.of (T := ⟨S20000, .f32⟩) main_call4_v1) (TRef.of (T := ⟨S20000, .f32⟩) main_v66) select,
    nullary main_cst_14 (constant S_ .f32 0x3F000000#32),
    unary main_cst_14 main_v67 (broadcastInDim S20000 ![] bcast_S_S20000 : (⟨S_, .f32⟩ : BufTy).Contents (Elt F) → (⟨S20000, .f32⟩ : BufTy).Contents (Elt F)),
    binary main_v66 main_v67 main_v68 (subf : (⟨S20000, .f32⟩ : BufTy).Contents (Elt F) → (⟨S20000, .f32⟩ : BufTy).Contents (Elt F) → (⟨S20000, .f32⟩ : BufTy).Contents (Elt F)) ]

abbrev s18 : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S20000, .f32⟩) main_call5_v0) (broadcastInDim S20000 ![] bcast_S_S20000),
    TRef.binary (TRef.of (T := ⟨S20000, .f32⟩) main_v68) (TRef.of (T := ⟨S20000, .f32⟩) main_call5_v0) (TRef.of (T := ⟨S20000, .f32⟩) main_v69) maximumf,
    nullary main_cst_15 (constant S_ .f32 0x00000000#32),
    TRef.unary (TRef.of (T := ⟨S_, .f32⟩) main_cst_15) (TRef.of (T := ⟨S_, .f32⟩) main_call6_v0) id,
    TRef.unary (TRef.of (T := ⟨S_, .f32⟩) main_call6_v0) (TRef.of (T := ⟨S20000, .f32⟩) main_call6_v1) (broadcastInDim S20000 ![] bcast_S_S20000),
    TRef.ternary (TRef.of (T := ⟨S20000, .i1⟩) main_v62) (TRef.of (T := ⟨S20000, .f32⟩) main_v69) (TRef.of (T := ⟨S20000, .f32⟩) main_call6_v1) (TRef.of (T := ⟨S20000, .f32⟩) main_v70) select ]

abbrev s19 : List (HloOp τ sig (Elt F)) :=
  [ unary main_v62 main_v71 ((extui 32 · natLt_1_32) : (⟨S20000, .i1⟩ : BufTy).Contents (Elt F) → (⟨S20000, .i32⟩ : BufTy).Contents (Elt F)),
    nullary main_c_16 (constantI S_ 32 0#32),
    binary main_v71 main_c_16 main_v72 ((fun x v => Host.reduce IntOp.addi x v reducesTo_S20000_S_d0 h_S_) : (⟨S20000, .i32⟩ : BufTy).Contents (Elt F) → (⟨S_, .i32⟩ : BufTy).Contents (Elt F) → (⟨S_, .i32⟩ : BufTy).Contents (Elt F)),
    unary main_v72 main_v73 (sitofp (F := F) .f32 : (⟨S_, .i32⟩ : BufTy).Contents (Elt F) → (⟨S_, .f32⟩ : BufTy).Contents (Elt F)),
    nullary main_cst_17 (constant S_ .f32 0x00000000#32),
    binary main_v73 main_cst_17 main_v74 (cmpf (F := F) .ogt : (⟨S_, .f32⟩ : BufTy).Contents (Elt F) → (⟨S_, .f32⟩ : BufTy).Contents (Elt F) → (⟨S_, .i1⟩ : BufTy).Contents (Elt F)),
    nullary main_cst_18 (constant S_ .f32 0x00000000#32),
    binary main_v70 main_cst_18 main_v75 ((fun x v => Host.reduceAdd x v reducesTo_S20000_S_d0 h_S_) : (⟨S20000, .f32⟩ : BufTy).Contents (Elt F) → (⟨S_, .f32⟩ : BufTy).Contents (Elt F) → (⟨S_, .f32⟩ : BufTy).Contents (Elt F)) ]

abbrev s20 : List (HloOp τ sig (Elt F)) :=
  [ nullary main_cst_19 (constant S_ .f32 0x3F800000#32),
    binary main_v73 main_cst_19 main_v76 (maximumf : (⟨S_, .f32⟩ : BufTy).Contents (Elt F) → (⟨S_, .f32⟩ : BufTy).Contents (Elt F) → (⟨S_, .f32⟩ : BufTy).Contents (Elt F)),
    binary main_v75 main_v76 main_v77 (Host.divf : (⟨S_, .f32⟩ : BufTy).Contents (Elt F) → (⟨S_, .f32⟩ : BufTy).Contents (Elt F) → (⟨S_, .f32⟩ : BufTy).Contents (Elt F)),
    nullary main_cst_20 (constant S_ .f32 0x00000000#32),
    TRef.unary (TRef.of (T := ⟨S_, .f32⟩) main_cst_20) (TRef.of (T := ⟨S_, .f32⟩) main_call7_v0) id,
    TRef.ternary (TRef.of (T := ⟨S_, .i1⟩) main_v74) (TRef.of (T := ⟨S_, .f32⟩) main_v77) (TRef.of (T := ⟨S_, .f32⟩) main_call7_v0) (TRef.of (T := ⟨S_, .f32⟩) main_v78) select,
    nullary main_cst_21 (constant S_ .f32 0x3DCCCCCD#32),
    binary main_cst_21 main_v78 main_v79 (mulf : (⟨S_, .f32⟩ : BufTy).Contents (Elt F) → (⟨S_, .f32⟩ : BufTy).Contents (Elt F) → (⟨S_, .f32⟩ : BufTy).Contents (Elt F)),
    binary main_v32 main_v79 main_v80 (addf : (⟨S_, .f32⟩ : BufTy).Contents (Elt F) → (⟨S_, .f32⟩ : BufTy).Contents (Elt F) → (⟨S_, .f32⟩ : BufTy).Contents (Elt F)) ]

-- @main's operations in program order, as consecutive stretches.
abbrev ops : List (HloOp τ sig (Elt F)) :=
  s01 ++ (s02 ++ (s03 ++ (s04 ++ (s05 ++ (s06 ++ (s07 ++ (s08 ++ (s09 ++ (s10 ++ (s11 ++ (s12 ++ (s13 ++ (s14 ++ (s15 ++ (s16 ++ (s17 ++ (s18 ++ (s19 ++ (s20)))))))))))))))))))

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.forall_append, List.forall_cons, List.Forall, nullary_bufs_sub, unary_bufs_sub, binary_bufs_sub,
    ternary_bufs_sub, and_self]

-- Every fair execution of @main ends with each buffer at the fold of the operations over its launch contents.
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.ValueP

end
-- ==== Proof.RefFold.lean ====
import proofs.«410009_j62173946577734_1_alg».proof.Proof.RefRun
import proofs.«410009_j62173946577734_1_alg».proof.Proof.RefRead
import Idealize.ShloMosaic.Lib.StableHlo.Run
import Idealize.ShloMosaic.Lib.Pipeline.Frame

set_option Elab.async false

noncomputable section

namespace Cert.ReferenceIdeal.RefFold

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

def Args (W : Valuation τ sig (Elt F)) (x0 : (⟨S4096x256, .f32⟩ : BufTy).Contents (Elt F))
  (x1 : (⟨S4096, .i32⟩ : BufTy).Contents (Elt F)) (x2 : (⟨S20000x256, .f32⟩ : BufTy).Contents (Elt F)) : Prop :=
  W (Proc.devRef .tc main_arg0) = x0 ∧ W (Proc.devRef .tc main_arg1) = x1 ∧ W (Proc.devRef .tc main_arg2) = x2

variable (x0 : (⟨S4096x256, .f32⟩ : BufTy).Contents (Elt F))
  (x1 : (⟨S4096, .i32⟩ : BufTy).Contents (Elt F)) (x2 : (⟨S20000x256, .f32⟩ : BufTy).Contents (Elt F))

local notation:max "↟" r:max => (Proc.devRef Proc.tc r : DevRef τ sig)

theorem ofBuf_toBuf {T : BufTy} (x : TRef sig T) (v : T.Contents (Elt F)) : x.ofBuf (x.toBuf v) = v := by
  obtain ⟨r, h, _, _⟩ := x; subst h; rfl

abbrev I01 (W : Valuation τ sig (Elt F)) : Prop :=
  Args W x0 x1 x2 ∧ W ↟main_v2 = ReadP.val_main_v2 (F := F) x0

abbrev I02 (W : Valuation τ sig (Elt F)) : Prop :=
  Args W x0 x1 x2 ∧ W ↟main_v2 = ReadP.val_main_v2 (F := F) x0
    ∧ W ↟main_v5 = ReadP.val_main_v5 (F := F) x2

abbrev I03 (W : Valuation τ sig (Elt F)) : Prop :=
  Args W x0 x1 x2 ∧ W ↟main_v2 = ReadP.val_main_v2 (F := F) x0
    ∧ W ↟main_v7 = ReadP.val_main_v7 (F := F) x0 x2
    ∧ W ↟main_v8 = ReadP.val_main_v8 (F := F) x1

abbrev I04 (W : Valuation τ sig (Elt F)) : Prop :=
  Args W x0 x1 x2 ∧ W ↟main_v2 = ReadP.val_main_v2 (F := F) x0
    ∧ W ↟main_v13 = ReadP.val_main_v13 (F := F) x0 x1 x2

abbrev I05 (W : Valuation τ sig (Elt F)) : Prop :=
  Args W x0 x1 x2 ∧ W ↟main_v2 = ReadP.val_main_v2 (F := F) x0
    ∧ W ↟main_call3_v5 = ReadP.val_main_call3_v5 (F := F) x0 x1 x2

abbrev I06 (W : Valuation τ sig (Elt F)) : Prop :=
  Args W x0 x1 x2 ∧ W ↟main_v2 = ReadP.val_main_v2 (F := F) x0
    ∧ W ↟main_v14 = ReadP.val_main_v14 (F := F) x0 x1 x2

abbrev I07 (W : Valuation τ sig (Elt F)) : Prop :=
  Args W x0 x1 x2 ∧ W ↟main_v2 = ReadP.val_main_v2 (F := F) x0
    ∧ W ↟main_v14 = ReadP.val_main_v14 (F := F) x0 x1 x2
    ∧ W ↟main_v20 = ReadP.val_main_v20 (F := F)

abbrev I08 (W : Valuation τ sig (Elt F)) : Prop :=
  Args W x0 x1 x2 ∧ W ↟main_v2 = ReadP.val_main_v2 (F := F) x0
    ∧ W ↟main_v14 = ReadP.val_main_v14 (F := F) x0 x1 x2
    ∧ W ↟main_v20 = ReadP.val_main_v20 (F := F)
    ∧ W ↟main_v25 = ReadP.val_main_v25 (F := F) x1

abbrev I09 (W : Valuation τ sig (Elt F)) : Prop :=
  Args W x0 x1 x2 ∧ W ↟main_v2 = ReadP.val_main_v2 (F := F) x0
    ∧ W ↟main_v29 = ReadP.val_main_v29 (F := F) x0 x1 x2

abbrev I10 (W : Valuation τ sig (Elt F)) : Prop :=
  Args W x0 x1 x2 ∧ W ↟main_v2 = ReadP.val_main_v2 (F := F) x0
    ∧ W ↟main_v32 = ReadP.val_main_v32 (F := F) x0 x1 x2

abbrev I11 (W : Valuation τ sig (Elt F)) : Prop :=
  Args W x0 x1 x2 ∧ W ↟main_v32 = ReadP.val_main_v32 (F := F) x0 x1 x2
    ∧ W ↟main_v36 = ReadP.val_main_v36 (F := F) x0

abbrev I12 (W : Valuation τ sig (Elt F)) : Prop :=
  Args W x0 x1 x2 ∧ W ↟main_v32 = ReadP.val_main_v32 (F := F) x0 x1 x2
    ∧ W ↟main_v36 = ReadP.val_main_v36 (F := F) x0
    ∧ W ↟main_v37 = ReadP.val_main_v37 (F := F)
    ∧ W ↟main_v42 = ReadP.val_main_v42 (F := F) x1

abbrev I13 (W : Valuation τ sig (Elt F)) : Prop :=
  Args W x0 x1 x2 ∧ W ↟main_v32 = ReadP.val_main_v32 (F := F) x0 x1 x2
    ∧ W ↟main_v36 = ReadP.val_main_v36 (F := F) x0
    ∧ W ↟main_v48 = ReadP.val_main_v48 (F := F) x1

abbrev I14 (W : Valuation τ sig (Elt F)) : Prop :=
  Args W x0 x1 x2 ∧ W ↟main_v32 = ReadP.val_main_v32 (F := F) x0 x1 x2
    ∧ W ↟main_v51 = ReadP.val_main_v51 (F := F) x0 x1
    ∧ W ↟main_v54 = ReadP.val_main_v54 (F := F) x1

abbrev I15 (W : Valuation τ sig (Elt F)) : Prop :=
  Args W x0 x1 x2 ∧ W ↟main_v32 = ReadP.val_main_v32 (F := F) x0 x1 x2
    ∧ W ↟main_v57 = ReadP.val_main_v57 (F := F) x0 x1
    ∧ W ↟main_v60 = ReadP.val_main_v60 (F := F) x1

abbrev I16 (W : Valuation τ sig (Elt F)) : Prop :=
  Args W x0 x1 x2 ∧ W ↟main_v32 = ReadP.val_main_v32 (F := F) x0 x1 x2
    ∧ W ↟main_v62 = ReadP.val_main_v62 (F := F) x1
    ∧ W ↟main_v65 = ReadP.val_main_v65 (F := F) x0 x1

abbrev I17 (W : Valuation τ sig (Elt F)) : Prop :=
  Args W x0 x1 x2 ∧ W ↟main_v32 = ReadP.val_main_v32 (F := F) x0 x1 x2
    ∧ W ↟main_v62 = ReadP.val_main_v62 (F := F) x1
    ∧ W ↟main_v68 = ReadP.val_main_v68 (F := F) x0 x1

abbrev I18 (W : Valuation τ sig (Elt F)) : Prop :=
  Args W x0 x1 x2 ∧ W ↟main_v32 = ReadP.val_main_v32 (F := F) x0 x1 x2
    ∧ W ↟main_v62 = ReadP.val_main_v62 (F := F) x1
    ∧ W ↟main_v70 = ReadP.val_main_v70 (F := F) x0 x1

abbrev I19 (W : Valuation τ sig (Elt F)) : Prop :=
  Args W x0 x1 x2 ∧ W ↟main_v32 = ReadP.val_main_v32 (F := F) x0 x1 x2
    ∧ W ↟main_v73 = ReadP.val_main_v73 (F := F) x1
    ∧ W ↟main_v74 = ReadP.val_main_v74 (F := F) x1
    ∧ W ↟main_v75 = ReadP.val_main_v75 (F := F) x0 x1

abbrev I20 (W : Valuation τ sig (Elt F)) : Prop :=
  Args W x0 x1 x2 ∧ W ↟main_v32 = ReadP.val_main_v32 (F := F) x0 x1 x2
    ∧ W ↟main_v78 = ReadP.val_main_v78 (F := F) x0 x1
    ∧ W ↟main_v80 = ReadP.val_main_v80 (F := F) x0 x1 x2

variable {x0 x1 x2} {W : Valuation τ sig (Elt F)}

theorem st01 (h : Args W x0 x1 x2) : I01 x0 x1 x2 (after s01 W) := by
  obtain ⟨h0, h1, h2⟩ := h
  refine ⟨⟨?_, ?_, ?_⟩, ?_⟩ <;> after_results
  any_goals assumption
  · simp only [ofBuf_toBuf]; rw [h0]; rfl

theorem st02 (h : I01 x0 x1 x2 W) : I02 x0 x1 x2 (after s02 W) := by
  obtain ⟨⟨h0, h1, h2⟩, hv2⟩ := h
  refine ⟨⟨?_, ?_, ?_⟩, ?_, ?_⟩ <;> after_results
  any_goals assumption
  · simp only [ofBuf_toBuf]; rw [h2]; rfl

theorem st03 (h : I02 x0 x1 x2 W) : I03 x0 x1 x2 (after s03 W) := by
  obtain ⟨⟨h0, h1, h2⟩, hv2, hv5⟩ := h
  refine ⟨⟨?_, ?_, ?_⟩, ?_, ?_, ?_⟩ <;> after_results
  any_goals assumption
  · rw [hv2, hv5]; rfl
  · simp only [ofBuf_toBuf]; rw [h1]; rfl

theorem st04 (h : I03 x0 x1 x2 W) : I04 x0 x1 x2 (after s04 W) := by
  obtain ⟨⟨h0, h1, h2⟩, hv2, hv7, hv8⟩ := h
  refine ⟨⟨?_, ?_, ?_⟩, ?_, ?_⟩ <;> after_results
  any_goals assumption
  · rw [hv7, hv8]; rfl

theorem st05 (h : I04 x0 x1 x2 W) : I05 x0 x1 x2 (after s05 W) := by
  obtain ⟨⟨h0, h1, h2⟩, hv2, hv13⟩ := h
  refine ⟨⟨?_, ?_, ?_⟩, ?_, ?_⟩ <;> after_results
  any_goals assumption
  · simp only [ofBuf_toBuf]; rw [hv13]; rfl

theorem st06 (h : I05 x0 x1 x2 W) : I06 x0 x1 x2 (after s06 W) := by
  obtain ⟨⟨h0, h1, h2⟩, hv2, hc5⟩ := h
  refine ⟨⟨?_, ?_, ?_⟩, ?_, ?_⟩ <;> after_results
  any_goals assumption
  · simp only [ofBuf_toBuf]; rw [hc5]; rfl

theorem st07 (h : I06 x0 x1 x2 W) : I07 x0 x1 x2 (after s07 W) := by
  obtain ⟨⟨h0, h1, h2⟩, hv2, hv14⟩ := h
  refine ⟨⟨?_, ?_, ?_⟩, ?_, ?_, ?_⟩ <;> after_results
  any_goals assumption
  · rfl

theorem st08 (h : I07 x0 x1 x2 W) : I08 x0 x1 x2 (after s08 W) := by
  obtain ⟨⟨h0, h1, h2⟩, hv2, hv14, hv20⟩ := h
  refine ⟨⟨?_, ?_, ?_⟩, ?_, ?_, ?_, ?_⟩ <;> after_results
  any_goals assumption
  · rw [h1]; rfl

theorem st09 (h : I08 x0 x1 x2 W) : I09 x0 x1 x2 (after s09 W) := by
  obtain ⟨⟨h0, h1, h2⟩, hv2, hv14, hv20, hv25⟩ := h
  refine ⟨⟨?_, ?_, ?_⟩, ?_, ?_⟩ <;> after_results
  any_goals assumption
  · rw [hv14, hv20, hv25]; rfl

theorem st10 (h : I09 x0 x1 x2 W) : I10 x0 x1 x2 (after s10 W) := by
  obtain ⟨⟨h0, h1, h2⟩, hv2, hv29⟩ := h
  refine ⟨⟨?_, ?_, ?_⟩, ?_, ?_⟩ <;> after_results
  any_goals assumption
  · rw [hv29]; rfl

theorem st11 (h : I10 x0 x1 x2 W) : I11 x0 x1 x2 (after s11 W) := by
  obtain ⟨⟨h0, h1, h2⟩, hv2, hv32⟩ := h
  refine ⟨⟨?_, ?_, ?_⟩, ?_, ?_⟩ <;> after_results
  any_goals assumption
  · rw [hv2]; rfl

theorem st12 (h : I11 x0 x1 x2 W) : I12 x0 x1 x2 (after s12 W) := by
  obtain ⟨⟨h0, h1, h2⟩, hv32, hv36⟩ := h
  refine ⟨⟨?_, ?_, ?_⟩, ?_, ?_, ?_, ?_⟩ <;> after_results
  any_goals assumption
  · rfl
  · rw [h1]; rfl

theorem st13 (h : I12 x0 x1 x2 W) : I13 x0 x1 x2 (after s13 W) := by
  obtain ⟨⟨h0, h1, h2⟩, hv32, hv36, hv37, hv42⟩ := h
  refine ⟨⟨?_, ?_, ?_⟩, ?_, ?_, ?_⟩ <;> after_results
  any_goals assumption
  · rw [hv42, hv37]; rfl

theorem st14 (h : I13 x0 x1 x2 W) : I14 x0 x1 x2 (after s14 W) := by
  obtain ⟨⟨h0, h1, h2⟩, hv32, hv36, hv48⟩ := h
  refine ⟨⟨?_, ?_, ?_⟩, ?_, ?_, ?_⟩ <;> after_results
  any_goals assumption
  · rw [hv36, hv48]; rfl
  · rw [hv48]; rfl

theorem st15 (h : I14 x0 x1 x2 W) : I15 x0 x1 x2 (after s15 W) := by
  obtain ⟨⟨h0, h1, h2⟩, hv32, hv51, hv54⟩ := h
  refine ⟨⟨?_, ?_, ?_⟩, ?_, ?_, ?_⟩ <;> after_results
  any_goals assumption
  · rw [h1, hv51]; rfl
  · rw [h1, hv54]; rfl

theorem st16 (h : I15 x0 x1 x2 W) : I16 x0 x1 x2 (after s16 W) := by
  obtain ⟨⟨h0, h1, h2⟩, hv32, hv57, hv60⟩ := h
  refine ⟨⟨?_, ?_, ?_⟩, ?_, ?_, ?_⟩ <;> after_results
  any_goals assumption
  · rw [hv60]; rfl
  · rw [hv57, hv60]; rfl

theorem st17 (h : I16 x0 x1 x2 W) : I17 x0 x1 x2 (after s17 W) := by
  obtain ⟨⟨h0, h1, h2⟩, hv32, hv62, hv65⟩ := h
  refine ⟨⟨?_, ?_, ?_⟩, ?_, ?_, ?_⟩ <;> after_results
  any_goals assumption
  · simp only [ofBuf_toBuf]; rw [hv62, hv65]; rfl

theorem st18 (h : I17 x0 x1 x2 W) : I18 x0 x1 x2 (after s18 W) := by
  obtain ⟨⟨h0, h1, h2⟩, hv32, hv62, hv68⟩ := h
  refine ⟨⟨?_, ?_, ?_⟩, ?_, ?_, ?_⟩ <;> after_results
  any_goals assumption
  · simp only [ofBuf_toBuf]; rw [hv62, hv68]; rfl

theorem st19 (h : I18 x0 x1 x2 W) : I19 x0 x1 x2 (after s19 W) := by
  obtain ⟨⟨h0, h1, h2⟩, hv32, hv62, hv70⟩ := h
  refine ⟨⟨?_, ?_, ?_⟩, ?_, ?_, ?_, ?_⟩ <;> after_results
  any_goals assumption
  · rw [hv62]; rfl
  · rw [hv62]; rfl
  · rw [hv70]; rfl

theorem st20 (h : I19 x0 x1 x2 W) : I20 x0 x1 x2 (after s20 W) := by
  obtain ⟨⟨h0, h1, h2⟩, hv32, hv73, hv74, hv75⟩ := h
  refine ⟨⟨?_, ?_, ?_⟩, ?_, ?_, ?_⟩ <;> after_results
  any_goals assumption
  · simp only [ofBuf_toBuf]; rw [hv74, hv75, hv73]; rfl
  · simp only [ofBuf_toBuf]; rw [hv32, hv74, hv75, hv73]; rfl

-- Each stretch's facts are the next one's hypotheses.
theorem fold_all {L : Valuation τ sig (Elt F)} (ha : Args L x0 x1 x2) : I20 x0 x1 x2 (after ops L) := by
  simp only [ops, StableHlo.after_append]
  exact st20 (st19 (st18 (st17 (st16 (st15 (st14 (st13 (st12 (st11 (st10 (st09 (st08 (st07 (st06 (st05 (st04 (st03 (st02 (st01 ha)))))))))))))))))))

theorem run_staged (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80)
          = ReadP.val_main_v80 (F := F) (m ((c.tc : Thread nD τ).loc main_arg0)) (m ((c.tc : Thread nD τ).loc main_arg1)) (m ((c.tc : Thread nD τ).loc main_arg2))
      ∧ r.2.mem ((c.tc : Thread nD τ).loc main_v32)
          = ReadP.val_main_v32 (F := F) (m ((c.tc : Thread nD τ).loc main_arg0)) (m ((c.tc : Thread nD τ).loc main_arg1)) (m ((c.tc : Thread nD τ).loc main_arg2))
      ∧ r.2.mem ((c.tc : Thread nD τ).loc main_v78)
          = ReadP.val_main_v78 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      obtain ⟨⟨a0, a1, a2⟩, v32, v78, v80⟩ := fold_all (L := launchContents m c) ⟨rfl, rfl, rfl⟩
      exact ⟨(h c main_v80).trans v80, (h c main_v32).trans v32, (h c main_v78).trans v78, (h c main_arg0).trans a0,
        (h c main_arg1).trans a1, (h c main_arg2).trans a2⟩)
    (ValueP.run m ρ)

end Cert.ReferenceIdeal.RefFold

end
-- ==== Proof.TailEq.lean ====
import proofs.«410009_j62173946577734_1_alg».proof.Proof.KI.HostRead
import Idealize.ShloMosaic.Lib.Pipeline.Value
import Idealize.ShloMosaic.Lib.ValueIdx

noncomputable section

namespace Cert.Proof.TailEq

open Idealize.ShloMosaic Idealize.ShloMosaic.ValueIdx

-- A one-column array read as a vector is the vector whose entries are the column's.
theorem cast_eq {α : Type} (d : Cert.KernelIdeal.S4096x1.Idx → α) (a : Cert.KernelIdeal.S4096.Idx → α)
    (h : ∀ i : Fin 4096, d (ix2 i 0) = a (ix1 i)) :
    shapeCast Cert.KernelIdeal.S4096 d Cert.KernelIdeal.Gen.shapeCasts_S4096x1_S4096 = a := by
  funext j
  rw [eq_ix1 j]
  exact (shapeCast_apply d _ (ix1 (j 0)) (ix2 (j 0) 0) (by
    rw [Shape.rowMajor_val_one, Shape.rowMajor_val_two]; show (j 0).val * 1 + 0 = (j 0).val; omega)).trans (h _)

theorem tail_eq (d0 d1 : Cert.KernelIdeal.S4096x1.Idx → EReal)
    (a b : (⟨Cert.ReferenceIdeal.S4096, .f32⟩ : BufTy).Contents (Elt Ideal))
    (l : (⟨Cert.ReferenceIdeal.S4096, .i32⟩ : BufTy).Contents (Elt Ideal))
    (h0 : ∀ i : Fin 4096, d0 (ix2 i 0) = a (ix1 i)) (h1 : ∀ i : Fin 4096, d1 (ix2 i 0) = b (ix1 i)) :
    Cert.ReferenceIdeal.RefValue.tailR (shapeCast Cert.KernelIdeal.S4096 d0 Cert.KernelIdeal.Gen.shapeCasts_S4096x1_S4096)
      (shapeCast Cert.KernelIdeal.S4096 d1 Cert.KernelIdeal.Gen.shapeCasts_S4096x1_S4096) l
      = Cert.ReferenceIdeal.RefValue.tailR a b l := by
  rw [cast_eq d0 a h0, cast_eq d1 b h1]

end Cert.Proof.TailEq

end
-- ==== Proof.PreFacts.lean ====
import proofs.«410009_j62173946577734_1_alg».proof.Pre_finite_inputs
import proofs.«410009_j62173946577734_1_alg».proof.Proof.NormRow
import Idealize.ShloMosaic.Lib.ReduceAll
import Idealize.ShloMosaic.Lib.ValueIdx
import Idealize.ShloMosaic.Lib.StableHlo.Predicate
import Idealize.ShloMosaic.PureOps.Ideal.Laws

noncomputable section

namespace Cert.PreFacts

open Idealize.ShloMosaic Idealize.ShloMosaic.ValueIdx
open Cert.Pre_finite_inputs

instance : Subsingleton S_.Idx := ⟨fun a b => funext fun d => d.elim0⟩

theorem inf_f32 : Ideal.ofBits .f32 0x7F800000#32 = ⊤ := by simp [Ideal.ofBits, Ideal.ieee]

theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h' : max x (-x) < (⊤ : EReal) := by
    have : Ideal.cmp .olt (max x (-x)) (Ideal.ofBits .f32 0x7F800000#32) = 1#1 := h
    rw [inf_f32] at this
    simpa [Ideal.cmp, StableHlo.Predicate.ofBool_eq_one_iff] using this
  induction x using EReal.rec with
  | bot => simp at h'
  | coe r => exact ⟨r, rfl⟩
  | top => simp at h'

theorem class_of_word (a : BitVec 32) (h0 : IntOp.cmpi .sge a 0#32 = 1#1) (h1 : IntOp.cmpi .slt a 20000#32 = 1#1) :
    ∃ c : Fin 20000, a = BitVec.ofNat 32 c.val := by
  rw [IntOp.cmpi_sge, show (0#32 : BitVec 32).toInt = 0 from by decide] at h0
  rw [IntOp.cmpi_slt, show (20000#32 : BitVec 32).toInt = 20000 from by decide] at h1
  have hlt := a.isLt
  rw [BitVec.toInt_eq_msb_cond] at h0 h1
  have hn : a.toNat < 20000 := by
    by_cases hm : a.msb = true
    · rw [if_pos hm] at h0; omega
    · rw [if_neg hm] at h1; omega
  exact ⟨⟨a.toNat, hn⟩, by apply BitVec.eq_of_toNat_eq; simp only [BitVec.toNat_ofNat]; omega⟩

theorem rowsum_pos {n m : Nat} (x : FVec Ideal ⟨2, ![n, m]⟩ .f32) (xr : Fin n → Fin m → ℝ)
    (hx : ∀ i k, x (ix2 i k) = ((xr i k : ℝ) : EReal))
    (hr : (⟨2, ![n, m]⟩ : Shape).ReducesTo [1] ⟨1, ![n]⟩) (hu : 0 < (⟨0, ![]⟩ : Shape).numel)
    (hb : (⟨1, ![n]⟩ : Shape).BroadcastsInDim ⟨2, ![n, 1]⟩ ![0])
    (hb0 : (⟨0, ![]⟩ : Shape).BroadcastsInDim ⟨2, ![n, 1]⟩ ![])
    (i : Fin n)
    (h : cmpf .ogt (Host.sqrt (broadcastInDim ⟨2, ![n, 1]⟩ ![0] hb
            (Host.reduceAdd (mulf x x) (constant ⟨0, ![]⟩ .f32 0x00000000#32) hr hu)))
          (broadcastInDim ⟨2, ![n, 1]⟩ ![] hb0 (constant (F := Ideal) ⟨0, ![]⟩ .f32 0x00000000#32))
          (ix2 i (0 : Fin 1)) = 1#1) :
    0 < ∑ k, xr i k * xr i k := by
  have hR : (⟨2, ![n, m]⟩ : Shape).Reduces [1] ⟨1, ![n]⟩ := ⟨hr.1, Nat.one_pos, hr.2⟩
  have eP : ix2 i (0 : Fin 1) = StableHlo.Predicate.ixP i := by
    funext d; match d with | ⟨0, _⟩ => rfl | ⟨1, _⟩ => rfl
  have e1 : broadcastInDim ⟨2, ![n, 1]⟩ ![0] hb
        (Host.reduceAdd (mulf x x) (constant ⟨0, ![]⟩ .f32 0x00000000#32) hr hu) (ix2 i (0 : Fin 1))
      = (0 : EReal) + ∑ k : Fin m, ((xr i k * xr i k : ℝ) : EReal) := by
    rw [eP, StableHlo.Predicate.bcast_col1 hb _ i]
    refine (Ideal.hostReduceAdd_single hr hR (mulf x x) _ _).trans ?_
    have hl : ∀ k : Fin m, hR.lift (Shape.Idx.ofFin i) k = ix2 i k := by
      intro k; funext c
      match c with
      | ⟨0, _⟩ => exact Fin.ext rfl
      | ⟨1, _⟩ => exact Fin.ext rfl
    show Ideal.ofBits .f32 0x00000000#32
        + ∑ k : Fin m, x (hR.lift (Shape.Idx.ofFin i) k) * x (hR.lift (Shape.Idx.ofFin i) k) = _
    rw [Ideal.ofBits_zero_f32]
    congr 1
    refine Finset.sum_congr rfl fun k _ => ?_
    rw [hl k, hx i k, EReal.coe_mul]
  have h1 : Ideal.cmp .ogt (Ideal.sqrt (broadcastInDim ⟨2, ![n, 1]⟩ ![0] hb
            (Host.reduceAdd (mulf x x) (constant ⟨0, ![]⟩ .f32 0x00000000#32) hr hu) (ix2 i (0 : Fin 1))))
          (Ideal.ofBits .f32 0x00000000#32) = 1#1 := h
  rw [e1, zero_add, ← Cert.Spec.coe_sum, Ideal.ofBits_zero_f32] at h1
  have hS : (0 : ℝ) ≤ ∑ k, xr i k * xr i k := Finset.sum_nonneg fun k _ => mul_self_nonneg _
  rw [Ideal.sqrt_coe, if_neg (not_lt.2 hS)] at h1
  have h2 : (0 : EReal) < ((Real.sqrt (∑ k, xr i k * xr i k) : ℝ) : EReal) := by
    simpa [Ideal.cmp, StableHlo.Predicate.ofBool_eq_one_iff] using h1
  exact Real.sqrt_pos.1 (by exact_mod_cast h2)

theorem decode [Cert.Pre_finite_inputs.Facts] (x : FVec Ideal Cert.Pre_finite_inputs.S4096x256 .f32) (l : IVec Cert.Pre_finite_inputs.S4096 32) (w : FVec Ideal Cert.Pre_finite_inputs.S20000x256 .f32) (h : Cert.Pre_finite_inputs.fn (F := Ideal) x l w = fun _ => 1#1) : (∃ xr : Fin 4096 → Fin 256 → ℝ, (∀ i k, x (ValueIdx.ix2 i k) = ((xr i k : ℝ) : EReal)) ∧ ∀ i, 0 < ∑ k, xr i k * xr i k) ∧ (∃ wr : Fin 20000 → Fin 256 → ℝ, (∀ j k, w (ValueIdx.ix2 j k) = ((wr j k : ℝ) : EReal)) ∧ ∀ j, 0 < ∑ k, wr j k * wr j k) ∧ (∃ lab : Fin 4096 → Fin 20000, ∀ i, l (ValueIdx.ix1 i) = BitVec.ofNat 32 (lab i).val) := by
  have h0 := congrFun h ValueIdx.ix0
  dsimp only [Cert.Pre_finite_inputs.fn, Cert.Pre_finite_inputs.fn_part1] at h0
  obtain ⟨h5, hnw⟩ := IntOp.andi_eq_one.1 h0
  obtain ⟨h4, hnx⟩ := IntOp.andi_eq_one.1 h5
  obtain ⟨h3, hl1⟩ := IntOp.andi_eq_one.1 h4
  obtain ⟨h2, hl0⟩ := IntOp.andi_eq_one.1 h3
  obtain ⟨hfx, hfw⟩ := IntOp.andi_eq_one.1 h2

  have hxe : ∀ (i : Fin 4096) (k : Fin 256), ∃ r : ℝ, x (ix2 i k) = (r : EReal) := fun i k =>
    real_of_abs_lt_inf _ (Host.reduce_andi_all _ _ _ _ ix0 hfx (ix2 i k))
  have hwe : ∀ (j : Fin 20000) (k : Fin 256), ∃ r : ℝ, w (ix2 j k) = (r : EReal) := fun j k =>
    real_of_abs_lt_inf _ (Host.reduce_andi_all _ _ _ _ ix0 hfw (ix2 j k))
  choose xr hxr using hxe
  choose wr hwr using hwe

  have hle : ∀ i : Fin 4096, ∃ c : Fin 20000, l (ix1 i) = BitVec.ofNat 32 c.val := fun i =>
    class_of_word _ (Host.reduce_andi_all _ _ _ _ ix0 hl0 (ix1 i)) (Host.reduce_andi_all _ _ _ _ ix0 hl1 (ix1 i))
  choose lab hlab using hle
  refine ⟨⟨xr, hxr, fun i => ?_⟩, ⟨wr, hwr, fun j => ?_⟩, ⟨lab, hlab⟩⟩
  · exact rowsum_pos x xr hxr _ _ _ _ i (Host.reduce_andi_all _ _ _ _ ix0 hnx (ix2 i (0 : Fin 1)))
  · exact rowsum_pos w wr hwr _ _ _ _ j (Host.reduce_andi_all _ _ _ _ ix0 hnw (ix2 j (0 : Fin 1)))

end Cert.PreFacts
-- ==== Proof.lean ====
import proofs.«410009_j62173946577734_1_alg».proof.Defs
import proofs.«410009_j62173946577734_1_alg».proof.Proof.Gen.Kernel
import proofs.«410009_j62173946577734_1_alg».proof.Proof.Gen.KernelIdeal
import proofs.«410009_j62173946577734_1_alg».proof.Proof.Gen.ReferenceIdeal
import proofs.«410009_j62173946577734_1_alg».proof.Proof.Gen.Pre_finite_inputs
import proofs.«410009_j62173946577734_1_alg».proof.Proof.K.Segs
import proofs.«410009_j62173946577734_1_alg».proof.Proof.KI.Segs
import proofs.«410009_j62173946577734_1_alg».proof.Proof.KI.HostRead
import proofs.«410009_j62173946577734_1_alg».proof.Proof.KI.RefNorm
import proofs.«410009_j62173946577734_1_alg».proof.Proof.KI.R0Value
import proofs.«410009_j62173946577734_1_alg».proof.Proof.KI.R1Value
import proofs.«410009_j62173946577734_1_alg».proof.Proof.RefFold
import proofs.«410009_j62173946577734_1_alg».proof.Proof.RefValue
import proofs.«410009_j62173946577734_1_alg».proof.Proof.TailEq
import proofs.«410009_j62173946577734_1_alg».proof.Proof.PreFacts
import Idealize.ShloMosaic.PureOps.IdealRules

noncomputable section

namespace Cert.Proof

open Idealize.ShloMosaic Idealize.ShloMosaic.TcCoe Idealize.SL.Sem Idealize.ShloMosaic.ValueIdx

-- Each frame is the program's run with the results dropped: the arguments end as launched.
theorem frame_p : Cert.frame_Kernel := fun m ρ _ =>
  (θ_run Cert.Kernel.defs _ _).mono (fun _ h c => (h c).2.2.2) (Cert.Kernel.Fr.run_vals (F := Bits) m ρ)

theorem frame_pi : Cert.frame_KernelIdeal := fun m ρ _ =>
  (θ_run Cert.KernelIdeal.defs _ _).mono (fun _ h c => (h c).2.2.2) (Cert.KernelIdeal.Fr.run_vals (F := Ideal) m ρ)

theorem frame_ri : Cert.frame_ReferenceIdeal := fun m ρ _ =>
  (θ_run Cert.ReferenceIdeal.defs _ _).mono (fun _ h c => (h c).2.2.2)
    (Cert.ReferenceIdeal.RefFold.run_staged (F := Ideal) m ρ)

-- The two named constants are 30 times the margin's word and minus infinity.
theorem preserves : Cert.preserves_Kernel_KernelIdeal :=
  ⟨IdealRules.named_const.statement Cert.KernelIdeal.κ "margin_scale" .f32 0x41100000#32 ((75497475 / 8388608 : ℝ) : EReal) rfl,
   IdealRules.named_const.statement Cert.KernelIdeal.κ "neg_big" .f32 0xCE6E6B28#32 ⊥ rfl⟩

section Values

open Cert.KernelIdeal Cert.KernelIdeal.Gen Cert.KernelIdeal.Fr Cert.KernelIdeal.Val

variable (m : (ℓ : Loc Cert.KernelIdeal.nD Cert.KernelIdeal.τ Cert.KernelIdeal.sig) → Buf (Elt Ideal) ℓ) (c : Dev Cert.KernelIdeal.nD)
  (xr : Fin 4096 → Fin 256 → ℝ) (wr : Fin 20000 → Fin 256 → ℝ) (lab : Fin 4096 → Fin 20000)

abbrev labK : S4096.Idx → BitVec 32 := (m ((c : Thread nD τ).loc main_arg1) : S4096.Idx → BitVec 32)

-- The arrays a region leaves are what the valuation after it holds at its output buffers.
theorem outs7_eq : outsK m 7 main_v10 c = (dat0 (F := Ideal) (ent0 m) c).arrAt 3 cfg0.N :=
  (show Gen.V7 m (outsK m) c main_v10 = outsK m 7 main_v10 c from Function.update_self ..).symm.trans (V7_v10 (F := Ideal) m c)

theorem outs9_1_eq : outsK m 9 main_v15_1 c = (dat1 (F := Ideal) (ent1 m) q1 c).arrAt 5 cfg1.N :=
  (show Gen.V9 m (outsK m) c main_v15_1 = outsK m 9 main_v15_1 c from Function.update_self ..).symm.trans (V9_v15_1 (F := Ideal) m c)

theorem outs9_0_eq : outsK m 9 main_v15_0 c = (dat1 (F := Ideal) (ent1 m) q1 c).arrAt 4 cfg1.N :=
  (show Gen.V9 m (outsK m) c main_v15_0 = outsK m 9 main_v15_0 c from
    (Function.update_of_ne (StableHlo.devRef_ne_of_ne (by decide) : (Proc.devRef .tc main_v15_0 : DevRef τ sig) ≠ Proc.devRef .tc main_v15_1) ..).trans
      (Function.update_self ..)).symm.trans (V9_v15_0 (F := Ideal) m c)

variable (hx : ∀ i k, (m ((c : Thread nD τ).loc main_arg0) : S4096x256.Idx → EReal) (ix2 i k) = ((xr i k : ℝ) : EReal))
  (hxpos : ∀ i, 0 < ∑ k, xr i k * xr i k)
  (hw : ∀ j k, (m ((c : Thread nD τ).loc main_arg2) : S20000x256.Idx → EReal) (ix2 j k) = ((wr j k : ℝ) : EReal))
  (hwpos : ∀ j, 0 < ∑ k, wr j k * wr j k)
  (hl : ∀ i, labK m c (ix1 i) = BitVec.ofNat 32 (lab i).val)

-- Row i of the first region's output is row i's negative log-likelihood over the normalised rows.
include hx hxpos hw hwpos hl in
theorem nll_col (i : Fin 4096) :
    (outsK m 7 main_v10 c : S4096x1.Idx → EReal) (ix2 i (0 : Fin 1))
      = ((Cert.Spec.nllR (Cert.Spec.normRow xr) (Cert.Spec.normRow wr) lab i : ℝ) : EReal) := by
  rw [outs7_eq m c]
  exact arrAt0_3 (ent0 m) c (Cert.Spec.normRow xr) (Cert.Spec.normRow wr) lab
    (fun i k => V6_main_v6 m c xr hx hxpos i k)
    (fun j k => V6_main_v8 m c wr hw hwpos j k)
    (fun i => (V6_main_v9 m c i).trans (hl i)) i

-- Its mean over the 4096 rows is the classification loss.
include hx hxpos hw hwpos hl in
theorem ker_am :
    (Gen.V18 m (outsK m) c main_v12 : S_.Idx → EReal)
      = fun _ => ((Cert.Spec.amR (Cert.Spec.normRow xr) (Cert.Spec.normRow wr) lab : ℝ) : EReal) := by
  rw [V18_main_v12 m (outsK m) c]
  funext j
  rw [eq_ix0 j]
  exact meanK_real _ (fun i => Cert.Spec.nllR (Cert.Spec.normRow xr) (Cert.Spec.normRow wr) lab i)
    (nll_col m c xr wr lab hx hxpos hw hwpos hl)

-- Row i of the second region's outputs: the summed distance to the later rows of the same label, and their number.
include hx hxpos in
theorem dsum_col (i : Fin 4096) :
    (outsK m 9 main_v15_0 c : S4096x1.Idx → EReal) (ix2 i (0 : Fin 1))
      = ((Cert.Spec.dsumR (Cert.Spec.normRow xr) (fun i => labK m c (ix1 i)) i : ℝ) : EReal) := by
  rw [outs9_0_eq m c]
  exact arrAt1_4 (ent1 m) q1 c (Cert.Spec.normRow xr) (fun i => labK m c (ix1 i))
    (fun i k => V8_main_v6_real m (outsK m) c xr hx hxpos i k)
    (fun i => V8_main_v13 m (outsK m) c i) (fun j => V8_main_v14 m (outsK m) c j) i

theorem cnt_col (i : Fin 4096) :
    (outsK m 9 main_v15_1 c : S4096x1.Idx → EReal) (ix2 i (0 : Fin 1))
      = ((Cert.Spec.cntR (fun i => labK m c (ix1 i)) i : ℝ) : EReal) := by
  rw [outs9_1_eq m c]
  exact arrAt1_5 (ent1 m) q1 c (fun i => labK m c (ix1 i))
    (fun i => V8_main_v13 m (outsK m) c i) (fun j => V8_main_v14 m (outsK m) c j) i

end Values

section Bridge

open Cert.KernelIdeal.Fr Cert.KernelIdeal.Val Cert.ReferenceIdeal.ReadP Cert.ReferenceIdeal.RefValue

-- Both programs compute the same three losses: the row values agree, and the remaining host operations are the same function of them.
theorem algebraic : Cert.algebraic_KernelIdeal_ReferenceIdeal := by
  intro m ρ m' ρ' hpre hagree
  refine ⟨fun c => Cert.KernelIdeal.Gen.V18 m (outsK m) c Cert.KernelIdeal.main_v43,
    fun c => Cert.KernelIdeal.Gen.V18 m (outsK m) c Cert.KernelIdeal.main_v12,
    fun c => Cert.KernelIdeal.Gen.V18 m (outsK m) c Cert.KernelIdeal.main_v41,
    run_vals (F := Ideal) m ρ, ?_⟩
  refine (θ_run Cert.ReferenceIdeal.defs _ _).mono (fun r h c => ?_) (Cert.ReferenceIdeal.RefFold.run_staged (F := Ideal) m' ρ')
  obtain ⟨h80, h32, h78, ha0, ha1, ha2⟩ := h c
  obtain ⟨e0, e1, e2⟩ := hagree c
  obtain ⟨⟨xr, hx, hxpos⟩, ⟨wr, hw, hwpos⟩, ⟨lab, hl⟩⟩ := Cert.PreFacts.decode _ _ _ (hpre c)
  rw [e0, e1, e2] at h80 h32
  rw [e0, e1] at h78

  have k32 : val_main_v32 (F := Ideal) (m ((c.tc : Thread _ _).loc Cert.KernelIdeal.main_arg0)) (m ((c.tc : Thread _ _).loc Cert.KernelIdeal.main_arg1)) (m ((c.tc : Thread _ _).loc Cert.KernelIdeal.main_arg2))
      = Cert.KernelIdeal.Gen.V18 m (outsK m) c Cert.KernelIdeal.main_v12 := by
    refine Eq.trans ?_ (ker_am m c xr wr lab hx hxpos hw hwpos hl).symm
    funext j
    rw [eq_ix0 j]
    exact ref_am _ _ _ (Cert.Spec.normRow xr) (Cert.Spec.normRow wr) lab
      (fun i k => ref_norm_E _ xr hx hxpos i k) (fun j k => ref_norm_W _ wr hw hwpos j k) hl

  have k78 : val_main_v78 (F := Ideal) (m ((c.tc : Thread _ _).loc Cert.KernelIdeal.main_arg0)) (m ((c.tc : Thread _ _).loc Cert.KernelIdeal.main_arg1))
      = Cert.KernelIdeal.Gen.V18 m (outsK m) c Cert.KernelIdeal.main_v41 := by
    rw [ref_intra, V18_main_v41 m (outsK m) c]
    refine (Cert.Proof.TailEq.tail_eq _ _ _ _ _ (fun i => ?_) (fun i => ?_)).symm
    · exact (dsum_col m c xr hx hxpos i).trans (ref_dsum _ _ (Cert.Spec.normRow xr) (fun i k => ref_norm_E _ xr hx hxpos i k) i).symm
    · exact (cnt_col m c i).trans (ref_cnt _ i).symm
  refine ⟨h80.trans ?_, h32.trans k32, h78.trans k78, ha0, ha1, ha2⟩
  rw [ref_total, k32, k78]
  exact (V18_main_v43 m (outsK m) c).symm

end Bridge

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
